-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v151)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v151) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v288) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S640000x128 : Shape := ⟨2, ![640000, 128]⟩
abbrev S4x128x128 : Shape := ⟨3, ![4, 128, 128]⟩
abbrev S4x128 : Shape := ⟨2, ![4, 128]⟩
abbrev S3x128 : Shape := ⟨2, ![3, 128]⟩
abbrev S_ : Shape := ⟨0, ![]⟩
abbrev S1x640000 : Shape := ⟨2, ![1, 640000]⟩
abbrev S640000 : Shape := ⟨1, ![640000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S3x128 : S_.BroadcastsInDim S3x128 (![] : Fin 0 → Fin S3x128.rank)
  reducesTo_S3x128_S_d0_1 : S3x128.ReducesTo [0, 1] S_
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  reducesTo_S640000_S_d0 : S640000.ReducesTo [0] S_

variable [Facts]

def fn_part3 {F : FTy → Type} [FloatOps F] (main_arg1 : IVec S2x640000 32) (main_v48 : IVec S_ 1) (main_v50 : IVec S640000 32) (main_c_18 : IVec S_ 32) : IVec S_ 1 :=
  let main_v51 : IVec S640000 32 := broadcastInDim S640000 ![] bcast_S_S640000 main_c_18
  let main_v52 : IVec S640000 1 := cmpi .sge main_v50 main_v51
  let main_v53 : IVec S1x640000 32 := (extractStridedSlice S1x640000 ![0, 0] · slices_S2x640000_S1x640000_0_0) main_arg1
  let main_v54 : IVec S640000 32 := shapeCast S640000 main_v53 shapeCasts_S1x640000_S640000
  let main_c_19 : IVec S_ 32 := constantI S_ 32 50000#32
  let main_v55 : IVec S640000 32 := broadcastInDim S640000 ![] bcast_S_S640000 main_c_19
  let main_v56 : IVec S640000 1 := cmpi .slt main_v54 main_v55
  let main_v57 : IVec S640000 1 := andi main_v52 main_v56
  let main_c_20 : IVec S_ 1 := constantI S_ 1 1#1
  let main_v58 : IVec S_ 1 := (fun x v => Host.reduce IntOp.andi x v reducesTo_S640000_S_d0 h_S_) main_v57 main_c_20
  let main_v59 : IVec S_ 1 := andi main_v48 main_v58
  main_v59

def fn_part2 {F : FTy → Type} [FloatOps F] (main_arg1 : IVec S2x640000 32) (main_arg8 : FVec F S4x128 .f32) (main_arg9 : FVec F S3x128 .f32) (main_arg10 : FVec F S3x128 .f32) (main_v33 : IVec S_ 1) : IVec S_ 1 :=
  let main_v34 : FVec F S4x128 .f32 := Host.absf main_arg8
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S3x128 .f32 := Host.absf main_arg9
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S3x128 .f32 := Host.absf main_arg10
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : IVec S1x640000 32 := (extractStridedSlice S1x640000 ![0, 0] · slices_S2x640000_S1x640000_0_0) main_arg1
  let main_v50 : IVec S640000 32 := shapeCast S640000 main_v49 shapeCasts_S1x640000_S640000
  let main_c_18 : IVec S_ 32 := constantI S_ 32 0#32
  fn_part3 (F := F) main_arg1 main_v48 main_v50 main_c_18

def fn_part1 {F : FTy → Type} [FloatOps F] (main_arg1 : IVec S2x640000 32) (main_arg5 : FVec F S4x128 .f32) (main_arg6 : FVec F S4x128 .f32) (main_arg7 : FVec F S4x128x128 .f32) (main_arg8 : FVec F S4x128 .f32) (main_arg9 : FVec F S3x128 .f32) (main_arg10 : FVec F S3x128 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S4x128 .f32 := Host.absf main_arg5
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128 .f32 := Host.absf main_arg6
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128x128 .f32 := Host.absf main_arg7
  let main_cst_10 : FVec F S_ .f32 := constant S_ .f32 0x7F800000#32
  let main_v30 : FVec F S4x128x128 .f32 := broadcastInDim S4x128x128 ![] bcast_S_S4x128x128 main_cst_10
  let main_v31 : IVec S4x128x128 1 := cmpf .olt main_v29 main_v30
  let main_c_11 : IVec S_ 1 := constantI S_ 1 1#1
  let main_v32 : IVec S_ 1 := (fun x v => Host.reduce IntOp.andi x v reducesTo_S4x128x128_S_d0_1_2 h_S_) main_v31 main_c_11
  let main_v33 : IVec S_ 1 := andi main_v28 main_v32
  fn_part2 (F := F) main_arg1 main_arg8 main_arg9 main_arg10 main_v33

def fn {F : FTy → Type} [FloatOps F] (main_arg0 : FVec F S50000x128 .f32) (main_arg1 : IVec S2x640000 32) (main_arg2 : FVec F S640000x128 .f32) (main_arg3 : FVec F S4x128x128 .f32) (main_arg4 : FVec F S4x128 .f32) (main_arg5 : FVec F S4x128 .f32) (main_arg6 : FVec F S4x128 .f32) (main_arg7 : FVec F S4x128x128 .f32) (main_arg8 : FVec F S4x128 .f32) (main_arg9 : FVec F S3x128 .f32) (main_arg10 : FVec F S3x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000x128 .f32 := Host.absf main_arg2
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S4x128x128 .f32 := Host.absf main_arg3
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_c_3 : IVec S_ 1 := constantI S_ 1 1#1
  let main_v12 : IVec S_ 1 := (fun x v => Host.reduce IntOp.andi x v reducesTo_S4x128x128_S_d0_1_2 h_S_) main_v11 main_c_3
  let main_v13 : IVec S_ 1 := andi main_v8 main_v12
  let main_v14 : FVec F S4x128 .f32 := Host.absf main_arg4
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg1 main_arg5 main_arg6 main_arg7 main_arg8 main_arg9 main_arg10 main_v13 main_v16
-- ==== Kernel.lean ====
abbrev S50000x128 : Shape := ⟨2, ![50000, 128]⟩
abbrev S2x640000 : Shape := ⟨2, ![2, 640000]⟩
abbrev S640000x128 : Shape := ⟨2, ![640000, 128]⟩
abbrev S4x128x128 : Shape := ⟨3, ![4, 128, 128]⟩
abbrev S4x128 : Shape := ⟨2, ![4, 128]⟩
abbrev S3x128 : Shape := ⟨2, ![3, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S8000x128 : Shape := ⟨2, ![8000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩

abbrev nBuf : Space → Nat
  | .hbm => 430
  | .vmem => 120
  | .smem => 0
  | _ => 0

abbrev hbmTy0_0 (i : Nat) : BufTy := match i % 128 with
  | 0 => ⟨S50000x128, .f32⟩
  | 1 => ⟨S2x640000, .i32⟩
  | 2 => ⟨S640000x128, .f32⟩
  | 3 => ⟨S4x128x128, .f32⟩
  | 4 => ⟨S4x128, .f32⟩
  | 5 => ⟨S4x128, .f32⟩
  | 6 => ⟨S4x128, .f32⟩
  | 7 => ⟨S4x128x128, .f32⟩
  | 8 => ⟨S4x128, .f32⟩
  | 9 => ⟨S3x128, .f32⟩
  | 10 => ⟨S3x128, .f32⟩
  | 11 => ⟨S1x640000, .i32⟩
  | 12 => ⟨S640000, .i32⟩
  | 13 => ⟨S1x640000, .i32⟩
  | 14 => ⟨S640000, .i32⟩
  | 15 => ⟨S_, .i32⟩
  | 16 => ⟨S640000, .i32⟩
  | 17 => ⟨S640000, .i1⟩
  | 18 => ⟨S_, .i32⟩
  | 19 => ⟨S640000, .i32⟩
  | 20 => ⟨S640000, .i32⟩
  | 21 => ⟨S640000, .i32⟩
  | 22 => ⟨S640000x1, .i32⟩
  | 23 => ⟨S1, .i32⟩
  | 24 => ⟨S_, .i32⟩
  | 25 => ⟨S640000x1, .i32⟩
  | 26 => ⟨S640000x1, .i1⟩
  | 27 => ⟨S1x1, .i32⟩
  | 28 => ⟨S640000x1, .i32⟩
  | 29 => ⟨S640000x1, .i1⟩
  | 30 => ⟨S640000x1, .i1⟩
  | 31 => ⟨S_, .i1⟩
  | 32 => ⟨S640000, .i1⟩
  | 33 => ⟨S640000x128, .f32⟩
  | 34 => ⟨S640000x128, .i1⟩
  | 35 => ⟨S_, .f32⟩
  | 36 => ⟨S640000x128, .f32⟩
  | 37 => ⟨S640000x128, .f32⟩
  | 38 => ⟨S640000x128, .f32⟩
  | 39 => ⟨S_, .f32⟩
  | 40 => ⟨S50000x128, .f32⟩
  | 41 => ⟨S640000x1, .i32⟩
  | 42 => ⟨S50000x128, .f32⟩
  | 43 => ⟨S1x128x128, .f32⟩
  | 44 => ⟨S128x128, .f32⟩
  | 45 => ⟨S1x128, .f32⟩
  | 46 => ⟨S128, .f32⟩
  | 47 => ⟨S1x128, .f32⟩
  | 48 => ⟨S50000x128, .f32⟩
  | 49 => ⟨S_, .f32⟩
  | 50 => ⟨S128, .f32⟩
  | 51 => ⟨S1x128, .f32⟩
  | 52 => ⟨S_, .f32⟩
  | 53 => ⟨S1x128, .f32⟩
  | 54 => ⟨S1x128, .f32⟩
  | 55 => ⟨S_, .i32⟩
  | 56 => ⟨S_, .f32⟩
  | 57 => ⟨S128, .f32⟩
  | 58 => ⟨S1x128, .f32⟩
  | 59 => ⟨S_, .f32⟩
  | 60 => ⟨S1x128, .f32⟩
  | 61 => ⟨S1x128, .f32⟩
  | 62 => ⟨S50000x128, .f32⟩
  | 63 => ⟨S50000x128, .f32⟩
  | 64 => ⟨S50000x128, .f32⟩
  | 65 => ⟨S_, .f32⟩
  | 66 => ⟨S_, .f32⟩
  | 67 => ⟨S_, .f32⟩
  | 68 => ⟨S_, .f32⟩
  | 69 => ⟨S128, .f32⟩
  | 70 => ⟨S1x128, .f32⟩
  | 71 => ⟨S1x128, .f32⟩
  | 72 => ⟨S1x128, .f32⟩
  | 73 => ⟨S_, .f32⟩
  | 74 => ⟨S_, .i1⟩
  | 75 => ⟨S_, .f32⟩
  | 76 => ⟨S_, .f32⟩
  | 77 => ⟨S1x128, .f32⟩
  | 78 => ⟨S1x128, .f32⟩
  | 79 => ⟨S1x128, .f32⟩
  | 80 => ⟨S128, .f32⟩
  | 81 => ⟨S1x128, .f32⟩
  | 82 => ⟨S1x128, .f32⟩
  | 83 => ⟨S128, .f32⟩
  | 84 => ⟨S1x128, .f32⟩
  | 85 => ⟨S1x128x128, .f32⟩
  | 86 => ⟨S128x128, .f32⟩
  | 87 => ⟨S1x128, .f32⟩
  | 88 => ⟨S128, .f32⟩
  | 89 => ⟨S1x128, .f32⟩
  | 90 => ⟨S50000x128, .f32⟩
  | 91 => ⟨S_, .f32⟩
  | 92 => ⟨S128, .f32⟩
  | 93 => ⟨S1x128, .f32⟩
  | 94 => ⟨S_, .f32⟩
  | 95 => ⟨S1x128, .f32⟩
  | 96 => ⟨S1x128, .f32⟩
  | 97 => ⟨S_, .i32⟩
  | 98 => ⟨S_, .f32⟩
  | 99 => ⟨S128, .f32⟩
  | 100 => ⟨S1x128, .f32⟩
  | 101 => ⟨S_, .f32⟩
  | 102 => ⟨S1x128, .f32⟩
  | 103 => ⟨S1x128, .f32⟩
  | 104 => ⟨S50000x128, .f32⟩
  | 105 => ⟨S50000x128, .f32⟩
  | 106 => ⟨S50000x128, .f32⟩
  | 107 => ⟨S_, .f32⟩
  | 108 => ⟨S_, .f32⟩
  | 109 => ⟨S_, .f32⟩
  | 110 => ⟨S_, .f32⟩
  | 111 => ⟨S128, .f32⟩
  | 112 => ⟨S1x128, .f32⟩
  | 113 => ⟨S1x128, .f32⟩
  | 114 => ⟨S1x128, .f32⟩
  | 115 => ⟨S_, .f32⟩
  | 116 => ⟨S_, .i1⟩
  | 117 => ⟨S_, .f32⟩
  | 118 => ⟨S_, .f32⟩
  | 119 => ⟨S1x128, .f32⟩
  | 120 => ⟨S1x128, .f32⟩
  | 121 => ⟨S1x128, .f32⟩
  | 122 => ⟨S128, .f32⟩
  | 123 => ⟨S1x128, .f32⟩
  | 124 => ⟨S1x128, .f32⟩
  | 125 => ⟨S128, .f32⟩
  | 126 => ⟨S1x128, .f32⟩
  | 127 => ⟨S50000x128, .f32⟩
  | _ => ⟨S50000x128, .f32⟩

abbrev hbmTy0_1 (i : Nat) : BufTy := match i % 128 with
  | 0 => ⟨S_, .i32⟩
  | 1 => ⟨S640000, .i32⟩
  | 2 => ⟨S640000, .i1⟩
  | 3 => ⟨S_, .i32⟩
  | 4 => ⟨S640000, .i32⟩
  | 5 => ⟨S640000, .i32⟩
  | 6 => ⟨S640000, .i32⟩
  | 7 => ⟨S640000x1, .i32⟩
  | 8 => ⟨S1, .i32⟩
  | 9 => ⟨S_, .i32⟩
  | 10 => ⟨S640000x1, .i32⟩
  | 11 => ⟨S640000x1, .i1⟩
  | 12 => ⟨S1x1, .i32⟩
  | 13 => ⟨S640000x1, .i32⟩
  | 14 => ⟨S640000x1, .i1⟩
  | 15 => ⟨S640000x1, .i1⟩
  | 16 => ⟨S_, .i1⟩
  | 17 => ⟨S640000, .i1⟩
  | 18 => ⟨S640000x128, .f32⟩
  | 19 => ⟨S640000x128, .i1⟩
  | 20 => ⟨S_, .f32⟩
  | 21 => ⟨S640000x128, .f32⟩
  | 22 => ⟨S640000x128, .f32⟩
  | 23 => ⟨S640000x128, .f32⟩
  | 24 => ⟨S_, .f32⟩
  | 25 => ⟨S50000x128, .f32⟩
  | 26 => ⟨S640000x1, .i32⟩
  | 27 => ⟨S50000x128, .f32⟩
  | 28 => ⟨S1x128x128, .f32⟩
  | 29 => ⟨S128x128, .f32⟩
  | 30 => ⟨S1x128, .f32⟩
  | 31 => ⟨S128, .f32⟩
  | 32 => ⟨S1x128, .f32⟩
  | 33 => ⟨S50000x128, .f32⟩
  | 34 => ⟨S_, .f32⟩
  | 35 => ⟨S128, .f32⟩
  | 36 => ⟨S1x128, .f32⟩
  | 37 => ⟨S_, .f32⟩
  | 38 => ⟨S1x128, .f32⟩
  | 39 => ⟨S1x128, .f32⟩
  | 40 => ⟨S_, .i32⟩
  | 41 => ⟨S_, .f32⟩
  | 42 => ⟨S128, .f32⟩
  | 43 => ⟨S1x128, .f32⟩
  | 44 => ⟨S_, .f32⟩
  | 45 => ⟨S1x128, .f32⟩
  | 46 => ⟨S1x128, .f32⟩
  | 47 => ⟨S50000x128, .f32⟩
  | 48 => ⟨S50000x128, .f32⟩
  | 49 => ⟨S50000x128, .f32⟩
  | 50 => ⟨S_, .f32⟩
  | 51 => ⟨S_, .f32⟩
  | 52 => ⟨S_, .f32⟩
  | 53 => ⟨S_, .f32⟩
  | 54 => ⟨S128, .f32⟩
  | 55 => ⟨S1x128, .f32⟩
  | 56 => ⟨S1x128, .f32⟩
  | 57 => ⟨S1x128, .f32⟩
  | 58 => ⟨S_, .f32⟩
  | 59 => ⟨S_, .i1⟩
  | 60 => ⟨S_, .f32⟩
  | 61 => ⟨S_, .f32⟩
  | 62 => ⟨S1x128, .f32⟩
  | 63 => ⟨S1x128, .f32⟩
  | 64 => ⟨S1x128, .f32⟩
  | 65 => ⟨S128, .f32⟩
  | 66 => ⟨S1x128, .f32⟩
  | 67 => ⟨S1x128, .f32⟩
  | 68 => ⟨S128, .f32⟩
  | 69 => ⟨S1x128, .f32⟩
  | 70 => ⟨S1x128x128, .f32⟩
  | 71 => ⟨S128x128, .f32⟩
  | 72 => ⟨S1x128, .f32⟩
  | 73 => ⟨S128, .f32⟩
  | 74 => ⟨S1x128, .f32⟩
  | 75 => ⟨S50000x128, .f32⟩
  | 76 => ⟨S_, .f32⟩
  | 77 => ⟨S128, .f32⟩
  | 78 => ⟨S1x128, .f32⟩
  | 79 => ⟨S_, .f32⟩
  | 80 => ⟨S1x128, .f32⟩
  | 81 => ⟨S1x128, .f32⟩
  | 82 => ⟨S_, .i32⟩
  | 83 => ⟨S_, .f32⟩
  | 84 => ⟨S128, .f32⟩
  | 85 => ⟨S1x128, .f32⟩
  | 86 => ⟨S_, .f32⟩
  | 87 => ⟨S1x128, .f32⟩
  | 88 => ⟨S1x128, .f32⟩
  | 89 => ⟨S50000x128, .f32⟩
  | 90 => ⟨S50000x128, .f32⟩
  | 91 => ⟨S50000x128, .f32⟩
  | 92 => ⟨S_, .f32⟩
  | 93 => ⟨S_, .f32⟩
  | 94 => ⟨S_, .f32⟩
  | 95 => ⟨S_, .f32⟩
  | 96 => ⟨S128, .f32⟩
  | 97 => ⟨S1x128, .f32⟩
  | 98 => ⟨S1x128, .f32⟩
  | 99 => ⟨S1x128, .f32⟩
  | 100 => ⟨S_, .f32⟩
  | 101 => ⟨S_, .i1⟩
  | 102 => ⟨S_, .f32⟩
  | 103 => ⟨S_, .f32⟩
  | 104 => ⟨S1x128, .f32⟩
  | 105 => ⟨S1x128, .f32⟩
  | 106 => ⟨S1x128, .f32⟩
  | 107 => ⟨S128, .f32⟩
  | 108 => ⟨S1x128, .f32⟩
  | 109 => ⟨S1x128, .f32⟩
  | 110 => ⟨S128, .f32⟩
  | 111 => ⟨S1x128, .f32⟩
  | 112 => ⟨S50000x128, .f32⟩
  | 113 => ⟨S_, .i32⟩
  | 114 => ⟨S640000, .i32⟩
  | 115 => ⟨S640000, .i1⟩
  | 116 => ⟨S_, .i32⟩
  | 117 => ⟨S640000, .i32⟩
  | 118 => ⟨S640000, .i32⟩
  | 119 => ⟨S640000, .i32⟩
  | 120 => ⟨S640000x1, .i32⟩
  | 121 => ⟨S1, .i32⟩
  | 122 => ⟨S_, .i32⟩
  | 123 => ⟨S640000x1, .i32⟩
  | 124 => ⟨S640000x1, .i1⟩
  | 125 => ⟨S1x1, .i32⟩
  | 126 => ⟨S640000x1, .i32⟩
  | 127 => ⟨S640000x1, .i1⟩
  | _ => ⟨S50000x128, .f32⟩

abbrev hbmTy0_2 (i : Nat) : BufTy := match i % 128 with
  | 0 => ⟨S640000x1, .i1⟩
  | 1 => ⟨S_, .i1⟩
  | 2 => ⟨S640000, .i1⟩
  | 3 => ⟨S640000x128, .f32⟩
  | 4 => ⟨S640000x128, .i1⟩
  | 5 => ⟨S_, .f32⟩
  | 6 => ⟨S640000x128, .f32⟩
  | 7 => ⟨S640000x128, .f32⟩
  | 8 => ⟨S640000x128, .f32⟩
  | 9 => ⟨S_, .f32⟩
  | 10 => ⟨S50000x128, .f32⟩
  | 11 => ⟨S640000x1, .i32⟩
  | 12 => ⟨S50000x128, .f32⟩
  | 13 => ⟨S1x128x128, .f32⟩
  | 14 => ⟨S128x128, .f32⟩
  | 15 => ⟨S1x128, .f32⟩
  | 16 => ⟨S128, .f32⟩
  | 17 => ⟨S1x128, .f32⟩
  | 18 => ⟨S50000x128, .f32⟩
  | 19 => ⟨S_, .f32⟩
  | 20 => ⟨S128, .f32⟩
  | 21 => ⟨S1x128, .f32⟩
  | 22 => ⟨S_, .f32⟩
  | 23 => ⟨S1x128, .f32⟩
  | 24 => ⟨S1x128, .f32⟩
  | 25 => ⟨S_, .i32⟩
  | 26 => ⟨S_, .f32⟩
  | 27 => ⟨S128, .f32⟩
  | 28 => ⟨S1x128, .f32⟩
  | 29 => ⟨S_, .f32⟩
  | 30 => ⟨S1x128, .f32⟩
  | 31 => ⟨S1x128, .f32⟩
  | 32 => ⟨S50000x128, .f32⟩
  | 33 => ⟨S50000x128, .f32⟩
  | 34 => ⟨S50000x128, .f32⟩
  | 35 => ⟨S_, .f32⟩
  | 36 => ⟨S_, .f32⟩
  | 37 => ⟨S_, .f32⟩
  | 38 => ⟨S_, .f32⟩
  | 39 => ⟨S128, .f32⟩
  | 40 => ⟨S1x128, .f32⟩
  | 41 => ⟨S1x128, .f32⟩
  | 42 => ⟨S1x128, .f32⟩
  | 43 => ⟨S_, .f32⟩
  | 44 => ⟨S_, .i1⟩
  | 45 => ⟨S_, .f32⟩
  | 46 => ⟨S_, .f32⟩
  | 47 => ⟨S1x128, .f32⟩
  | 48 => ⟨S1x128, .f32⟩
  | 49 => ⟨S1x128, .f32⟩
  | 50 => ⟨S128, .f32⟩
  | 51 => ⟨S1x128, .f32⟩
  | 52 => ⟨S1x128, .f32⟩
  | 53 => ⟨S128, .f32⟩
  | 54 => ⟨S1x128, .f32⟩
  | 55 => ⟨S1x128x128, .f32⟩
  | 56 => ⟨S128x128, .f32⟩
  | 57 => ⟨S1x128, .f32⟩
  | 58 => ⟨S128, .f32⟩
  | 59 => ⟨S1x128, .f32⟩
  | 60 => ⟨S50000x128, .f32⟩
  | 61 => ⟨S_, .f32⟩
  | 62 => ⟨S128, .f32⟩
  | 63 => ⟨S1x128, .f32⟩
  | 64 => ⟨S_, .f32⟩
  | 65 => ⟨S1x128, .f32⟩
  | 66 => ⟨S1x128, .f32⟩
  | 67 => ⟨S_, .i32⟩
  | 68 => ⟨S_, .f32⟩
  | 69 => ⟨S128, .f32⟩
  | 70 => ⟨S1x128, .f32⟩
  | 71 => ⟨S_, .f32⟩
  | 72 => ⟨S1x128, .f32⟩
  | 73 => ⟨S1x128, .f32⟩
  | 74 => ⟨S50000x128, .f32⟩
  | 75 => ⟨S50000x128, .f32⟩
  | 76 => ⟨S50000x128, .f32⟩
  | 77 => ⟨S_, .f32⟩
  | 78 => ⟨S_, .f32⟩
  | 79 => ⟨S_, .f32⟩
  | 80 => ⟨S_, .f32⟩
  | 81 => ⟨S128, .f32⟩
  | 82 => ⟨S1x128, .f32⟩
  | 83 => ⟨S1x128, .f32⟩
  | 84 => ⟨S1x128, .f32⟩
  | 85 => ⟨S_, .f32⟩
  | 86 => ⟨S_, .i1⟩
  | 87 => ⟨S_, .f32⟩
  | 88 => ⟨S_, .f32⟩
  | 89 => ⟨S1x128, .f32⟩
  | 90 => ⟨S1x128, .f32⟩
  | 91 => ⟨S1x128, .f32⟩
  | 92 => ⟨S128, .f32⟩
  | 93 => ⟨S1x128, .f32⟩
  | 94 => ⟨S1x128, .f32⟩
  | 95 => ⟨S128, .f32⟩
  | 96 => ⟨S1x128, .f32⟩
  | 97 => ⟨S50000x128, .f32⟩
  | 98 => ⟨S_, .i32⟩
  | 99 => ⟨S640000, .i32⟩
  | 100 => ⟨S640000, .i1⟩
  | 101 => ⟨S_, .i32⟩
  | 102 => ⟨S640000, .i32⟩
  | 103 => ⟨S640000, .i32⟩
  | 104 => ⟨S640000, .i32⟩
  | 105 => ⟨S640000x1, .i32⟩
  | 106 => ⟨S1, .i32⟩
  | 107 => ⟨S_, .i32⟩
  | 108 => ⟨S640000x1, .i32⟩
  | 109 => ⟨S640000x1, .i1⟩
  | 110 => ⟨S1x1, .i32⟩
  | 111 => ⟨S640000x1, .i32⟩
  | 112 => ⟨S640000x1, .i1⟩
  | 113 => ⟨S640000x1, .i1⟩
  | 114 => ⟨S_, .i1⟩
  | 115 => ⟨S640000, .i1⟩
  | 116 => ⟨S640000x128, .f32⟩
  | 117 => ⟨S640000x128, .i1⟩
  | 118 => ⟨S_, .f32⟩
  | 119 => ⟨S640000x128, .f32⟩
  | 120 => ⟨S640000x128, .f32⟩
  | 121 => ⟨S640000x128, .f32⟩
  | 122 => ⟨S_, .f32⟩
  | 123 => ⟨S50000x128, .f32⟩
  | 124 => ⟨S640000x1, .i32⟩
  | 125 => ⟨S50000x128, .f32⟩
  | 126 => ⟨S1x128x128, .f32⟩
  | 127 => ⟨S128x128, .f32⟩
  | _ => ⟨S50000x128, .f32⟩

abbrev hbmTy0_3 (i : Nat) : BufTy := match i % 128 with
  | 0 => ⟨S1x128, .f32⟩
  | 1 => ⟨S128, .f32⟩
  | 2 => ⟨S1x128, .f32⟩
  | 3 => ⟨S50000x128, .f32⟩
  | 4 => ⟨S_, .f32⟩
  | 5 => ⟨S128, .f32⟩
  | 6 => ⟨S1x128, .f32⟩
  | 7 => ⟨S_, .f32⟩
  | 8 => ⟨S1x128, .f32⟩
  | 9 => ⟨S1x128, .f32⟩
  | 10 => ⟨S_, .i32⟩
  | 11 => ⟨S_, .f32⟩
  | 12 => ⟨S128, .f32⟩
  | 13 => ⟨S1x128, .f32⟩
  | 14 => ⟨S_, .f32⟩
  | 15 => ⟨S1x128, .f32⟩
  | 16 => ⟨S1x128, .f32⟩
  | 17 => ⟨S50000x128, .f32⟩
  | 18 => ⟨S50000x128, .f32⟩
  | 19 => ⟨S50000x128, .f32⟩
  | 20 => ⟨S_, .f32⟩
  | 21 => ⟨S_, .f32⟩
  | 22 => ⟨S_, .f32⟩
  | 23 => ⟨S_, .f32⟩
  | 24 => ⟨S128, .f32⟩
  | 25 => ⟨S1x128, .f32⟩
  | 26 => ⟨S1x128, .f32⟩
  | 27 => ⟨S1x128, .f32⟩
  | 28 => ⟨S_, .f32⟩
  | 29 => ⟨S_, .i1⟩
  | 30 => ⟨S_, .f32⟩
  | 31 => ⟨S_, .f32⟩
  | 32 => ⟨S1x128, .f32⟩
  | 33 => ⟨S1x128, .f32⟩
  | 34 => ⟨S1x128, .f32⟩
  | 35 => ⟨S128, .f32⟩
  | 36 => ⟨S1x128, .f32⟩
  | 37 => ⟨S1x128, .f32⟩
  | 38 => ⟨S128, .f32⟩
  | 39 => ⟨S1x128, .f32⟩
  | 40 => ⟨S1x128x128, .f32⟩
  | 41 => ⟨S128x128, .f32⟩
  | 42 => ⟨S1x128, .f32⟩
  | 43 => ⟨S128, .f32⟩
  | 44 => ⟨S1x128, .f32⟩
  | 45 => ⟨S50000x128, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S8000x128, .f32⟩
  | .local _ .vmem, ⟨5, _⟩ => ⟨S8000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S8000x128, .f32⟩
  | .local _ .vmem, ⟨33, _⟩ => ⟨S8000x128, .f32⟩
  | .local _ .vmem, ⟨34, _⟩ => ⟨S8000x128, .f32⟩
  | .local _ .vmem, ⟨35, _⟩ => ⟨S8000x128, .f32⟩
  | .local _ .vmem, ⟨36, _⟩ => ⟨S8000x128, .f32⟩
  | .local _ .vmem, ⟨37, _⟩ => ⟨S8000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128x128, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S128x128, .f32⟩
  | .local _ .vmem, ⟨53, _⟩ => ⟨S1x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S1x128, .f32⟩
  | .local _ .vmem, ⟨59, _⟩ => ⟨S1x128, .f32⟩
  | .local _ .vmem, ⟨60, _⟩ => ⟨S1x128, .f32⟩
  | .local _ .vmem, ⟨61, _⟩ => ⟨S1x128, .f32⟩
  | .local _ .vmem, ⟨62, _⟩ => ⟨S5000x128, .f32⟩
  | .local _ .vmem, ⟨63, _⟩ => ⟨S5000x128, .f32⟩
  | .local _ .vmem, ⟨64, _⟩ => ⟨S8000x128, .f32⟩
  | .local _ .vmem, ⟨65, _⟩ => ⟨S8000x128, .f32⟩
  | .local _ .vmem, ⟨66, _⟩ => ⟨S8000x128, .f32⟩
  | .local _ .vmem, ⟨67, _⟩ => ⟨S8000x128, .f32⟩
  | .local _ .vmem, ⟨68, _⟩ => ⟨S8000x128, .f32⟩
  | .local _ .vmem, ⟨69, _⟩ => ⟨S8000x128, .f32⟩
  | .local _ .vmem, ⟨70, _⟩ => ⟨S5000x128, .f32⟩
  | .local _ .vmem, ⟨71, _⟩ => ⟨S5000x128, .f32⟩
  | .local _ .vmem, ⟨72, _⟩ => ⟨S5000x128, .f32⟩
  | .local _ .vmem, ⟨73, _⟩ => ⟨S5000x128, .f32⟩
  | .local _ .vmem, ⟨74, _⟩ => ⟨S128x128, .f32⟩
  | .local _ .vmem, ⟨75, _⟩ => ⟨S1x128, .f32⟩
  | .local _ .vmem, ⟨76, _⟩ => ⟨S5000x128, .f32⟩
  | .local _ .vmem, ⟨77, _⟩ => ⟨S5000x128, .f32⟩
  | .local _ .vmem, ⟨78, _⟩ => ⟨S5000x128, .f32⟩
  | .local _ .vmem, ⟨79, _⟩ => ⟨S5000x128, .f32⟩
  | .local _ .vmem, ⟨80, _⟩ => ⟨S1x128, .f32⟩
  | .local _ .vmem, ⟨81, _⟩ => ⟨S1x128, .f32⟩
  | .local _ .vmem, ⟨82, _⟩ => ⟨S1x128, .f32⟩
  | .local _ .vmem, ⟨83, _⟩ => ⟨S1x128, .f32⟩
  | .local _ .vmem, ⟨84, _⟩ => ⟨S128x128, .f32⟩
  | .local _ .vmem, ⟨85, _⟩ => ⟨S1x128, .f32⟩
  | .local _ .vmem, ⟨86, _⟩ => ⟨S5000x128, .f32⟩
  | .local _ .vmem, ⟨87, _⟩ => ⟨S5000x128, .f32⟩
  | .local _ .vmem, ⟨88, _⟩ => ⟨S5000x128, .f32⟩
  | .local _ .vmem, ⟨89, _⟩ => ⟨S5000x128, .f32⟩
  | .local _ .vmem, ⟨90, _⟩ => ⟨S1x128, .f32⟩
  | .local _ .vmem, ⟨91, _⟩ => ⟨S1x128, .f32⟩
  | .local _ .vmem, ⟨92, _⟩ => ⟨S1x128, .f32⟩
  | .local _ .vmem, ⟨93, _⟩ => ⟨S1x128, .f32⟩
  | .local _ .vmem, ⟨94, _⟩ => ⟨S5000x128, .f32⟩
  | .local _ .vmem, ⟨95, _⟩ => ⟨S5000x128, .f32⟩
  | .local _ .vmem, ⟨96, _⟩ => ⟨S8000x128, .f32⟩
  | .local _ .vmem, ⟨97, _⟩ => ⟨S8000x128, .f32⟩
  | .local _ .vmem, ⟨98, _⟩ => ⟨S8000x128, .f32⟩
  | .local _ .vmem, ⟨99, _⟩ => ⟨S8000x128, .f32⟩
  | .local _ .vmem, ⟨100, _⟩ => ⟨S8000x128, .f32⟩
  | .local _ .vmem, ⟨101, _⟩ => ⟨S8000x128, .f32⟩
  | .local _ .vmem, ⟨102, _⟩ => ⟨S5000x128, .f32⟩
  | .local _ .vmem, ⟨103, _⟩ => ⟨S5000x128, .f32⟩
  | .local _ .vmem, ⟨104, _⟩ => ⟨S5000x128, .f32⟩
  | .local _ .vmem, ⟨105, _⟩ => ⟨S5000x128, .f32⟩
  | .local _ .vmem, ⟨106, _⟩ => ⟨S128x128, .f32⟩
  | .local _ .vmem, ⟨107, _⟩ => ⟨S1x128, .f32⟩
  | .local _ .vmem, ⟨108, _⟩ => ⟨S5000x128, .f32⟩
  | .local _ .vmem, ⟨109, _⟩ => ⟨S5000x128, .f32⟩
  | .local _ .vmem, ⟨110, _⟩ => ⟨S5000x128, .f32⟩
  | .local _ .vmem, ⟨111, _⟩ => ⟨S5000x128, .f32⟩
  | .local _ .vmem, ⟨112, _⟩ => ⟨S1x128, .f32⟩
  | .local _ .vmem, ⟨113, _⟩ => ⟨S1x128, .f32⟩
  | .local _ .vmem, ⟨114, _⟩ => ⟨S1x128, .f32⟩
  | .local _ .vmem, ⟨115, _⟩ => ⟨S1x128, .f32⟩
  | .local _ .vmem, ⟨116, _⟩ => ⟨S128x128, .f32⟩
  | .local _ .vmem, ⟨117, _⟩ => ⟨S1x128, .f32⟩
  | .local _ .vmem, ⟨118, _⟩ => ⟨S5000x128, .f32⟩
  | .local _ .vmem, ⟨119, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | _, _ => false

abbrev semScoped : Fin 0 → Bool
  | ⟨_, h⟩ => absurd h (Nat.not_lt_zero _)

abbrev dmaSemScoped : Fin 120 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | _ => false

abbrev sig : RefSig :=
  ofTc nBuf bufTy 0 120 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v4 : Ref sig .tc := ⟨.hbm, 37, rfl⟩
abbrev main_v5 : Ref sig .tc := ⟨.hbm, 38, rfl⟩
abbrev main_cst : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_cst_0 : Ref sig .tc := ⟨.hbm, 49, rfl⟩
abbrev main_v15 : Ref sig .tc := ⟨.hbm, 50, rfl⟩
abbrev main_v16 : Ref sig .tc := ⟨.hbm, 51, rfl⟩
abbrev main_cst_1 : Ref sig .tc := ⟨.hbm, 52, rfl⟩
abbrev main_v17 : Ref sig .tc := ⟨.hbm, 53, rfl⟩
abbrev main_v18 : Ref sig .tc := ⟨.hbm, 54, rfl⟩
abbrev main_c : Ref sig .tc := ⟨.hbm, 55, rfl⟩
abbrev main_call1_cst : Ref sig .tc := ⟨.hbm, 56, rfl⟩
abbrev main_call1_v0 : Ref sig .tc := ⟨.hbm, 57, rfl⟩
abbrev main_call1_v1 : Ref sig .tc := ⟨.hbm, 58, rfl⟩
abbrev main_call1_cst_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_v6 : Ref sig .tc := ⟨.hbm, 64, rfl⟩
abbrev main_call1_v7 : Ref sig .tc := ⟨.hbm, 65, rfl⟩
abbrev main_call1_cst_1 : Ref sig .tc := ⟨.hbm, 66, rfl⟩
abbrev main_call1_v8 : Ref sig .tc := ⟨.hbm, 67, rfl⟩
abbrev main_call1_cst_2 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_v12 : Ref sig .tc := ⟨.hbm, 72, rfl⟩
abbrev main_call1_cst_3 : Ref sig .tc := ⟨.hbm, 73, rfl⟩
abbrev main_call1_v13 : Ref sig .tc := ⟨.hbm, 74, rfl⟩
abbrev main_call1_cst_4 : Ref sig .tc := ⟨.hbm, 75, rfl⟩
abbrev main_call1_call0_v0 : Ref sig .tc := ⟨.hbm, 76, rfl⟩
abbrev main_call1_call0_v1 : Ref sig .tc := ⟨.hbm, 77, rfl⟩
abbrev main_v19 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_cst_2 : Ref sig .tc := ⟨.hbm, 91, rfl⟩
abbrev main_v32 : Ref sig .tc := ⟨.hbm, 92, rfl⟩
abbrev main_v33 : Ref sig .tc := ⟨.hbm, 93, rfl⟩
abbrev main_cst_3 : Ref sig .tc := ⟨.hbm, 94, rfl⟩
abbrev main_v34 : Ref sig .tc := ⟨.hbm, 95, rfl⟩
abbrev main_v35 : Ref sig .tc := ⟨.hbm, 96, rfl⟩
abbrev main_c_4 : Ref sig .tc := ⟨.hbm, 97, rfl⟩
abbrev main_call2_cst : Ref sig .tc := ⟨.hbm, 98, rfl⟩
abbrev main_call2_v0 : Ref sig .tc := ⟨.hbm, 99, rfl⟩
abbrev main_call2_v1 : Ref sig .tc := ⟨.hbm, 100, rfl⟩
abbrev main_call2_cst_0 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_call2_v5 : Ref sig .tc := ⟨.hbm, 105, rfl⟩
abbrev main_call2_v6 : Ref sig .tc := ⟨.hbm, 106, rfl⟩
abbrev main_call2_v7 : Ref sig .tc := ⟨.hbm, 107, rfl⟩
abbrev main_call2_cst_1 : Ref sig .tc := ⟨.hbm, 108, rfl⟩
abbrev main_call2_v8 : Ref sig .tc := ⟨.hbm, 109, rfl⟩
abbrev main_call2_cst_2 : Ref sig .tc := ⟨.hbm, 110, rfl⟩
abbrev main_call2_v9 : Ref sig .tc := ⟨.hbm, 111, rfl⟩
abbrev main_call2_v10 : Ref sig .tc := ⟨.hbm, 112, rfl⟩
abbrev main_call2_v11 : Ref sig .tc := ⟨.hbm, 113, rfl⟩
abbrev main_call2_v12 : Ref sig .tc := ⟨.hbm, 114, rfl⟩
abbrev main_call2_cst_3 : Ref sig .tc := ⟨.hbm, 115, rfl⟩
abbrev main_call2_v13 : Ref sig .tc := ⟨.hbm, 116, rfl⟩
abbrev main_call2_cst_4 : Ref sig .tc := ⟨.hbm, 117, rfl⟩
abbrev main_call2_call0_v0 : Ref sig .tc := ⟨.hbm, 118, rfl⟩
abbrev main_call2_call0_v1 : Ref sig .tc := ⟨.hbm, 119, rfl⟩
abbrev main_v36 : Ref sig .tc := ⟨.hbm, 120, rfl⟩
abbrev main_v37 : Ref sig .tc := ⟨.hbm, 121, rfl⟩
abbrev main_v38 : Ref sig .tc := ⟨.hbm, 122, rfl⟩
abbrev main_v39 : Ref sig .tc := ⟨.hbm, 123, rfl⟩
abbrev main_v40 : Ref sig .tc := ⟨.hbm, 124, rfl⟩
abbrev main_v41 : Ref sig .tc := ⟨.hbm, 125, rfl⟩
abbrev main_v42 : Ref sig .tc := ⟨.hbm, 126, rfl⟩
abbrev main_v43 : Ref sig .tc := ⟨.hbm, 127, rfl⟩
abbrev main_call3_c : Ref sig .tc := ⟨.hbm, 128, rfl⟩
abbrev main_call3_v0 : Ref sig .tc := ⟨.hbm, 129, rfl⟩
abbrev main_call3_v1 : Ref sig .tc := ⟨.hbm, 130, rfl⟩
abbrev main_call3_c_0 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_call3_v5 : Ref sig .tc := ⟨.hbm, 135, rfl⟩
abbrev main_call3_c_1 : Ref sig .tc := ⟨.hbm, 136, rfl⟩
abbrev main_call3_c_2 : Ref sig .tc := ⟨.hbm, 137, rfl⟩
abbrev main_call3_v6 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_call3_v11 : Ref sig .tc := ⟨.hbm, 143, rfl⟩
abbrev main_call3_c_3 : Ref sig .tc := ⟨.hbm, 144, rfl⟩
abbrev main_call3_v12 : Ref sig .tc := ⟨.hbm, 145, rfl⟩
abbrev main_call3_v13 : Ref sig .tc := ⟨.hbm, 146, rfl⟩
abbrev main_call3_v14 : Ref sig .tc := ⟨.hbm, 147, rfl⟩
abbrev main_call3_cst : Ref sig .tc := ⟨.hbm, 148, rfl⟩
abbrev main_call3_v15 : Ref sig .tc := ⟨.hbm, 149, rfl⟩
abbrev main_v44 : Ref sig .tc := ⟨.hbm, 150, rfl⟩
abbrev main_v45 : Ref sig .tc := ⟨.hbm, 151, rfl⟩
abbrev main_cst_5 : Ref sig .tc := ⟨.hbm, 152, rfl⟩
abbrev main_v46 : Ref sig .tc := ⟨.hbm, 153, rfl⟩
abbrev main_v47 : Ref sig .tc := ⟨.hbm, 154, rfl⟩
abbrev main_v48 : Ref sig .tc := ⟨.hbm, 155, rfl⟩
abbrev main_v49 : Ref sig .tc := ⟨.hbm, 156, rfl⟩
abbrev main_v50 : Ref sig .tc := ⟨.hbm, 157, rfl⟩
abbrev main_v51 : Ref sig .tc := ⟨.hbm, 158, rfl⟩
abbrev main_v52 : Ref sig .tc := ⟨.hbm, 159, rfl⟩
abbrev main_v53 : Ref sig .tc := ⟨.hbm, 160, rfl⟩
abbrev main_v54 : Ref sig .tc := ⟨.hbm, 161, rfl⟩
abbrev main_cst_6 : Ref sig .tc := ⟨.hbm, 162, rfl⟩
abbrev main_v55 : Ref sig .tc := ⟨.hbm, 163, rfl⟩
abbrev main_v56 : Ref sig .tc := ⟨.hbm, 164, rfl⟩
abbrev main_cst_7 : Ref sig .tc := ⟨.hbm, 165, rfl⟩
abbrev main_v57 : Ref sig .tc := ⟨.hbm, 166, rfl⟩
abbrev main_v58 : Ref sig .tc := ⟨.hbm, 167, rfl⟩
abbrev main_c_8 : Ref sig .tc := ⟨.hbm, 168, rfl⟩
abbrev main_call4_cst : Ref sig .tc := ⟨.hbm, 169, rfl⟩
abbrev main_call4_v0 : Ref sig .tc := ⟨.hbm, 170, rfl⟩
abbrev main_call4_v1 : Ref sig .tc := ⟨.hbm, 171, rfl⟩
abbrev main_call4_cst_0 : Ref sig .tc := ⟨.hbm, 172, rfl⟩
abbrev main_call4_v2 : Ref sig .tc := ⟨.hbm, 173, rfl⟩
abbrev main_call4_v3 : Ref sig .tc := ⟨.hbm, 174, rfl⟩
abbrev main_call4_v4 : Ref sig .tc := ⟨.hbm, 175, rfl⟩
abbrev main_call4_v5 : Ref sig .tc := ⟨.hbm, 176, rfl⟩
abbrev main_call4_v6 : Ref sig .tc := ⟨.hbm, 177, rfl⟩
abbrev main_call4_v7 : Ref sig .tc := ⟨.hbm, 178, rfl⟩
abbrev main_call4_cst_1 : Ref sig .tc := ⟨.hbm, 179, rfl⟩
abbrev main_call4_v8 : Ref sig .tc := ⟨.hbm, 180, rfl⟩
abbrev main_call4_cst_2 : Ref sig .tc := ⟨.hbm, 181, rfl⟩
abbrev main_call4_v9 : Ref sig .tc := ⟨.hbm, 182, rfl⟩
abbrev main_call4_v10 : Ref sig .tc := ⟨.hbm, 183, rfl⟩
abbrev main_call4_v11 : Ref sig .tc := ⟨.hbm, 184, rfl⟩
abbrev main_call4_v12 : Ref sig .tc := ⟨.hbm, 185, rfl⟩
abbrev main_call4_cst_3 : Ref sig .tc := ⟨.hbm, 186, rfl⟩
abbrev main_call4_v13 : Ref sig .tc := ⟨.hbm, 187, rfl⟩
abbrev main_call4_cst_4 : Ref sig .tc := ⟨.hbm, 188, rfl⟩
abbrev main_call4_call0_v0 : Ref sig .tc := ⟨.hbm, 189, rfl⟩
abbrev main_call4_call0_v1 : Ref sig .tc := ⟨.hbm, 190, rfl⟩
abbrev main_v59 : Ref sig .tc := ⟨.hbm, 191, rfl⟩
abbrev main_v60 : Ref sig .tc := ⟨.hbm, 192, rfl⟩
abbrev main_v61 : Ref sig .tc := ⟨.hbm, 193, rfl⟩
abbrev main_v62 : Ref sig .tc := ⟨.hbm, 194, rfl⟩
abbrev main_v63 : Ref sig .tc := ⟨.hbm, 195, rfl⟩
abbrev main_v64 : Ref sig .tc := ⟨.hbm, 196, rfl⟩
abbrev main_v65 : Ref sig .tc := ⟨.hbm, 197, rfl⟩
abbrev main_v66 : Ref sig .tc := ⟨.hbm, 198, rfl⟩
abbrev main_v67 : Ref sig .tc := ⟨.hbm, 199, rfl⟩
abbrev main_v68 : Ref sig .tc := ⟨.hbm, 200, rfl⟩
abbrev main_v69 : Ref sig .tc := ⟨.hbm, 201, rfl⟩
abbrev main_v70 : Ref sig .tc := ⟨.hbm, 202, rfl⟩
abbrev main_v71 : Ref sig .tc := ⟨.hbm, 203, rfl⟩
abbrev main_cst_9 : Ref sig .tc := ⟨.hbm, 204, rfl⟩
abbrev main_v72 : Ref sig .tc := ⟨.hbm, 205, rfl⟩
abbrev main_v73 : Ref sig .tc := ⟨.hbm, 206, rfl⟩
abbrev main_cst_10 : Ref sig .tc := ⟨.hbm, 207, rfl⟩
abbrev main_v74 : Ref sig .tc := ⟨.hbm, 208, rfl⟩
abbrev main_v75 : Ref sig .tc := ⟨.hbm, 209, rfl⟩
abbrev main_c_11 : Ref sig .tc := ⟨.hbm, 210, rfl⟩
abbrev main_call5_cst : Ref sig .tc := ⟨.hbm, 211, rfl⟩
abbrev main_call5_v0 : Ref sig .tc := ⟨.hbm, 212, rfl⟩
abbrev main_call5_v1 : Ref sig .tc := ⟨.hbm, 213, rfl⟩
abbrev main_call5_cst_0 : Ref sig .tc := ⟨.hbm, 214, rfl⟩
abbrev main_call5_v2 : Ref sig .tc := ⟨.hbm, 215, rfl⟩
abbrev main_call5_v3 : Ref sig .tc := ⟨.hbm, 216, rfl⟩
abbrev main_call5_v4 : Ref sig .tc := ⟨.hbm, 217, rfl⟩
abbrev main_call5_v5 : Ref sig .tc := ⟨.hbm, 218, rfl⟩
abbrev main_call5_v6 : Ref sig .tc := ⟨.hbm, 219, rfl⟩
abbrev main_call5_v7 : Ref sig .tc := ⟨.hbm, 220, rfl⟩
abbrev main_call5_cst_1 : Ref sig .tc := ⟨.hbm, 221, rfl⟩
abbrev main_call5_v8 : Ref sig .tc := ⟨.hbm, 222, rfl⟩
abbrev main_call5_cst_2 : Ref sig .tc := ⟨.hbm, 223, rfl⟩
abbrev main_call5_v9 : Ref sig .tc := ⟨.hbm, 224, rfl⟩
abbrev main_call5_v10 : Ref sig .tc := ⟨.hbm, 225, rfl⟩
abbrev main_call5_v11 : Ref sig .tc := ⟨.hbm, 226, rfl⟩
abbrev main_call5_v12 : Ref sig .tc := ⟨.hbm, 227, rfl⟩
abbrev main_call5_cst_3 : Ref sig .tc := ⟨.hbm, 228, rfl⟩
abbrev main_call5_v13 : Ref sig .tc := ⟨.hbm, 229, rfl⟩
abbrev main_call5_cst_4 : Ref sig .tc := ⟨.hbm, 230, rfl⟩
abbrev main_call5_call0_v0 : Ref sig .tc := ⟨.hbm, 231, rfl⟩
abbrev main_call5_call0_v1 : Ref sig .tc := ⟨.hbm, 232, rfl⟩
abbrev main_v76 : Ref sig .tc := ⟨.hbm, 233, rfl⟩
abbrev main_v77 : Ref sig .tc := ⟨.hbm, 234, rfl⟩
abbrev main_v78 : Ref sig .tc := ⟨.hbm, 235, rfl⟩
abbrev main_v79 : Ref sig .tc := ⟨.hbm, 236, rfl⟩
abbrev main_v80 : Ref sig .tc := ⟨.hbm, 237, rfl⟩
abbrev main_v81 : Ref sig .tc := ⟨.hbm, 238, rfl⟩
abbrev main_v82 : Ref sig .tc := ⟨.hbm, 239, rfl⟩
abbrev main_v83 : Ref sig .tc := ⟨.hbm, 240, rfl⟩
abbrev main_call6_c : Ref sig .tc := ⟨.hbm, 241, rfl⟩
abbrev main_call6_v0 : Ref sig .tc := ⟨.hbm, 242, rfl⟩
abbrev main_call6_v1 : Ref sig .tc := ⟨.hbm, 243, rfl⟩
abbrev main_call6_c_0 : Ref sig .tc := ⟨.hbm, 244, rfl⟩
abbrev main_call6_v2 : Ref sig .tc := ⟨.hbm, 245, rfl⟩
abbrev main_call6_v3 : Ref sig .tc := ⟨.hbm, 246, rfl⟩
abbrev main_call6_v4 : Ref sig .tc := ⟨.hbm, 247, rfl⟩
abbrev main_call6_v5 : Ref sig .tc := ⟨.hbm, 248, rfl⟩
abbrev main_call6_c_1 : Ref sig .tc := ⟨.hbm, 249, rfl⟩
abbrev main_call6_c_2 : Ref sig .tc := ⟨.hbm, 250, rfl⟩
abbrev main_call6_v6 : Ref sig .tc := ⟨.hbm, 251, rfl⟩
abbrev main_call6_v7 : Ref sig .tc := ⟨.hbm, 252, rfl⟩
abbrev main_call6_v8 : Ref sig .tc := ⟨.hbm, 253, rfl⟩
abbrev main_call6_v9 : Ref sig .tc := ⟨.hbm, 254, rfl⟩
abbrev main_call6_v10 : Ref sig .tc := ⟨.hbm, 255, rfl⟩
abbrev main_call6_v11 : Ref sig .tc := ⟨.hbm, 256, rfl⟩
abbrev main_call6_c_3 : Ref sig .tc := ⟨.hbm, 257, rfl⟩
abbrev main_call6_v12 : Ref sig .tc := ⟨.hbm, 258, rfl⟩
abbrev main_call6_v13 : Ref sig .tc := ⟨.hbm, 259, rfl⟩
abbrev main_call6_v14 : Ref sig .tc := ⟨.hbm, 260, rfl⟩
abbrev main_call6_cst : Ref sig .tc := ⟨.hbm, 261, rfl⟩
abbrev main_call6_v15 : Ref sig .tc := ⟨.hbm, 262, rfl⟩
abbrev main_v84 : Ref sig .tc := ⟨.hbm, 263, rfl⟩
abbrev main_v85 : Ref sig .tc := ⟨.hbm, 264, rfl⟩
abbrev main_cst_12 : Ref sig .tc := ⟨.hbm, 265, rfl⟩
abbrev main_v86 : Ref sig .tc := ⟨.hbm, 266, rfl⟩
abbrev main_v87 : Ref sig .tc := ⟨.hbm, 267, rfl⟩
abbrev main_v88 : Ref sig .tc := ⟨.hbm, 268, rfl⟩
abbrev main_v89 : Ref sig .tc := ⟨.hbm, 269, rfl⟩
abbrev main_v90 : Ref sig .tc := ⟨.hbm, 270, rfl⟩
abbrev main_v91 : Ref sig .tc := ⟨.hbm, 271, rfl⟩
abbrev main_v92 : Ref sig .tc := ⟨.hbm, 272, rfl⟩
abbrev main_v93 : Ref sig .tc := ⟨.hbm, 273, rfl⟩
abbrev main_v94 : Ref sig .tc := ⟨.hbm, 274, rfl⟩
abbrev main_cst_13 : Ref sig .tc := ⟨.hbm, 275, rfl⟩
abbrev main_v95 : Ref sig .tc := ⟨.hbm, 276, rfl⟩
abbrev main_v96 : Ref sig .tc := ⟨.hbm, 277, rfl⟩
abbrev main_cst_14 : Ref sig .tc := ⟨.hbm, 278, rfl⟩
abbrev main_v97 : Ref sig .tc := ⟨.hbm, 279, rfl⟩
abbrev main_v98 : Ref sig .tc := ⟨.hbm, 280, rfl⟩
abbrev main_c_15 : Ref sig .tc := ⟨.hbm, 281, rfl⟩
abbrev main_call7_cst : Ref sig .tc := ⟨.hbm, 282, rfl⟩
abbrev main_call7_v0 : Ref sig .tc := ⟨.hbm, 283, rfl⟩
abbrev main_call7_v1 : Ref sig .tc := ⟨.hbm, 284, rfl⟩
abbrev main_call7_cst_0 : Ref sig .tc := ⟨.hbm, 285, rfl⟩
abbrev main_call7_v2 : Ref sig .tc := ⟨.hbm, 286, rfl⟩
abbrev main_call7_v3 : Ref sig .tc := ⟨.hbm, 287, rfl⟩
abbrev main_call7_v4 : Ref sig .tc := ⟨.hbm, 288, rfl⟩
abbrev main_call7_v5 : Ref sig .tc := ⟨.hbm, 289, rfl⟩
abbrev main_call7_v6 : Ref sig .tc := ⟨.hbm, 290, rfl⟩
abbrev main_call7_v7 : Ref sig .tc := ⟨.hbm, 291, rfl⟩
abbrev main_call7_cst_1 : Ref sig .tc := ⟨.hbm, 292, rfl⟩
abbrev main_call7_v8 : Ref sig .tc := ⟨.hbm, 293, rfl⟩
abbrev main_call7_cst_2 : Ref sig .tc := ⟨.hbm, 294, rfl⟩
abbrev main_call7_v9 : Ref sig .tc := ⟨.hbm, 295, rfl⟩
abbrev main_call7_v10 : Ref sig .tc := ⟨.hbm, 296, rfl⟩
abbrev main_call7_v11 : Ref sig .tc := ⟨.hbm, 297, rfl⟩
abbrev main_call7_v12 : Ref sig .tc := ⟨.hbm, 298, rfl⟩
abbrev main_call7_cst_3 : Ref sig .tc := ⟨.hbm, 299, rfl⟩
abbrev main_call7_v13 : Ref sig .tc := ⟨.hbm, 300, rfl⟩
abbrev main_call7_cst_4 : Ref sig .tc := ⟨.hbm, 301, rfl⟩
abbrev main_call7_call0_v0 : Ref sig .tc := ⟨.hbm, 302, rfl⟩
abbrev main_call7_call0_v1 : Ref sig .tc := ⟨.hbm, 303, rfl⟩
abbrev main_v99 : Ref sig .tc := ⟨.hbm, 304, rfl⟩
abbrev main_v100 : Ref sig .tc := ⟨.hbm, 305, rfl⟩
abbrev main_v101 : Ref sig .tc := ⟨.hbm, 306, rfl⟩
abbrev main_v102 : Ref sig .tc := ⟨.hbm, 307, rfl⟩
abbrev main_v103 : Ref sig .tc := ⟨.hbm, 308, rfl⟩
abbrev main_v104 : Ref sig .tc := ⟨.hbm, 309, rfl⟩
abbrev main_v105 : Ref sig .tc := ⟨.hbm, 310, rfl⟩
abbrev main_v106 : Ref sig .tc := ⟨.hbm, 311, rfl⟩
abbrev main_v107 : Ref sig .tc := ⟨.hbm, 312, rfl⟩
abbrev main_v108 : Ref sig .tc := ⟨.hbm, 313, rfl⟩
abbrev main_v109 : Ref sig .tc := ⟨.hbm, 314, rfl⟩
abbrev main_v110 : Ref sig .tc := ⟨.hbm, 315, rfl⟩
abbrev main_v111 : Ref sig .tc := ⟨.hbm, 316, rfl⟩
abbrev main_cst_16 : Ref sig .tc := ⟨.hbm, 317, rfl⟩
abbrev main_v112 : Ref sig .tc := ⟨.hbm, 318, rfl⟩
abbrev main_v113 : Ref sig .tc := ⟨.hbm, 319, rfl⟩
abbrev main_cst_17 : Ref sig .tc := ⟨.hbm, 320, rfl⟩
abbrev main_v114 : Ref sig .tc := ⟨.hbm, 321, rfl⟩
abbrev main_v115 : Ref sig .tc := ⟨.hbm, 322, rfl⟩
abbrev main_c_18 : Ref sig .tc := ⟨.hbm, 323, rfl⟩
abbrev main_call8_cst : Ref sig .tc := ⟨.hbm, 324, rfl⟩
abbrev main_call8_v0 : Ref sig .tc := ⟨.hbm, 325, rfl⟩
abbrev main_call8_v1 : Ref sig .tc := ⟨.hbm, 326, rfl⟩
abbrev main_call8_cst_0 : Ref sig .tc := ⟨.hbm, 327, rfl⟩
abbrev main_call8_v2 : Ref sig .tc := ⟨.hbm, 328, rfl⟩
abbrev main_call8_v3 : Ref sig .tc := ⟨.hbm, 329, rfl⟩
abbrev main_call8_v4 : Ref sig .tc := ⟨.hbm, 330, rfl⟩
abbrev main_call8_v5 : Ref sig .tc := ⟨.hbm, 331, rfl⟩
abbrev main_call8_v6 : Ref sig .tc := ⟨.hbm, 332, rfl⟩
abbrev main_call8_v7 : Ref sig .tc := ⟨.hbm, 333, rfl⟩
abbrev main_call8_cst_1 : Ref sig .tc := ⟨.hbm, 334, rfl⟩
abbrev main_call8_v8 : Ref sig .tc := ⟨.hbm, 335, rfl⟩
abbrev main_call8_cst_2 : Ref sig .tc := ⟨.hbm, 336, rfl⟩
abbrev main_call8_v9 : Ref sig .tc := ⟨.hbm, 337, rfl⟩
abbrev main_call8_v10 : Ref sig .tc := ⟨.hbm, 338, rfl⟩
abbrev main_call8_v11 : Ref sig .tc := ⟨.hbm, 339, rfl⟩
abbrev main_call8_v12 : Ref sig .tc := ⟨.hbm, 340, rfl⟩
abbrev main_call8_cst_3 : Ref sig .tc := ⟨.hbm, 341, rfl⟩
abbrev main_call8_v13 : Ref sig .tc := ⟨.hbm, 342, rfl⟩
abbrev main_call8_cst_4 : Ref sig .tc := ⟨.hbm, 343, rfl⟩
abbrev main_call8_call0_v0 : Ref sig .tc := ⟨.hbm, 344, rfl⟩
abbrev main_call8_call0_v1 : Ref sig .tc := ⟨.hbm, 345, rfl⟩
abbrev main_v116 : Ref sig .tc := ⟨.hbm, 346, rfl⟩
abbrev main_v117 : Ref sig .tc := ⟨.hbm, 347, rfl⟩
abbrev main_v118 : Ref sig .tc := ⟨.hbm, 348, rfl⟩
abbrev main_v119 : Ref sig .tc := ⟨.hbm, 349, rfl⟩
abbrev main_v120 : Ref sig .tc := ⟨.hbm, 350, rfl⟩
abbrev main_v121 : Ref sig .tc := ⟨.hbm, 351, rfl⟩
abbrev main_v122 : Ref sig .tc := ⟨.hbm, 352, rfl⟩
abbrev main_v123 : Ref sig .tc := ⟨.hbm, 353, rfl⟩
abbrev main_call9_c : Ref sig .tc := ⟨.hbm, 354, rfl⟩
abbrev main_call9_v0 : Ref sig .tc := ⟨.hbm, 355, rfl⟩
abbrev main_call9_v1 : Ref sig .tc := ⟨.hbm, 356, rfl⟩
abbrev main_call9_c_0 : Ref sig .tc := ⟨.hbm, 357, rfl⟩
abbrev main_call9_v2 : Ref sig .tc := ⟨.hbm, 358, rfl⟩
abbrev main_call9_v3 : Ref sig .tc := ⟨.hbm, 359, rfl⟩
abbrev main_call9_v4 : Ref sig .tc := ⟨.hbm, 360, rfl⟩
abbrev main_call9_v5 : Ref sig .tc := ⟨.hbm, 361, rfl⟩
abbrev main_call9_c_1 : Ref sig .tc := ⟨.hbm, 362, rfl⟩
abbrev main_call9_c_2 : Ref sig .tc := ⟨.hbm, 363, rfl⟩
abbrev main_call9_v6 : Ref sig .tc := ⟨.hbm, 364, rfl⟩
abbrev main_call9_v7 : Ref sig .tc := ⟨.hbm, 365, rfl⟩
abbrev main_call9_v8 : Ref sig .tc := ⟨.hbm, 366, rfl⟩
abbrev main_call9_v9 : Ref sig .tc := ⟨.hbm, 367, rfl⟩
abbrev main_call9_v10 : Ref sig .tc := ⟨.hbm, 368, rfl⟩
abbrev main_call9_v11 : Ref sig .tc := ⟨.hbm, 369, rfl⟩
abbrev main_call9_c_3 : Ref sig .tc := ⟨.hbm, 370, rfl⟩
abbrev main_call9_v12 : Ref sig .tc := ⟨.hbm, 371, rfl⟩
abbrev main_call9_v13 : Ref sig .tc := ⟨.hbm, 372, rfl⟩
abbrev main_call9_v14 : Ref sig .tc := ⟨.hbm, 373, rfl⟩
abbrev main_call9_cst : Ref sig .tc := ⟨.hbm, 374, rfl⟩
abbrev main_call9_v15 : Ref sig .tc := ⟨.hbm, 375, rfl⟩
abbrev main_v124 : Ref sig .tc := ⟨.hbm, 376, rfl⟩
abbrev main_v125 : Ref sig .tc := ⟨.hbm, 377, rfl⟩
abbrev main_cst_19 : Ref sig .tc := ⟨.hbm, 378, rfl⟩
abbrev main_v126 : Ref sig .tc := ⟨.hbm, 379, rfl⟩
abbrev main_v127 : Ref sig .tc := ⟨.hbm, 380, rfl⟩
abbrev main_v128 : Ref sig .tc := ⟨.hbm, 381, rfl⟩
abbrev main_v129 : Ref sig .tc := ⟨.hbm, 382, rfl⟩
abbrev main_v130 : Ref sig .tc := ⟨.hbm, 383, rfl⟩
abbrev main_v131 : Ref sig .tc := ⟨.hbm, 384, rfl⟩
abbrev main_v132 : Ref sig .tc := ⟨.hbm, 385, rfl⟩
abbrev main_v133 : Ref sig .tc := ⟨.hbm, 386, rfl⟩
abbrev main_v134 : Ref sig .tc := ⟨.hbm, 387, rfl⟩
abbrev main_cst_20 : Ref sig .tc := ⟨.hbm, 388, rfl⟩
abbrev main_v135 : Ref sig .tc := ⟨.hbm, 389, rfl⟩
abbrev main_v136 : Ref sig .tc := ⟨.hbm, 390, rfl⟩
abbrev main_cst_21 : Ref sig .tc := ⟨.hbm, 391, rfl⟩
abbrev main_v137 : Ref sig .tc := ⟨.hbm, 392, rfl⟩
abbrev main_v138 : Ref sig .tc := ⟨.hbm, 393, rfl⟩
abbrev main_c_22 : Ref sig .tc := ⟨.hbm, 394, rfl⟩
abbrev main_call10_cst : Ref sig .tc := ⟨.hbm, 395, rfl⟩
abbrev main_call10_v0 : Ref sig .tc := ⟨.hbm, 396, rfl⟩
abbrev main_call10_v1 : Ref sig .tc := ⟨.hbm, 397, rfl⟩
abbrev main_call10_cst_0 : Ref sig .tc := ⟨.hbm, 398, rfl⟩
abbrev main_call10_v2 : Ref sig .tc := ⟨.hbm, 399, rfl⟩
abbrev main_call10_v3 : Ref sig .tc := ⟨.hbm, 400, rfl⟩
abbrev main_call10_v4 : Ref sig .tc := ⟨.hbm, 401, rfl⟩
abbrev main_call10_v5 : Ref sig .tc := ⟨.hbm, 402, rfl⟩
abbrev main_call10_v6 : Ref sig .tc := ⟨.hbm, 403, rfl⟩
abbrev main_call10_v7 : Ref sig .tc := ⟨.hbm, 404, rfl⟩
abbrev main_call10_cst_1 : Ref sig .tc := ⟨.hbm, 405, rfl⟩
abbrev main_call10_v8 : Ref sig .tc := ⟨.hbm, 406, rfl⟩
abbrev main_call10_cst_2 : Ref sig .tc := ⟨.hbm, 407, rfl⟩
abbrev main_call10_v9 : Ref sig .tc := ⟨.hbm, 408, rfl⟩
abbrev main_call10_v10 : Ref sig .tc := ⟨.hbm, 409, rfl⟩
abbrev main_call10_v11 : Ref sig .tc := ⟨.hbm, 410, rfl⟩
abbrev main_call10_v12 : Ref sig .tc := ⟨.hbm, 411, rfl⟩
abbrev main_call10_cst_3 : Ref sig .tc := ⟨.hbm, 412, rfl⟩
abbrev main_call10_v13 : Ref sig .tc := ⟨.hbm, 413, rfl⟩
abbrev main_call10_cst_4 : Ref sig .tc := ⟨.hbm, 414, rfl⟩
abbrev main_call10_call0_v0 : Ref sig .tc := ⟨.hbm, 415, rfl⟩
abbrev main_call10_call0_v1 : Ref sig .tc := ⟨.hbm, 416, rfl⟩
abbrev main_v139 : Ref sig .tc := ⟨.hbm, 417, rfl⟩
abbrev main_v140 : Ref sig .tc := ⟨.hbm, 418, rfl⟩
abbrev main_v141 : Ref sig .tc := ⟨.hbm, 419, rfl⟩
abbrev main_v142 : Ref sig .tc := ⟨.hbm, 420, rfl⟩
abbrev main_v143 : Ref sig .tc := ⟨.hbm, 421, rfl⟩
abbrev main_v144 : Ref sig .tc := ⟨.hbm, 422, rfl⟩
abbrev main_v145 : Ref sig .tc := ⟨.hbm, 423, rfl⟩
abbrev main_v146 : Ref sig .tc := ⟨.hbm, 424, rfl⟩
abbrev main_v147 : Ref sig .tc := ⟨.hbm, 425, rfl⟩
abbrev main_v148 : Ref sig .tc := ⟨.hbm, 426, rfl⟩
abbrev main_v149 : Ref sig .tc := ⟨.hbm, 427, rfl⟩
abbrev main_v150 : Ref sig .tc := ⟨.hbm, 428, rfl⟩
abbrev main_v151 : Ref sig .tc := ⟨.hbm, 429, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg7_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg4_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg2_0 : Ref sig .tc := ⟨.vmem, 49, rfl⟩
abbrev cc6_stg3_0 : Ref sig .tc := ⟨.vmem, 50, rfl⟩
abbrev cc6_stg4_0 : Ref sig .tc := ⟨.vmem, 51, rfl⟩
abbrev cc6_stg5_0 : Ref sig .tc := ⟨.vmem, 52, rfl⟩
abbrev cc6_stg6_0 : Ref sig .tc := ⟨.vmem, 53, rfl⟩
abbrev cc6_stg7_0 : Ref sig .tc := ⟨.vmem, 54, rfl⟩
abbrev cc6_stg7_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg2_0 : Ref sig .tc := ⟨.vmem, 59, rfl⟩
abbrev cc7_stg3_0 : Ref sig .tc := ⟨.vmem, 60, rfl⟩
abbrev cc7_stg4_0 : Ref sig .tc := ⟨.vmem, 61, rfl⟩
abbrev cc7_stg5_0 : Ref sig .tc := ⟨.vmem, 62, rfl⟩
abbrev cc7_stg5_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg1_1 : Ref sig .tc := ⟨.vmem, 67, rfl⟩
abbrev cc8_stg2_0 : Ref sig .tc := ⟨.vmem, 68, rfl⟩
abbrev cc8_stg2_1 : Ref sig .tc := ⟨.vmem, 69, rfl⟩
abbrev cc9_stg0_0 : Ref sig .tc := ⟨.vmem, 70, rfl⟩
abbrev cc9_stg0_1 : Ref sig .tc := ⟨.vmem, 71, rfl⟩
abbrev cc9_stg1_0 : Ref sig .tc := ⟨.vmem, 72, rfl⟩
abbrev cc9_stg1_1 : Ref sig .tc := ⟨.vmem, 73, rfl⟩
abbrev cc9_stg2_0 : Ref sig .tc := ⟨.vmem, 74, rfl⟩
abbrev cc9_stg3_0 : Ref sig .tc := ⟨.vmem, 75, rfl⟩
abbrev cc9_stg4_0 : Ref sig .tc := ⟨.vmem, 76, rfl⟩
abbrev cc9_stg4_1 : Ref sig .tc := ⟨.vmem, 77, rfl⟩
abbrev cc10_stg0_0 : Ref sig .tc := ⟨.vmem, 78, rfl⟩
abbrev cc10_stg0_1 : Ref sig .tc := ⟨.vmem, 79, rfl⟩
abbrev cc10_stg1_0 : Ref sig .tc := ⟨.vmem, 80, rfl⟩
abbrev cc10_stg2_0 : Ref sig .tc := ⟨.vmem, 81, rfl⟩
abbrev cc10_stg3_0 : Ref sig .tc := ⟨.vmem, 82, rfl⟩
abbrev cc10_stg4_0 : Ref sig .tc := ⟨.vmem, 83, rfl⟩
abbrev cc10_stg5_0 : Ref sig .tc := ⟨.vmem, 84, rfl⟩
abbrev cc10_stg6_0 : Ref sig .tc := ⟨.vmem, 85, rfl⟩
abbrev cc10_stg7_0 : Ref sig .tc := ⟨.vmem, 86, rfl⟩
abbrev cc10_stg7_1 : Ref sig .tc := ⟨.vmem, 87, rfl⟩
abbrev cc11_stg0_0 : Ref sig .tc := ⟨.vmem, 88, rfl⟩
abbrev cc11_stg0_1 : Ref sig .tc := ⟨.vmem, 89, rfl⟩
abbrev cc11_stg1_0 : Ref sig .tc := ⟨.vmem, 90, rfl⟩
abbrev cc11_stg2_0 : Ref sig .tc := ⟨.vmem, 91, rfl⟩
abbrev cc11_stg3_0 : Ref sig .tc := ⟨.vmem, 92, rfl⟩
abbrev cc11_stg4_0 : Ref sig .tc := ⟨.vmem, 93, rfl⟩
abbrev cc11_stg5_0 : Ref sig .tc := ⟨.vmem, 94, rfl⟩
abbrev cc11_stg5_1 : Ref sig .tc := ⟨.vmem, 95, rfl⟩
abbrev cc12_stg0_0 : Ref sig .tc := ⟨.vmem, 96, rfl⟩
abbrev cc12_stg0_1 : Ref sig .tc := ⟨.vmem, 97, rfl⟩
abbrev cc12_stg1_0 : Ref sig .tc := ⟨.vmem, 98, rfl⟩
abbrev cc12_stg1_1 : Ref sig .tc := ⟨.vmem, 99, rfl⟩
abbrev cc12_stg2_0 : Ref sig .tc := ⟨.vmem, 100, rfl⟩
abbrev cc12_stg2_1 : Ref sig .tc := ⟨.vmem, 101, rfl⟩
abbrev cc13_stg0_0 : Ref sig .tc := ⟨.vmem, 102, rfl⟩
abbrev cc13_stg0_1 : Ref sig .tc := ⟨.vmem, 103, rfl⟩
abbrev cc13_stg1_0 : Ref sig .tc := ⟨.vmem, 104, rfl⟩
abbrev cc13_stg1_1 : Ref sig .tc := ⟨.vmem, 105, rfl⟩
abbrev cc13_stg2_0 : Ref sig .tc := ⟨.vmem, 106, rfl⟩
abbrev cc13_stg3_0 : Ref sig .tc := ⟨.vmem, 107, rfl⟩
abbrev cc13_stg4_0 : Ref sig .tc := ⟨.vmem, 108, rfl⟩
abbrev cc13_stg4_1 : Ref sig .tc := ⟨.vmem, 109, rfl⟩
abbrev cc14_stg0_0 : Ref sig .tc := ⟨.vmem, 110, rfl⟩
abbrev cc14_stg0_1 : Ref sig .tc := ⟨.vmem, 111, rfl⟩
abbrev cc14_stg1_0 : Ref sig .tc := ⟨.vmem, 112, rfl⟩
abbrev cc14_stg2_0 : Ref sig .tc := ⟨.vmem, 113, rfl⟩
abbrev cc14_stg3_0 : Ref sig .tc := ⟨.vmem, 114, rfl⟩
abbrev cc14_stg4_0 : Ref sig .tc := ⟨.vmem, 115, rfl⟩
abbrev cc14_stg5_0 : Ref sig .tc := ⟨.vmem, 116, rfl⟩
abbrev cc14_stg6_0 : Ref sig .tc := ⟨.vmem, 117, rfl⟩
abbrev cc14_stg7_0 : Ref sig .tc := ⟨.vmem, 118, rfl⟩
abbrev cc14_stg7_1 : Ref sig .tc := ⟨.vmem, 119, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem7_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem3_0 : DmaSem sig := 43
abbrev cc5_sem4_0 : DmaSem sig := 44
abbrev cc5_sem4_1 : DmaSem sig := 45
abbrev cc6_sem0_0 : DmaSem sig := 46
abbrev cc6_sem0_1 : DmaSem sig := 47
abbrev cc6_sem1_0 : DmaSem sig := 48
abbrev cc6_sem2_0 : DmaSem sig := 49
abbrev cc6_sem3_0 : DmaSem sig := 50
abbrev cc6_sem4_0 : DmaSem sig := 51
abbrev cc6_sem5_0 : DmaSem sig := 52
abbrev cc6_sem6_0 : DmaSem sig := 53
abbrev cc6_sem7_0 : DmaSem sig := 54
abbrev cc6_sem7_1 : DmaSem sig := 55
abbrev cc7_sem0_0 : DmaSem sig := 56
abbrev cc7_sem0_1 : DmaSem sig := 57
abbrev cc7_sem1_0 : DmaSem sig := 58
abbrev cc7_sem2_0 : DmaSem sig := 59
abbrev cc7_sem3_0 : DmaSem sig := 60
abbrev cc7_sem4_0 : DmaSem sig := 61
abbrev cc7_sem5_0 : DmaSem sig := 62
abbrev cc7_sem5_1 : DmaSem sig := 63
abbrev cc8_sem0_0 : DmaSem sig := 64
abbrev cc8_sem0_1 : DmaSem sig := 65
abbrev cc8_sem1_0 : DmaSem sig := 66
abbrev cc8_sem1_1 : DmaSem sig := 67
abbrev cc8_sem2_0 : DmaSem sig := 68
abbrev cc8_sem2_1 : DmaSem sig := 69
abbrev cc9_sem0_0 : DmaSem sig := 70
abbrev cc9_sem0_1 : DmaSem sig := 71
abbrev cc9_sem1_0 : DmaSem sig := 72
abbrev cc9_sem1_1 : DmaSem sig := 73
abbrev cc9_sem2_0 : DmaSem sig := 74
abbrev cc9_sem3_0 : DmaSem sig := 75
abbrev cc9_sem4_0 : DmaSem sig := 76
abbrev cc9_sem4_1 : DmaSem sig := 77
abbrev cc10_sem0_0 : DmaSem sig := 78
abbrev cc10_sem0_1 : DmaSem sig := 79
abbrev cc10_sem1_0 : DmaSem sig := 80
abbrev cc10_sem2_0 : DmaSem sig := 81
abbrev cc10_sem3_0 : DmaSem sig := 82
abbrev cc10_sem4_0 : DmaSem sig := 83
abbrev cc10_sem5_0 : DmaSem sig := 84
abbrev cc10_sem6_0 : DmaSem sig := 85
abbrev cc10_sem7_0 : DmaSem sig := 86
abbrev cc10_sem7_1 : DmaSem sig := 87
abbrev cc11_sem0_0 : DmaSem sig := 88
abbrev cc11_sem0_1 : DmaSem sig := 89
abbrev cc11_sem1_0 : DmaSem sig := 90
abbrev cc11_sem2_0 : DmaSem sig := 91
abbrev cc11_sem3_0 : DmaSem sig := 92
abbrev cc11_sem4_0 : DmaSem sig := 93
abbrev cc11_sem5_0 : DmaSem sig := 94
abbrev cc11_sem5_1 : DmaSem sig := 95
abbrev cc12_sem0_0 : DmaSem sig := 96
abbrev cc12_sem0_1 : DmaSem sig := 97
abbrev cc12_sem1_0 : DmaSem sig := 98
abbrev cc12_sem1_1 : DmaSem sig := 99
abbrev cc12_sem2_0 : DmaSem sig := 100
abbrev cc12_sem2_1 : DmaSem sig := 101
abbrev cc13_sem0_0 : DmaSem sig := 102
abbrev cc13_sem0_1 : DmaSem sig := 103
abbrev cc13_sem1_0 : DmaSem sig := 104
abbrev cc13_sem1_1 : DmaSem sig := 105
abbrev cc13_sem2_0 : DmaSem sig := 106
abbrev cc13_sem3_0 : DmaSem sig := 107
abbrev cc13_sem4_0 : DmaSem sig := 108
abbrev cc13_sem4_1 : DmaSem sig := 109
abbrev cc14_sem0_0 : DmaSem sig := 110
abbrev cc14_sem0_1 : DmaSem sig := 111
abbrev cc14_sem1_0 : DmaSem sig := 112
abbrev cc14_sem2_0 : DmaSem sig := 113
abbrev cc14_sem3_0 : DmaSem sig := 114
abbrev cc14_sem4_0 : DmaSem sig := 115
abbrev cc14_sem5_0 : DmaSem sig := 116
abbrev cc14_sem6_0 : DmaSem sig := 117
abbrev cc14_sem7_0 : DmaSem sig := 118
abbrev cc14_sem7_1 : DmaSem sig := 119

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![80], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S5000x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![80], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S8000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S8000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S8000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S128x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S5000x128 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S128x128 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x128 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 2 → Memref sig .tc .vmem S5000x128 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S5000x128 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![80], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S8000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S8000x128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S8000x128 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S5000x128 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S128x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 2 → Memref sig .tc .vmem S5000x128 .f32 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_6 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_7 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x128 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x128 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x128 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 1 → Memref sig .tc .vmem S128x128 .f32 := fun | 0 => Memref.whole cc14_stg5_0 | ⟨_ + 1, h⟩ => absurd h (Nat.not_lt.2 (Nat.le_add_left _ _))
abbrev sem14_5 : Fin 1 → DmaSem sig := fun | 0 => cc14_sem5_0 | ⟨_ + 1, h⟩ => absurd h (Nat.not_lt.2 (Nat.le_add_left _ _))
abbrev reads14_5 : Fin grid14.rank → Bool := ![false]

abbrev stage14_6 : Fin 1 → Memref sig .tc .vmem S1x128 .f32 := fun | 0 => Memref.whole cc14_stg6_0 | ⟨_ + 1, h⟩ => absurd h (Nat.not_lt.2 (Nat.le_add_left _ _))
abbrev sem14_6 : Fin 1 → DmaSem sig := fun | 0 => cc14_sem6_0 | ⟨_ + 1, h⟩ => absurd h (Nat.not_lt.2 (Nat.le_add_left _ _))
abbrev reads14_6 : Fin grid14.rank → Bool := ![false]

abbrev stage14_7 : Fin 2 → Memref sig .tc .vmem S5000x128 .f32 := fun | 0 => Memref.whole cc14_stg7_0 | 1 => Memref.whole cc14_stg7_1 | ⟨_ + 2, h⟩ => absurd h (Nat.not_lt.2 (Nat.le_add_left _ _))
abbrev sem14_7 : Fin 2 → DmaSem sig := fun | 0 => cc14_sem7_0 | 1 => cc14_sem7_1 | ⟨_ + 2, h⟩ => absurd h (Nat.not_lt.2 (Nat.le_add_left _ _))
abbrev reads14_7 : Fin grid14.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reducesTo_S50000x128_S128_d0 : S50000x128.ReducesTo [0] S128
  bcast_S_S1x128 : S_.BroadcastsInDim S1x128 (![] : Fin 0 → Fin S1x128.rank)
  bcast_S1x128_S50000x128_0_1 : S1x128.BroadcastsInDim S50000x128 (![0, 1] : Fin 2 → Fin S50000x128.rank)
  slices_S3x128_S1x128_0_0 : S3x128.Slices ![0, 0] S1x128
  slices_S4x128x128_S1x128x128_1_0_0 : S4x128x128.Slices ![1, 0, 0] S1x128x128
  slices_S4x128_S1x128_1_0 : S4x128.Slices ![1, 0] S1x128
  slices_S3x128_S1x128_1_0 : S3x128.Slices ![1, 0] S1x128
  slices_S4x128x128_S1x128x128_2_0_0 : S4x128x128.Slices ![2, 0, 0] S1x128x128
  slices_S4x128_S1x128_2_0 : S4x128.Slices ![2, 0] S1x128
  slices_S3x128_S1x128_2_0 : S3x128.Slices ![2, 0] S1x128
  slices_S4x128x128_S1x128x128_3_0_0 : S4x128x128.Slices ![3, 0, 0] S1x128x128
  slices_S4x128_S1x128_3_0 : S4x128.Slices ![3, 0] S1x128
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S640000x128.size a
  hwx0_0 : ∀ i : grid0.Coords, EltTy.bits .f32 = 32 ∨ (Rect.block (s := S640000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S640000x128.size a
  hwx0_1 : ∀ i : grid0.Coords, EltTy.bits .f32 = 32 ∨ (Rect.block (s := S640000x128) S8000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x128.size a ≤ S640000x128.size a
  hwx0_2 : ∀ i : grid0.Coords, EltTy.bits .f32 = 32 ∨ (Rect.block (s := S640000x128) S8000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x128.size a ≤ S640000x128.size a
  hwx4_0 : ∀ i : grid4.Coords, EltTy.bits .f32 = 32 ∨ (Rect.block (s := S640000x128) S8000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x128.size a ≤ S640000x128.size a
  hwx4_1 : ∀ i : grid4.Coords, EltTy.bits .f32 = 32 ∨ (Rect.block (s := S640000x128) S8000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x128.size a ≤ S640000x128.size a
  hwx4_2 : ∀ i : grid4.Coords, EltTy.bits .f32 = 32 ∨ (Rect.block (s := S640000x128) S8000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x128.size a ≤ S128x128.size a
  hwx6_5 : ∀ i : grid6.Coords, EltTy.bits .f32 = 32 ∨ (Rect.block (s := S128x128) S128x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x128.size a ≤ S50000x128.size a
  hwx6_7 : ∀ i : grid6.Coords, EltTy.bits .f32 = 32 ∨ (Rect.block (s := S50000x128) S5000x128.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S50000x128.size a
  hwx7_5 : ∀ i : grid7.Coords, EltTy.bits .f32 = 32 ∨ (Rect.block (s := S50000x128) S5000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S8000x128.size a ≤ S640000x128.size a
  hwx8_0 : ∀ i : grid8.Coords, EltTy.bits .f32 = 32 ∨ (Rect.block (s := S640000x128) S8000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S8000x128.size a ≤ S640000x128.size a
  hwx8_1 : ∀ i : grid8.Coords, EltTy.bits .f32 = 32 ∨ (Rect.block (s := S640000x128) S8000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S8000x128.size a ≤ S640000x128.size a
  hwx8_2 : ∀ i : grid8.Coords, EltTy.bits .f32 = 32 ∨ (Rect.block (s := S640000x128) S8000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x128.size a ≤ S50000x128.size a
  hwx9_1 : ∀ i : grid9.Coords, EltTy.bits .f32 = 32 ∨ (Rect.block (s := S50000x128) S5000x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x128.size a ≤ S128x128.size a
  hwx9_2 : ∀ i : grid9.Coords, EltTy.bits .f32 = 32 ∨ (Rect.block (s := S128x128) S128x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S5000x128.size a ≤ S50000x128.size a
  hwx9_4 : ∀ i : grid9.Coords, EltTy.bits .f32 = 32 ∨ (Rect.block (s := S50000x128) S5000x128.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S128x128.size a ≤ S128x128.size a
  hwx10_5 : ∀ i : grid10.Coords, EltTy.bits .f32 = 32 ∨ (Rect.block (s := S128x128) S128x128.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x128.size a ≤ S1x128.size a
  hwx10_6 : ∀ i : grid10.Coords, EltTy.bits .f32 = 32 ∨ (Rect.block (s := S1x128) S1x128.size (cc10_transform_6 i) (hinb10_6 i)).WholeWords (EltTy.packing .f32)
  hstage10_7 : ∀ j, (stage10_7 j).IsWhole
  nbuf10_7 : grid10.bufCount reads10_7 false = 2
  hreads10_7 : ∀ i i' : grid10.Coords, (∀ a, reads10_7 a = true → i a = i' a) → cc10_transform_7 i = cc10_transform_7 i'
  hinb10_7 : ∀ (i : grid10.Coords) a, (cc10_transform_7 i a + 1) * S5000x128.size a ≤ S50000x128.size a
  hwx10_7 : ∀ i : grid10.Coords, EltTy.bits .f32 = 32 ∨ (Rect.block (s := S50000x128) S5000x128.size (cc10_transform_7 i) (hinb10_7 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S50000x128.size a
  hwx11_0 : ∀ i : grid11.Coords, EltTy.bits .f32 = 32 ∨ (Rect.block (s := S50000x128) S5000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S5000x128.size a ≤ S50000x128.size a
  hwx11_5 : ∀ i : grid11.Coords, EltTy.bits .f32 = 32 ∨ (Rect.block (s := S50000x128) S5000x128.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S8000x128.size a ≤ S640000x128.size a
  hwx12_0 : ∀ i : grid12.Coords, EltTy.bits .f32 = 32 ∨ (Rect.block (s := S640000x128) S8000x128.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S8000x128.size a ≤ S640000x128.size a
  hwx12_1 : ∀ i : grid12.Coords, EltTy.bits .f32 = 32 ∨ (Rect.block (s := S640000x128) S8000x128.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S8000x128.size a ≤ S640000x128.size a
  hwx12_2 : ∀ i : grid12.Coords, EltTy.bits .f32 = 32 ∨ (Rect.block (s := S640000x128) S8000x128.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x128.size a ≤ S50000x128.size a
  hwx13_0 : ∀ i : grid13.Coords, EltTy.bits .f32 = 32 ∨ (Rect.block (s := S50000x128) S5000x128.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S5000x128.size a ≤ S50000x128.size a
  hwx13_1 : ∀ i : grid13.Coords, EltTy.bits .f32 = 32 ∨ (Rect.block (s := S50000x128) S5000x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S128x128.size a ≤ S128x128.size a
  hwx13_2 : ∀ i : grid13.Coords, EltTy.bits .f32 = 32 ∨ (Rect.block (s := S128x128) S128x128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x128.size a ≤ S1x128.size a
  hwx13_3 : ∀ i : grid13.Coords, EltTy.bits .f32 = 32 ∨ (Rect.block (s := S1x128) S1x128.size (cc13_transform_3 i) (hinb13_3 i)).WholeWords (EltTy.packing .f32)
  hstage13_4 : ∀ j, (stage13_4 j).IsWhole
  nbuf13_4 : grid13.bufCount reads13_4 false = 2
  hreads13_4 : ∀ i i' : grid13.Coords, (∀ a, reads13_4 a = true → i a = i' a) → cc13_transform_4 i = cc13_transform_4 i'
  hinb13_4 : ∀ (i : grid13.Coords) a, (cc13_transform_4 i a + 1) * S5000x128.size a ≤ S50000x128.size a
  hwx13_4 : ∀ i : grid13.Coords, EltTy.bits .f32 = 32 ∨ (Rect.block (s := S50000x128) S5000x128.size (cc13_transform_4 i) (hinb13_4 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x128.size a ≤ S50000x128.size a
  hwx14_0 : ∀ i : grid14.Coords, EltTy.bits .f32 = 32 ∨ (Rect.block (s := S50000x128) S5000x128.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x128.size a ≤ S1x128.size a
  hwx14_1 : ∀ i : grid14.Coords, EltTy.bits .f32 = 32 ∨ (Rect.block (s := S1x128) S1x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x128.size a ≤ S1x128.size a
  hwx14_2 : ∀ i : grid14.Coords, EltTy.bits .f32 = 32 ∨ (Rect.block (s := S1x128) S1x128.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x128.size a ≤ S1x128.size a
  hwx14_3 : ∀ i : grid14.Coords, EltTy.bits .f32 = 32 ∨ (Rect.block (s := S1x128) S1x128.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x128.size a ≤ S1x128.size a
  hwx14_4 : ∀ i : grid14.Coords, EltTy.bits .f32 = 32 ∨ (Rect.block (s := S1x128) S1x128.size (cc14_transform_4 i) (hinb14_4 i)).WholeWords (EltTy.packing .f32)
  hstage14_5 : ∀ j, (stage14_5 j).IsWhole
  nbuf14_5 : grid14.bufCount reads14_5 true = 1
  hreads14_5 : ∀ i i' : grid14.Coords, (∀ a, reads14_5 a = true → i a = i' a) → cc14_transform_5 i = cc14_transform_5 i'
  hinb14_5 : ∀ (i : grid14.Coords) a, (cc14_transform_5 i a + 1) * S128x128.size a ≤ S128x128.size a
  hwx14_5 : ∀ i : grid14.Coords, EltTy.bits .f32 = 32 ∨ (Rect.block (s := S128x128) S128x128.size (cc14_transform_5 i) (hinb14_5 i)).WholeWords (EltTy.packing .f32)
  hstage14_6 : ∀ j, (stage14_6 j).IsWhole
  nbuf14_6 : grid14.bufCount reads14_6 true = 1
  hreads14_6 : ∀ i i' : grid14.Coords, (∀ a, reads14_6 a = true → i a = i' a) → cc14_transform_6 i = cc14_transform_6 i'
  hinb14_6 : ∀ (i : grid14.Coords) a, (cc14_transform_6 i a + 1) * S1x128.size a ≤ S1x128.size a
  hwx14_6 : ∀ i : grid14.Coords, EltTy.bits .f32 = 32 ∨ (Rect.block (s := S1x128) S1x128.size (cc14_transform_6 i) (hinb14_6 i)).WholeWords (EltTy.packing .f32)
  hstage14_7 : ∀ j, (stage14_7 j).IsWhole
  nbuf14_7 : grid14.bufCount reads14_7 false = 2
  hreads14_7 : ∀ i i' : grid14.Coords, (∀ a, reads14_7 a = true → i a = i' a) → cc14_transform_7 i = cc14_transform_7 i'
  hinb14_7 : ∀ (i : grid14.Coords) a, (cc14_transform_7 i a + 1) * S5000x128.size a ≤ S50000x128.size a
  hwx14_7 : ∀ i : grid14.Coords, EltTy.bits .f32 = 32 ∨ (Rect.block (s := S50000x128) S5000x128.size (cc14_transform_7 i) (hinb14_7 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v4) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S8000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v14) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v22) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v25) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v27) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v30) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v31) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v31) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v35) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v36) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v39) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v42) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v43) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v44) S8000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg2) S8000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v45) S8000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v43) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v48) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v50) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v53) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v54) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v54) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v58) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v59) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v62) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v65) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v67) S128x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v70) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v71) S5000x128.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v71) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v75) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v76) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v79) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v82) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v83) S5000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v84) S8000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg2) S8000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v85) S8000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v83) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v88) S5000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v90) S128x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v93) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v94) S5000x128.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v94) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v98) S1x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v99) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v102) S1x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v105) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v107) S128x128.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v110) S1x128.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v111) S5000x128.size cc10_transform_7 reads10_7 true false 2 stage10_7 sem10_7
    hrank10 hreads10_7 hinb10_7 nbuf10_7 (Memref.isWhole_whole _) hwx10_7 hstage10_7

abbrev win10 : Fin 8 → Pipeline.Window sig grid10 := fun | 0 => win10_0 | 1 => win10_1 | 2 => win10_2 | 3 => win10_3 | 4 => win10_4 | 5 => win10_5 | 6 => win10_6 | 7 => win10_7 | ⟨_ + 8, h⟩ => absurd h (Nat.not_lt.2 (Nat.le_add_left _ _))
abbrev spec10 : Fin 8 → Pipeline.WinSpec sig grid10.rank := fun w => (win10 w).toWinSpec

abbrev win11_0 : Pipeline.Window sig grid11 :=
  Pipeline.Window.ofSpec (Memref.whole main_v111) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v115) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v116) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v119) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v122) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v123) S5000x128.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v124) S8000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg2) S8000x128.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v125) S8000x128.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v123) S5000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v128) S5000x128.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v130) S128x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v133) S1x128.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v134) S5000x128.size cc13_transform_4 reads13_4 true false 2 stage13_4 sem13_4
    hrank13 hreads13_4 hinb13_4 nbuf13_4 (Memref.isWhole_whole _) hwx13_4 hstage13_4

abbrev win13 : Fin 5 → Pipeline.Window sig grid13 := fun | 0 => win13_0 | 1 => win13_1 | 2 => win13_2 | 3 => win13_3 | 4 => win13_4 | ⟨_ + 5, h⟩ => absurd h (Nat.not_lt.2 (Nat.le_add_left _ _))
abbrev spec13 : Fin 5 → Pipeline.WinSpec sig grid13.rank := fun w => (win13 w).toWinSpec

abbrev win14_0 : Pipeline.Window sig grid14 :=
  Pipeline.Window.ofSpec (Memref.whole main_v134) S5000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v138) S1x128.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v139) S1x128.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v142) S1x128.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v145) S1x128.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v147) S128x128.size cc14_transform_5 reads14_5 false true 1 stage14_5 sem14_5
    hrank14 hreads14_5 hinb14_5 nbuf14_5 (Memref.isWhole_whole _) hwx14_5 hstage14_5

abbrev win14_6 : Pipeline.Window sig grid14 :=
  Pipeline.Window.ofSpec (Memref.whole main_v150) S1x128.size cc14_transform_6 reads14_6 false true 1 stage14_6 sem14_6
    hrank14 hreads14_6 hinb14_6 nbuf14_6 (Memref.isWhole_whole _) hwx14_6 hstage14_6

abbrev win14_7 : Pipeline.Window sig grid14 :=
  Pipeline.Window.ofSpec (Memref.whole main_v151) S5000x128.size cc14_transform_7 reads14_7 true false 2 stage14_7 sem14_7
    hrank14 hreads14_7 hinb14_7 nbuf14_7 (Memref.isWhole_whole _) hwx14_7 hstage14_7

abbrev win14 : Fin 8 → Pipeline.Window sig grid14 := fun | 0 => win14_0 | 1 => win14_1 | 2 => win14_2 | 3 => win14_3 | 4 => win14_4 | 5 => win14_5 | 6 => win14_6 | 7 => win14_7 | ⟨_ + 8, h⟩ => absurd h (Nat.not_lt.2 (Nat.le_add_left _ _))
abbrev spec14 : Fin 8 → Pipeline.WinSpec sig grid14.rank := fun w => (win14 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S640000x128 : Shape := ⟨2, ![640000, 128]⟩
abbrev S4x128x128 : Shape := ⟨3, ![4, 128, 128]⟩
abbrev S4x128 : Shape := ⟨2, ![4, 128]⟩
abbrev S3x128 : Shape := ⟨2, ![3, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 511
  | .vmem => 0
  | .smem => 0
  | _ => 0

abbrev hbmTy0_0 (i : Nat) : BufTy := match i % 128 with
  | 0 => ⟨S50000x128, .f32⟩
  | 1 => ⟨S2x640000, .i32⟩
  | 2 => ⟨S640000x128, .f32⟩
  | 3 => ⟨S4x128x128, .f32⟩
  | 4 => ⟨S4x128, .f32⟩
  | 5 => ⟨S4x128, .f32⟩
  | 6 => ⟨S4x128, .f32⟩
  | 7 => ⟨S4x128x128, .f32⟩
  | 8 => ⟨S4x128, .f32⟩
  | 9 => ⟨S3x128, .f32⟩
  | 10 => ⟨S3x128, .f32⟩
  | 11 => ⟨S1x640000, .i32⟩
  | 12 => ⟨S640000, .i32⟩
  | 13 => ⟨S1x640000, .i32⟩
  | 14 => ⟨S640000, .i32⟩
  | 15 => ⟨S_, .i32⟩
  | 16 => ⟨S640000, .i32⟩
  | 17 => ⟨S640000, .i1⟩
  | 18 => ⟨S_, .i32⟩
  | 19 => ⟨S640000, .i32⟩
  | 20 => ⟨S640000, .i32⟩
  | 21 => ⟨S640000, .i32⟩
  | 22 => ⟨S640000x1, .i32⟩
  | 23 => ⟨S640000x128, .f32⟩
  | 24 => ⟨S640000x128, .f32⟩
  | 25 => ⟨S_, .f32⟩
  | 26 => ⟨S640000x128, .f32⟩
  | 27 => ⟨S640000x128, .f32⟩
  | 28 => ⟨S_, .f32⟩
  | 29 => ⟨S50000x128, .f32⟩
  | 30 => ⟨S640000x1, .i32⟩
  | 31 => ⟨S50000x128, .f32⟩
  | 32 => ⟨S50000x128, .f32⟩
  | 33 => ⟨S1x128x128, .f32⟩
  | 34 => ⟨S128x128, .f32⟩
  | 35 => ⟨S50000x128, .f32⟩
  | 36 => ⟨S1x128, .f32⟩
  | 37 => ⟨S128, .f32⟩
  | 38 => ⟨S1x128, .f32⟩
  | 39 => ⟨S50000x128, .f32⟩
  | 40 => ⟨S50000x128, .f32⟩
  | 41 => ⟨S1x128, .f32⟩
  | 42 => ⟨S128, .f32⟩
  | 43 => ⟨S1x128, .f32⟩
  | 44 => ⟨S128, .f32⟩
  | 45 => ⟨S_, .f32⟩
  | 46 => ⟨S128, .f32⟩
  | 47 => ⟨S_, .f32⟩
  | 48 => ⟨S128, .f32⟩
  | 49 => ⟨S128, .f32⟩
  | 50 => ⟨S_, .i32⟩
  | 51 => ⟨S_, .f32⟩
  | 52 => ⟨S128, .f32⟩
  | 53 => ⟨S1x128, .f32⟩
  | 54 => ⟨S_, .f32⟩
  | 55 => ⟨S1x128, .f32⟩
  | 56 => ⟨S1x128, .f32⟩
  | 57 => ⟨S50000x128, .f32⟩
  | 58 => ⟨S50000x128, .f32⟩
  | 59 => ⟨S50000x128, .f32⟩
  | 60 => ⟨S_, .f32⟩
  | 61 => ⟨S_, .f32⟩
  | 62 => ⟨S_, .f32⟩
  | 63 => ⟨S_, .f32⟩
  | 64 => ⟨S128, .f32⟩
  | 65 => ⟨S128, .f32⟩
  | 66 => ⟨S128, .f32⟩
  | 67 => ⟨S_, .f32⟩
  | 68 => ⟨S_, .i1⟩
  | 69 => ⟨S_, .f32⟩
  | 70 => ⟨S_, .f32⟩
  | 71 => ⟨S128, .f32⟩
  | 72 => ⟨S128, .f32⟩
  | 73 => ⟨S1x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S128, .f32⟩
  | 81 => ⟨S128, .f32⟩
  | 82 => ⟨S128, .f32⟩
  | 83 => ⟨S1x128, .f32⟩
  | 84 => ⟨S50000x128, .f32⟩
  | 85 => ⟨S50000x128, .f32⟩
  | 86 => ⟨S1x128, .f32⟩
  | 87 => ⟨S50000x128, .f32⟩
  | 88 => ⟨S50000x128, .f32⟩
  | 89 => ⟨S_, .f32⟩
  | 90 => ⟨S50000x128, .f32⟩
  | 91 => ⟨S50000x128, .f32⟩
  | 92 => ⟨S1x128x128, .f32⟩
  | 93 => ⟨S128x128, .f32⟩
  | 94 => ⟨S50000x128, .f32⟩
  | 95 => ⟨S1x128, .f32⟩
  | 96 => ⟨S128, .f32⟩
  | 97 => ⟨S1x128, .f32⟩
  | 98 => ⟨S50000x128, .f32⟩
  | 99 => ⟨S50000x128, .f32⟩
  | 100 => ⟨S_, .f32⟩
  | 101 => ⟨S50000x128, .f32⟩
  | 102 => ⟨S50000x128, .f32⟩
  | 103 => ⟨S1x128, .f32⟩
  | 104 => ⟨S128, .f32⟩
  | 105 => ⟨S1x128, .f32⟩
  | 106 => ⟨S128, .f32⟩
  | 107 => ⟨S_, .f32⟩
  | 108 => ⟨S128, .f32⟩
  | 109 => ⟨S_, .f32⟩
  | 110 => ⟨S128, .f32⟩
  | 111 => ⟨S128, .f32⟩
  | 112 => ⟨S_, .i32⟩
  | 113 => ⟨S_, .f32⟩
  | 114 => ⟨S128, .f32⟩
  | 115 => ⟨S1x128, .f32⟩
  | 116 => ⟨S_, .f32⟩
  | 117 => ⟨S1x128, .f32⟩
  | 118 => ⟨S1x128, .f32⟩
  | 119 => ⟨S50000x128, .f32⟩
  | 120 => ⟨S50000x128, .f32⟩
  | 121 => ⟨S50000x128, .f32⟩
  | 122 => ⟨S_, .f32⟩
  | 123 => ⟨S_, .f32⟩
  | 124 => ⟨S_, .f32⟩
  | 125 => ⟨S_, .f32⟩
  | 126 => ⟨S128, .f32⟩
  | 127 => ⟨S128, .f32⟩
  | _ => ⟨S50000x128, .f32⟩

abbrev hbmTy0_1 (i : Nat) : BufTy := match i % 128 with
  | 0 => ⟨S128, .f32⟩
  | 1 => ⟨S_, .f32⟩
  | 2 => ⟨S_, .i1⟩
  | 3 => ⟨S_, .f32⟩
  | 4 => ⟨S_, .f32⟩
  | 5 => ⟨S128, .f32⟩
  | 6 => ⟨S128, .f32⟩
  | 7 => ⟨S1x128, .f32⟩
  | 8 => ⟨S50000x128, .f32⟩
  | 9 => ⟨S50000x128, .f32⟩
  | 10 => ⟨S1x128, .f32⟩
  | 11 => ⟨S50000x128, .f32⟩
  | 12 => ⟨S50000x128, .f32⟩
  | 13 => ⟨S_, .f32⟩
  | 14 => ⟨S128, .f32⟩
  | 15 => ⟨S128, .f32⟩
  | 16 => ⟨S128, .f32⟩
  | 17 => ⟨S1x128, .f32⟩
  | 18 => ⟨S50000x128, .f32⟩
  | 19 => ⟨S50000x128, .f32⟩
  | 20 => ⟨S1x128, .f32⟩
  | 21 => ⟨S50000x128, .f32⟩
  | 22 => ⟨S50000x128, .f32⟩
  | 23 => ⟨S_, .i32⟩
  | 24 => ⟨S640000, .i32⟩
  | 25 => ⟨S640000, .i1⟩
  | 26 => ⟨S_, .i32⟩
  | 27 => ⟨S640000, .i32⟩
  | 28 => ⟨S640000, .i32⟩
  | 29 => ⟨S640000, .i32⟩
  | 30 => ⟨S640000x1, .i32⟩
  | 31 => ⟨S640000x128, .f32⟩
  | 32 => ⟨S640000x128, .f32⟩
  | 33 => ⟨S_, .f32⟩
  | 34 => ⟨S640000x128, .f32⟩
  | 35 => ⟨S640000x128, .f32⟩
  | 36 => ⟨S_, .f32⟩
  | 37 => ⟨S50000x128, .f32⟩
  | 38 => ⟨S640000x1, .i32⟩
  | 39 => ⟨S50000x128, .f32⟩
  | 40 => ⟨S50000x128, .f32⟩
  | 41 => ⟨S1x128x128, .f32⟩
  | 42 => ⟨S128x128, .f32⟩
  | 43 => ⟨S50000x128, .f32⟩
  | 44 => ⟨S1x128, .f32⟩
  | 45 => ⟨S128, .f32⟩
  | 46 => ⟨S1x128, .f32⟩
  | 47 => ⟨S50000x128, .f32⟩
  | 48 => ⟨S50000x128, .f32⟩
  | 49 => ⟨S1x128, .f32⟩
  | 50 => ⟨S128, .f32⟩
  | 51 => ⟨S1x128, .f32⟩
  | 52 => ⟨S128, .f32⟩
  | 53 => ⟨S_, .f32⟩
  | 54 => ⟨S128, .f32⟩
  | 55 => ⟨S_, .f32⟩
  | 56 => ⟨S128, .f32⟩
  | 57 => ⟨S128, .f32⟩
  | 58 => ⟨S_, .i32⟩
  | 59 => ⟨S_, .f32⟩
  | 60 => ⟨S128, .f32⟩
  | 61 => ⟨S1x128, .f32⟩
  | 62 => ⟨S_, .f32⟩
  | 63 => ⟨S1x128, .f32⟩
  | 64 => ⟨S1x128, .f32⟩
  | 65 => ⟨S50000x128, .f32⟩
  | 66 => ⟨S50000x128, .f32⟩
  | 67 => ⟨S50000x128, .f32⟩
  | 68 => ⟨S_, .f32⟩
  | 69 => ⟨S_, .f32⟩
  | 70 => ⟨S_, .f32⟩
  | 71 => ⟨S_, .f32⟩
  | 72 => ⟨S128, .f32⟩
  | 73 => ⟨S128, .f32⟩
  | 74 => ⟨S128, .f32⟩
  | 75 => ⟨S_, .f32⟩
  | 76 => ⟨S_, .i1⟩
  | 77 => ⟨S_, .f32⟩
  | 78 => ⟨S_, .f32⟩
  | 79 => ⟨S128, .f32⟩
  | 80 => ⟨S128, .f32⟩
  | 81 => ⟨S1x128, .f32⟩
  | 82 => ⟨S50000x128, .f32⟩
  | 83 => ⟨S50000x128, .f32⟩
  | 84 => ⟨S1x128, .f32⟩
  | 85 => ⟨S50000x128, .f32⟩
  | 86 => ⟨S50000x128, .f32⟩
  | 87 => ⟨S_, .f32⟩
  | 88 => ⟨S128, .f32⟩
  | 89 => ⟨S128, .f32⟩
  | 90 => ⟨S128, .f32⟩
  | 91 => ⟨S1x128, .f32⟩
  | 92 => ⟨S50000x128, .f32⟩
  | 93 => ⟨S50000x128, .f32⟩
  | 94 => ⟨S1x128, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S1x128x128, .f32⟩
  | 101 => ⟨S128x128, .f32⟩
  | 102 => ⟨S50000x128, .f32⟩
  | 103 => ⟨S1x128, .f32⟩
  | 104 => ⟨S128, .f32⟩
  | 105 => ⟨S1x128, .f32⟩
  | 106 => ⟨S50000x128, .f32⟩
  | 107 => ⟨S50000x128, .f32⟩
  | 108 => ⟨S_, .f32⟩
  | 109 => ⟨S50000x128, .f32⟩
  | 110 => ⟨S50000x128, .f32⟩
  | 111 => ⟨S1x128, .f32⟩
  | 112 => ⟨S128, .f32⟩
  | 113 => ⟨S1x128, .f32⟩
  | 114 => ⟨S128, .f32⟩
  | 115 => ⟨S_, .f32⟩
  | 116 => ⟨S128, .f32⟩
  | 117 => ⟨S_, .f32⟩
  | 118 => ⟨S128, .f32⟩
  | 119 => ⟨S128, .f32⟩
  | 120 => ⟨S_, .i32⟩
  | 121 => ⟨S_, .f32⟩
  | 122 => ⟨S128, .f32⟩
  | 123 => ⟨S1x128, .f32⟩
  | 124 => ⟨S_, .f32⟩
  | 125 => ⟨S1x128, .f32⟩
  | 126 => ⟨S1x128, .f32⟩
  | 127 => ⟨S50000x128, .f32⟩
  | _ => ⟨S50000x128, .f32⟩

abbrev hbmTy0_2 (i : Nat) : BufTy := match i % 128 with
  | 0 => ⟨S50000x128, .f32⟩
  | 1 => ⟨S50000x128, .f32⟩
  | 2 => ⟨S_, .f32⟩
  | 3 => ⟨S_, .f32⟩
  | 4 => ⟨S_, .f32⟩
  | 5 => ⟨S_, .f32⟩
  | 6 => ⟨S128, .f32⟩
  | 7 => ⟨S128, .f32⟩
  | 8 => ⟨S128, .f32⟩
  | 9 => ⟨S_, .f32⟩
  | 10 => ⟨S_, .i1⟩
  | 11 => ⟨S_, .f32⟩
  | 12 => ⟨S_, .f32⟩
  | 13 => ⟨S128, .f32⟩
  | 14 => ⟨S128, .f32⟩
  | 15 => ⟨S1x128, .f32⟩
  | 16 => ⟨S50000x128, .f32⟩
  | 17 => ⟨S50000x128, .f32⟩
  | 18 => ⟨S1x128, .f32⟩
  | 19 => ⟨S50000x128, .f32⟩
  | 20 => ⟨S50000x128, .f32⟩
  | 21 => ⟨S_, .f32⟩
  | 22 => ⟨S128, .f32⟩
  | 23 => ⟨S128, .f32⟩
  | 24 => ⟨S128, .f32⟩
  | 25 => ⟨S1x128, .f32⟩
  | 26 => ⟨S50000x128, .f32⟩
  | 27 => ⟨S50000x128, .f32⟩
  | 28 => ⟨S1x128, .f32⟩
  | 29 => ⟨S50000x128, .f32⟩
  | 30 => ⟨S50000x128, .f32⟩
  | 31 => ⟨S_, .i32⟩
  | 32 => ⟨S640000, .i32⟩
  | 33 => ⟨S640000, .i1⟩
  | 34 => ⟨S_, .i32⟩
  | 35 => ⟨S640000, .i32⟩
  | 36 => ⟨S640000, .i32⟩
  | 37 => ⟨S640000, .i32⟩
  | 38 => ⟨S640000x1, .i32⟩
  | 39 => ⟨S640000x128, .f32⟩
  | 40 => ⟨S640000x128, .f32⟩
  | 41 => ⟨S_, .f32⟩
  | 42 => ⟨S640000x128, .f32⟩
  | 43 => ⟨S640000x128, .f32⟩
  | 44 => ⟨S_, .f32⟩
  | 45 => ⟨S50000x128, .f32⟩
  | 46 => ⟨S640000x1, .i32⟩
  | 47 => ⟨S50000x128, .f32⟩
  | 48 => ⟨S50000x128, .f32⟩
  | 49 => ⟨S1x128x128, .f32⟩
  | 50 => ⟨S128x128, .f32⟩
  | 51 => ⟨S50000x128, .f32⟩
  | 52 => ⟨S1x128, .f32⟩
  | 53 => ⟨S128, .f32⟩
  | 54 => ⟨S1x128, .f32⟩
  | 55 => ⟨S50000x128, .f32⟩
  | 56 => ⟨S50000x128, .f32⟩
  | 57 => ⟨S1x128, .f32⟩
  | 58 => ⟨S128, .f32⟩
  | 59 => ⟨S1x128, .f32⟩
  | 60 => ⟨S128, .f32⟩
  | 61 => ⟨S_, .f32⟩
  | 62 => ⟨S128, .f32⟩
  | 63 => ⟨S_, .f32⟩
  | 64 => ⟨S128, .f32⟩
  | 65 => ⟨S128, .f32⟩
  | 66 => ⟨S_, .i32⟩
  | 67 => ⟨S_, .f32⟩
  | 68 => ⟨S128, .f32⟩
  | 69 => ⟨S1x128, .f32⟩
  | 70 => ⟨S_, .f32⟩
  | 71 => ⟨S1x128, .f32⟩
  | 72 => ⟨S1x128, .f32⟩
  | 73 => ⟨S50000x128, .f32⟩
  | 74 => ⟨S50000x128, .f32⟩
  | 75 => ⟨S50000x128, .f32⟩
  | 76 => ⟨S_, .f32⟩
  | 77 => ⟨S_, .f32⟩
  | 78 => ⟨S_, .f32⟩
  | 79 => ⟨S_, .f32⟩
  | 80 => ⟨S128, .f32⟩
  | 81 => ⟨S128, .f32⟩
  | 82 => ⟨S128, .f32⟩
  | 83 => ⟨S_, .f32⟩
  | 84 => ⟨S_, .i1⟩
  | 85 => ⟨S_, .f32⟩
  | 86 => ⟨S_, .f32⟩
  | 87 => ⟨S128, .f32⟩
  | 88 => ⟨S128, .f32⟩
  | 89 => ⟨S1x128, .f32⟩
  | 90 => ⟨S50000x128, .f32⟩
  | 91 => ⟨S50000x128, .f32⟩
  | 92 => ⟨S1x128, .f32⟩
  | 93 => ⟨S50000x128, .f32⟩
  | 94 => ⟨S50000x128, .f32⟩
  | 95 => ⟨S_, .f32⟩
  | 96 => ⟨S128, .f32⟩
  | 97 => ⟨S128, .f32⟩
  | 98 => ⟨S128, .f32⟩
  | 99 => ⟨S1x128, .f32⟩
  | 100 => ⟨S50000x128, .f32⟩
  | 101 => ⟨S50000x128, .f32⟩
  | 102 => ⟨S1x128, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S1x128x128, .f32⟩
  | 109 => ⟨S128x128, .f32⟩
  | 110 => ⟨S50000x128, .f32⟩
  | 111 => ⟨S1x128, .f32⟩
  | 112 => ⟨S128, .f32⟩
  | 113 => ⟨S1x128, .f32⟩
  | 114 => ⟨S50000x128, .f32⟩
  | 115 => ⟨S50000x128, .f32⟩
  | 116 => ⟨S_, .f32⟩
  | 117 => ⟨S50000x128, .f32⟩
  | 118 => ⟨S50000x128, .f32⟩
  | 119 => ⟨S1x128, .f32⟩
  | 120 => ⟨S128, .f32⟩
  | 121 => ⟨S1x128, .f32⟩
  | 122 => ⟨S128, .f32⟩
  | 123 => ⟨S_, .f32⟩
  | 124 => ⟨S128, .f32⟩
  | 125 => ⟨S_, .f32⟩
  | 126 => ⟨S128, .f32⟩
  | 127 => ⟨S128, .f32⟩
  | _ => ⟨S50000x128, .f32⟩

abbrev hbmTy0_3 (i : Nat) : BufTy := match i % 128 with
  | 0 => ⟨S_, .i32⟩
  | 1 => ⟨S_, .f32⟩
  | 2 => ⟨S128, .f32⟩
  | 3 => ⟨S1x128, .f32⟩
  | 4 => ⟨S_, .f32⟩
  | 5 => ⟨S1x128, .f32⟩
  | 6 => ⟨S1x128, .f32⟩
  | 7 => ⟨S50000x128, .f32⟩
  | 8 => ⟨S50000x128, .f32⟩
  | 9 => ⟨S50000x128, .f32⟩
  | 10 => ⟨S_, .f32⟩
  | 11 => ⟨S_, .f32⟩
  | 12 => ⟨S_, .f32⟩
  | 13 => ⟨S_, .f32⟩
  | 14 => ⟨S128, .f32⟩
  | 15 => ⟨S128, .f32⟩
  | 16 => ⟨S128, .f32⟩
  | 17 => ⟨S_, .f32⟩
  | 18 => ⟨S_, .i1⟩
  | 19 => ⟨S_, .f32⟩
  | 20 => ⟨S_, .f32⟩
  | 21 => ⟨S128, .f32⟩
  | 22 => ⟨S128, .f32⟩
  | 23 => ⟨S1x128, .f32⟩
  | 24 => ⟨S50000x128, .f32⟩
  | 25 => ⟨S50000x128, .f32⟩
  | 26 => ⟨S1x128, .f32⟩
  | 27 => ⟨S50000x128, .f32⟩
  | 28 => ⟨S50000x128, .f32⟩
  | 29 => ⟨S_, .f32⟩
  | 30 => ⟨S128, .f32⟩
  | 31 => ⟨S128, .f32⟩
  | 32 => ⟨S128, .f32⟩
  | 33 => ⟨S1x128, .f32⟩
  | 34 => ⟨S50000x128, .f32⟩
  | 35 => ⟨S50000x128, .f32⟩
  | 36 => ⟨S1x128, .f32⟩
  | 37 => ⟨S50000x128, .f32⟩
  | 38 => ⟨S50000x128, .f32⟩
  | 39 => ⟨S_, .i32⟩
  | 40 => ⟨S640000, .i32⟩
  | 41 => ⟨S640000, .i1⟩
  | 42 => ⟨S_, .i32⟩
  | 43 => ⟨S640000, .i32⟩
  | 44 => ⟨S640000, .i32⟩
  | 45 => ⟨S640000, .i32⟩
  | 46 => ⟨S640000x1, .i32⟩
  | 47 => ⟨S640000x128, .f32⟩
  | 48 => ⟨S640000x128, .f32⟩
  | 49 => ⟨S_, .f32⟩
  | 50 => ⟨S640000x128, .f32⟩
  | 51 => ⟨S640000x128, .f32⟩
  | 52 => ⟨S_, .f32⟩
  | 53 => ⟨S50000x128, .f32⟩
  | 54 => ⟨S640000x1, .i32⟩
  | 55 => ⟨S50000x128, .f32⟩
  | 56 => ⟨S50000x128, .f32⟩
  | 57 => ⟨S1x128x128, .f32⟩
  | 58 => ⟨S128x128, .f32⟩
  | 59 => ⟨S50000x128, .f32⟩
  | 60 => ⟨S1x128, .f32⟩
  | 61 => ⟨S128, .f32⟩
  | 62 => ⟨S1x128, .f32⟩
  | 63 => ⟨S50000x128, .f32⟩
  | 64 => ⟨S50000x128, .f32⟩
  | 65 => ⟨S1x128, .f32⟩
  | 66 => ⟨S128, .f32⟩
  | 67 => ⟨S1x128, .f32⟩
  | 68 => ⟨S128, .f32⟩
  | 69 => ⟨S_, .f32⟩
  | 70 => ⟨S128, .f32⟩
  | 71 => ⟨S_, .f32⟩
  | 72 => ⟨S128, .f32⟩
  | 73 => ⟨S128, .f32⟩
  | 74 => ⟨S_, .i32⟩
  | 75 => ⟨S_, .f32⟩
  | 76 => ⟨S128, .f32⟩
  | 77 => ⟨S1x128, .f32⟩
  | 78 => ⟨S_, .f32⟩
  | 79 => ⟨S1x128, .f32⟩
  | 80 => ⟨S1x128, .f32⟩
  | 81 => ⟨S50000x128, .f32⟩
  | 82 => ⟨S50000x128, .f32⟩
  | 83 => ⟨S50000x128, .f32⟩
  | 84 => ⟨S_, .f32⟩
  | 85 => ⟨S_, .f32⟩
  | 86 => ⟨S_, .f32⟩
  | 87 => ⟨S_, .f32⟩
  | 88 => ⟨S128, .f32⟩
  | 89 => ⟨S128, .f32⟩
  | 90 => ⟨S128, .f32⟩
  | 91 => ⟨S_, .f32⟩
  | 92 => ⟨S_, .i1⟩
  | 93 => ⟨S_, .f32⟩
  | 94 => ⟨S_, .f32⟩
  | 95 => ⟨S128, .f32⟩
  | 96 => ⟨S128, .f32⟩
  | 97 => ⟨S1x128, .f32⟩
  | 98 => ⟨S50000x128, .f32⟩
  | 99 => ⟨S50000x128, .f32⟩
  | 100 => ⟨S1x128, .f32⟩
  | 101 => ⟨S50000x128, .f32⟩
  | 102 => ⟨S50000x128, .f32⟩
  | 103 => ⟨S_, .f32⟩
  | 104 => ⟨S128, .f32⟩
  | 105 => ⟨S128, .f32⟩
  | 106 => ⟨S128, .f32⟩
  | 107 => ⟨S1x128, .f32⟩
  | 108 => ⟨S50000x128, .f32⟩
  | 109 => ⟨S50000x128, .f32⟩
  | 110 => ⟨S1x128, .f32⟩
  | 111 => ⟨S50000x128, .f32⟩
  | 112 => ⟨S50000x128, .f32⟩
  | 113 => ⟨S_, .f32⟩
  | 114 => ⟨S50000x128, .f32⟩
  | 115 => ⟨S50000x128, .f32⟩
  | 116 => ⟨S1x128x128, .f32⟩
  | 117 => ⟨S128x128, .f32⟩
  | 118 => ⟨S50000x128, .f32⟩
  | 119 => ⟨S1x128, .f32⟩
  | 120 => ⟨S128, .f32⟩
  | 121 => ⟨S1x128, .f32⟩
  | 122 => ⟨S50000x128, .f32⟩
  | 123 => ⟨S50000x128, .f32⟩
  | 124 => ⟨S_, .f32⟩
  | 125 => ⟨S50000x128, .f32⟩
  | 126 => ⟨S50000x128, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call0_cst : Ref sig .tc := ⟨.hbm, 25, rfl⟩
abbrev main_call0_v0 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_1 : Ref sig .tc := ⟨.hbm, 45, rfl⟩
abbrev main_v29 : Ref sig .tc := ⟨.hbm, 46, rfl⟩
abbrev main_cst_2 : Ref sig .tc := ⟨.hbm, 47, rfl⟩
abbrev main_v30 : Ref sig .tc := ⟨.hbm, 48, rfl⟩
abbrev main_v31 : Ref sig .tc := ⟨.hbm, 49, rfl⟩
abbrev main_c_3 : Ref sig .tc := ⟨.hbm, 50, rfl⟩
abbrev main_call1_cst : Ref sig .tc := ⟨.hbm, 51, rfl⟩
abbrev main_call1_v0 : Ref sig .tc := ⟨.hbm, 52, rfl⟩
abbrev main_call1_v1 : Ref sig .tc := ⟨.hbm, 53, rfl⟩
abbrev main_call1_cst_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_cst_1 : Ref sig .tc := ⟨.hbm, 61, rfl⟩
abbrev main_call1_v8 : Ref sig .tc := ⟨.hbm, 62, rfl⟩
abbrev main_call1_cst_2 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_cst_3 : Ref sig .tc := ⟨.hbm, 67, rfl⟩
abbrev main_call1_v12 : Ref sig .tc := ⟨.hbm, 68, rfl⟩
abbrev main_call1_cst_4 : Ref sig .tc := ⟨.hbm, 69, rfl⟩
abbrev main_call1_call0_v0 : Ref sig .tc := ⟨.hbm, 70, rfl⟩
abbrev main_call1_call0_v1 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_cst_4 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_call2_cst : Ref sig .tc := ⟨.hbm, 89, rfl⟩
abbrev main_call2_v0 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_call3_cst : Ref sig .tc := ⟨.hbm, 100, rfl⟩
abbrev main_call3_v0 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_cst_5 : Ref sig .tc := ⟨.hbm, 107, rfl⟩
abbrev main_v62 : Ref sig .tc := ⟨.hbm, 108, rfl⟩
abbrev main_cst_6 : Ref sig .tc := ⟨.hbm, 109, rfl⟩
abbrev main_v63 : Ref sig .tc := ⟨.hbm, 110, rfl⟩
abbrev main_v64 : Ref sig .tc := ⟨.hbm, 111, rfl⟩
abbrev main_c_7 : Ref sig .tc := ⟨.hbm, 112, rfl⟩
abbrev main_call4_cst : Ref sig .tc := ⟨.hbm, 113, rfl⟩
abbrev main_call4_v0 : Ref sig .tc := ⟨.hbm, 114, rfl⟩
abbrev main_call4_v1 : Ref sig .tc := ⟨.hbm, 115, rfl⟩
abbrev main_call4_cst_0 : Ref sig .tc := ⟨.hbm, 116, rfl⟩
abbrev main_call4_v2 : Ref sig .tc := ⟨.hbm, 117, rfl⟩
abbrev main_call4_v3 : Ref sig .tc := ⟨.hbm, 118, rfl⟩
abbrev main_call4_v4 : Ref sig .tc := ⟨.hbm, 119, rfl⟩
abbrev main_call4_v5 : Ref sig .tc := ⟨.hbm, 120, rfl⟩
abbrev main_call4_v6 : Ref sig .tc := ⟨.hbm, 121, rfl⟩
abbrev main_call4_v7 : Ref sig .tc := ⟨.hbm, 122, rfl⟩
abbrev main_call4_cst_1 : Ref sig .tc := ⟨.hbm, 123, rfl⟩
abbrev main_call4_v8 : Ref sig .tc := ⟨.hbm, 124, rfl⟩
abbrev main_call4_cst_2 : Ref sig .tc := ⟨.hbm, 125, rfl⟩
abbrev main_call4_v9 : Ref sig .tc := ⟨.hbm, 126, rfl⟩
abbrev main_call4_v10 : Ref sig .tc := ⟨.hbm, 127, rfl⟩
abbrev main_call4_v11 : Ref sig .tc := ⟨.hbm, 128, rfl⟩
abbrev main_call4_cst_3 : Ref sig .tc := ⟨.hbm, 129, rfl⟩
abbrev main_call4_v12 : Ref sig .tc := ⟨.hbm, 130, rfl⟩
abbrev main_call4_cst_4 : Ref sig .tc := ⟨.hbm, 131, rfl⟩
abbrev main_call4_call0_v0 : Ref sig .tc := ⟨.hbm, 132, rfl⟩
abbrev main_call4_call0_v1 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_cst_8 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_c_9 : Ref sig .tc := ⟨.hbm, 151, rfl⟩
abbrev main_v81 : Ref sig .tc := ⟨.hbm, 152, rfl⟩
abbrev main_v82 : Ref sig .tc := ⟨.hbm, 153, rfl⟩
abbrev main_c_10 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_call5_cst : Ref sig .tc := ⟨.hbm, 161, rfl⟩
abbrev main_call5_v0 : Ref sig .tc := ⟨.hbm, 162, rfl⟩
abbrev main_v89 : Ref sig .tc := ⟨.hbm, 163, rfl⟩
abbrev main_cst_11 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_cst_12 : Ref sig .tc := ⟨.hbm, 181, rfl⟩
abbrev main_v106 : Ref sig .tc := ⟨.hbm, 182, rfl⟩
abbrev main_cst_13 : Ref sig .tc := ⟨.hbm, 183, rfl⟩
abbrev main_v107 : Ref sig .tc := ⟨.hbm, 184, rfl⟩
abbrev main_v108 : Ref sig .tc := ⟨.hbm, 185, rfl⟩
abbrev main_c_14 : Ref sig .tc := ⟨.hbm, 186, rfl⟩
abbrev main_call6_cst : Ref sig .tc := ⟨.hbm, 187, rfl⟩
abbrev main_call6_v0 : Ref sig .tc := ⟨.hbm, 188, rfl⟩
abbrev main_call6_v1 : Ref sig .tc := ⟨.hbm, 189, rfl⟩
abbrev main_call6_cst_0 : Ref sig .tc := ⟨.hbm, 190, rfl⟩
abbrev main_call6_v2 : Ref sig .tc := ⟨.hbm, 191, rfl⟩
abbrev main_call6_v3 : Ref sig .tc := ⟨.hbm, 192, rfl⟩
abbrev main_call6_v4 : Ref sig .tc := ⟨.hbm, 193, rfl⟩
abbrev main_call6_v5 : Ref sig .tc := ⟨.hbm, 194, rfl⟩
abbrev main_call6_v6 : Ref sig .tc := ⟨.hbm, 195, rfl⟩
abbrev main_call6_v7 : Ref sig .tc := ⟨.hbm, 196, rfl⟩
abbrev main_call6_cst_1 : Ref sig .tc := ⟨.hbm, 197, rfl⟩
abbrev main_call6_v8 : Ref sig .tc := ⟨.hbm, 198, rfl⟩
abbrev main_call6_cst_2 : Ref sig .tc := ⟨.hbm, 199, rfl⟩
abbrev main_call6_v9 : Ref sig .tc := ⟨.hbm, 200, rfl⟩
abbrev main_call6_v10 : Ref sig .tc := ⟨.hbm, 201, rfl⟩
abbrev main_call6_v11 : Ref sig .tc := ⟨.hbm, 202, rfl⟩
abbrev main_call6_cst_3 : Ref sig .tc := ⟨.hbm, 203, rfl⟩
abbrev main_call6_v12 : Ref sig .tc := ⟨.hbm, 204, rfl⟩
abbrev main_call6_cst_4 : Ref sig .tc := ⟨.hbm, 205, rfl⟩
abbrev main_call6_call0_v0 : Ref sig .tc := ⟨.hbm, 206, rfl⟩
abbrev main_call6_call0_v1 : Ref sig .tc := ⟨.hbm, 207, rfl⟩
abbrev main_v109 : Ref sig .tc := ⟨.hbm, 208, rfl⟩
abbrev main_v110 : Ref sig .tc := ⟨.hbm, 209, rfl⟩
abbrev main_v111 : Ref sig .tc := ⟨.hbm, 210, rfl⟩
abbrev main_v112 : Ref sig .tc := ⟨.hbm, 211, rfl⟩
abbrev main_v113 : Ref sig .tc := ⟨.hbm, 212, rfl⟩
abbrev main_v114 : Ref sig .tc := ⟨.hbm, 213, rfl⟩
abbrev main_v115 : Ref sig .tc := ⟨.hbm, 214, rfl⟩
abbrev main_cst_15 : Ref sig .tc := ⟨.hbm, 215, rfl⟩
abbrev main_v116 : Ref sig .tc := ⟨.hbm, 216, rfl⟩
abbrev main_v117 : Ref sig .tc := ⟨.hbm, 217, rfl⟩
abbrev main_v118 : Ref sig .tc := ⟨.hbm, 218, rfl⟩
abbrev main_v119 : Ref sig .tc := ⟨.hbm, 219, rfl⟩
abbrev main_v120 : Ref sig .tc := ⟨.hbm, 220, rfl⟩
abbrev main_v121 : Ref sig .tc := ⟨.hbm, 221, rfl⟩
abbrev main_v122 : Ref sig .tc := ⟨.hbm, 222, rfl⟩
abbrev main_v123 : Ref sig .tc := ⟨.hbm, 223, rfl⟩
abbrev main_v124 : Ref sig .tc := ⟨.hbm, 224, rfl⟩
abbrev main_call7_cst : Ref sig .tc := ⟨.hbm, 225, rfl⟩
abbrev main_call7_v0 : Ref sig .tc := ⟨.hbm, 226, rfl⟩
abbrev main_v125 : Ref sig .tc := ⟨.hbm, 227, rfl⟩
abbrev main_v126 : Ref sig .tc := ⟨.hbm, 228, rfl⟩
abbrev main_v127 : Ref sig .tc := ⟨.hbm, 229, rfl⟩
abbrev main_v128 : Ref sig .tc := ⟨.hbm, 230, rfl⟩
abbrev main_v129 : Ref sig .tc := ⟨.hbm, 231, rfl⟩
abbrev main_v130 : Ref sig .tc := ⟨.hbm, 232, rfl⟩
abbrev main_v131 : Ref sig .tc := ⟨.hbm, 233, rfl⟩
abbrev main_v132 : Ref sig .tc := ⟨.hbm, 234, rfl⟩
abbrev main_v133 : Ref sig .tc := ⟨.hbm, 235, rfl⟩
abbrev main_call8_cst : Ref sig .tc := ⟨.hbm, 236, rfl⟩
abbrev main_call8_v0 : Ref sig .tc := ⟨.hbm, 237, rfl⟩
abbrev main_v134 : Ref sig .tc := ⟨.hbm, 238, rfl⟩
abbrev main_v135 : Ref sig .tc := ⟨.hbm, 239, rfl⟩
abbrev main_v136 : Ref sig .tc := ⟨.hbm, 240, rfl⟩
abbrev main_v137 : Ref sig .tc := ⟨.hbm, 241, rfl⟩
abbrev main_v138 : Ref sig .tc := ⟨.hbm, 242, rfl⟩
abbrev main_cst_16 : Ref sig .tc := ⟨.hbm, 243, rfl⟩
abbrev main_v139 : Ref sig .tc := ⟨.hbm, 244, rfl⟩
abbrev main_cst_17 : Ref sig .tc := ⟨.hbm, 245, rfl⟩
abbrev main_v140 : Ref sig .tc := ⟨.hbm, 246, rfl⟩
abbrev main_v141 : Ref sig .tc := ⟨.hbm, 247, rfl⟩
abbrev main_c_18 : Ref sig .tc := ⟨.hbm, 248, rfl⟩
abbrev main_call9_cst : Ref sig .tc := ⟨.hbm, 249, rfl⟩
abbrev main_call9_v0 : Ref sig .tc := ⟨.hbm, 250, rfl⟩
abbrev main_call9_v1 : Ref sig .tc := ⟨.hbm, 251, rfl⟩
abbrev main_call9_cst_0 : Ref sig .tc := ⟨.hbm, 252, rfl⟩
abbrev main_call9_v2 : Ref sig .tc := ⟨.hbm, 253, rfl⟩
abbrev main_call9_v3 : Ref sig .tc := ⟨.hbm, 254, rfl⟩
abbrev main_call9_v4 : Ref sig .tc := ⟨.hbm, 255, rfl⟩
abbrev main_call9_v5 : Ref sig .tc := ⟨.hbm, 256, rfl⟩
abbrev main_call9_v6 : Ref sig .tc := ⟨.hbm, 257, rfl⟩
abbrev main_call9_v7 : Ref sig .tc := ⟨.hbm, 258, rfl⟩
abbrev main_call9_cst_1 : Ref sig .tc := ⟨.hbm, 259, rfl⟩
abbrev main_call9_v8 : Ref sig .tc := ⟨.hbm, 260, rfl⟩
abbrev main_call9_cst_2 : Ref sig .tc := ⟨.hbm, 261, rfl⟩
abbrev main_call9_v9 : Ref sig .tc := ⟨.hbm, 262, rfl⟩
abbrev main_call9_v10 : Ref sig .tc := ⟨.hbm, 263, rfl⟩
abbrev main_call9_v11 : Ref sig .tc := ⟨.hbm, 264, rfl⟩
abbrev main_call9_cst_3 : Ref sig .tc := ⟨.hbm, 265, rfl⟩
abbrev main_call9_v12 : Ref sig .tc := ⟨.hbm, 266, rfl⟩
abbrev main_call9_cst_4 : Ref sig .tc := ⟨.hbm, 267, rfl⟩
abbrev main_call9_call0_v0 : Ref sig .tc := ⟨.hbm, 268, rfl⟩
abbrev main_call9_call0_v1 : Ref sig .tc := ⟨.hbm, 269, rfl⟩
abbrev main_v142 : Ref sig .tc := ⟨.hbm, 270, rfl⟩
abbrev main_v143 : Ref sig .tc := ⟨.hbm, 271, rfl⟩
abbrev main_v144 : Ref sig .tc := ⟨.hbm, 272, rfl⟩
abbrev main_v145 : Ref sig .tc := ⟨.hbm, 273, rfl⟩
abbrev main_v146 : Ref sig .tc := ⟨.hbm, 274, rfl⟩
abbrev main_v147 : Ref sig .tc := ⟨.hbm, 275, rfl⟩
abbrev main_v148 : Ref sig .tc := ⟨.hbm, 276, rfl⟩
abbrev main_cst_19 : Ref sig .tc := ⟨.hbm, 277, rfl⟩
abbrev main_v149 : Ref sig .tc := ⟨.hbm, 278, rfl⟩
abbrev main_v150 : Ref sig .tc := ⟨.hbm, 279, rfl⟩
abbrev main_v151 : Ref sig .tc := ⟨.hbm, 280, rfl⟩
abbrev main_v152 : Ref sig .tc := ⟨.hbm, 281, rfl⟩
abbrev main_v153 : Ref sig .tc := ⟨.hbm, 282, rfl⟩
abbrev main_v154 : Ref sig .tc := ⟨.hbm, 283, rfl⟩
abbrev main_v155 : Ref sig .tc := ⟨.hbm, 284, rfl⟩
abbrev main_v156 : Ref sig .tc := ⟨.hbm, 285, rfl⟩
abbrev main_v157 : Ref sig .tc := ⟨.hbm, 286, rfl⟩
abbrev main_c_20 : Ref sig .tc := ⟨.hbm, 287, rfl⟩
abbrev main_v158 : Ref sig .tc := ⟨.hbm, 288, rfl⟩
abbrev main_v159 : Ref sig .tc := ⟨.hbm, 289, rfl⟩
abbrev main_c_21 : Ref sig .tc := ⟨.hbm, 290, rfl⟩
abbrev main_v160 : Ref sig .tc := ⟨.hbm, 291, rfl⟩
abbrev main_v161 : Ref sig .tc := ⟨.hbm, 292, rfl⟩
abbrev main_v162 : Ref sig .tc := ⟨.hbm, 293, rfl⟩
abbrev main_v163 : Ref sig .tc := ⟨.hbm, 294, rfl⟩
abbrev main_v164 : Ref sig .tc := ⟨.hbm, 295, rfl⟩
abbrev main_v165 : Ref sig .tc := ⟨.hbm, 296, rfl⟩
abbrev main_call10_cst : Ref sig .tc := ⟨.hbm, 297, rfl⟩
abbrev main_call10_v0 : Ref sig .tc := ⟨.hbm, 298, rfl⟩
abbrev main_v166 : Ref sig .tc := ⟨.hbm, 299, rfl⟩
abbrev main_cst_22 : Ref sig .tc := ⟨.hbm, 300, rfl⟩
abbrev main_v167 : Ref sig .tc := ⟨.hbm, 301, rfl⟩
abbrev main_v168 : Ref sig .tc := ⟨.hbm, 302, rfl⟩
abbrev main_v169 : Ref sig .tc := ⟨.hbm, 303, rfl⟩
abbrev main_v170 : Ref sig .tc := ⟨.hbm, 304, rfl⟩
abbrev main_v171 : Ref sig .tc := ⟨.hbm, 305, rfl⟩
abbrev main_v172 : Ref sig .tc := ⟨.hbm, 306, rfl⟩
abbrev main_v173 : Ref sig .tc := ⟨.hbm, 307, rfl⟩
abbrev main_v174 : Ref sig .tc := ⟨.hbm, 308, rfl⟩
abbrev main_v175 : Ref sig .tc := ⟨.hbm, 309, rfl⟩
abbrev main_v176 : Ref sig .tc := ⟨.hbm, 310, rfl⟩
abbrev main_v177 : Ref sig .tc := ⟨.hbm, 311, rfl⟩
abbrev main_v178 : Ref sig .tc := ⟨.hbm, 312, rfl⟩
abbrev main_v179 : Ref sig .tc := ⟨.hbm, 313, rfl⟩
abbrev main_v180 : Ref sig .tc := ⟨.hbm, 314, rfl⟩
abbrev main_v181 : Ref sig .tc := ⟨.hbm, 315, rfl⟩
abbrev main_v182 : Ref sig .tc := ⟨.hbm, 316, rfl⟩
abbrev main_cst_23 : Ref sig .tc := ⟨.hbm, 317, rfl⟩
abbrev main_v183 : Ref sig .tc := ⟨.hbm, 318, rfl⟩
abbrev main_cst_24 : Ref sig .tc := ⟨.hbm, 319, rfl⟩
abbrev main_v184 : Ref sig .tc := ⟨.hbm, 320, rfl⟩
abbrev main_v185 : Ref sig .tc := ⟨.hbm, 321, rfl⟩
abbrev main_c_25 : Ref sig .tc := ⟨.hbm, 322, rfl⟩
abbrev main_call11_cst : Ref sig .tc := ⟨.hbm, 323, rfl⟩
abbrev main_call11_v0 : Ref sig .tc := ⟨.hbm, 324, rfl⟩
abbrev main_call11_v1 : Ref sig .tc := ⟨.hbm, 325, rfl⟩
abbrev main_call11_cst_0 : Ref sig .tc := ⟨.hbm, 326, rfl⟩
abbrev main_call11_v2 : Ref sig .tc := ⟨.hbm, 327, rfl⟩
abbrev main_call11_v3 : Ref sig .tc := ⟨.hbm, 328, rfl⟩
abbrev main_call11_v4 : Ref sig .tc := ⟨.hbm, 329, rfl⟩
abbrev main_call11_v5 : Ref sig .tc := ⟨.hbm, 330, rfl⟩
abbrev main_call11_v6 : Ref sig .tc := ⟨.hbm, 331, rfl⟩
abbrev main_call11_v7 : Ref sig .tc := ⟨.hbm, 332, rfl⟩
abbrev main_call11_cst_1 : Ref sig .tc := ⟨.hbm, 333, rfl⟩
abbrev main_call11_v8 : Ref sig .tc := ⟨.hbm, 334, rfl⟩
abbrev main_call11_cst_2 : Ref sig .tc := ⟨.hbm, 335, rfl⟩
abbrev main_call11_v9 : Ref sig .tc := ⟨.hbm, 336, rfl⟩
abbrev main_call11_v10 : Ref sig .tc := ⟨.hbm, 337, rfl⟩
abbrev main_call11_v11 : Ref sig .tc := ⟨.hbm, 338, rfl⟩
abbrev main_call11_cst_3 : Ref sig .tc := ⟨.hbm, 339, rfl⟩
abbrev main_call11_v12 : Ref sig .tc := ⟨.hbm, 340, rfl⟩
abbrev main_call11_cst_4 : Ref sig .tc := ⟨.hbm, 341, rfl⟩
abbrev main_call11_call0_v0 : Ref sig .tc := ⟨.hbm, 342, rfl⟩
abbrev main_call11_call0_v1 : Ref sig .tc := ⟨.hbm, 343, rfl⟩
abbrev main_v186 : Ref sig .tc := ⟨.hbm, 344, rfl⟩
abbrev main_v187 : Ref sig .tc := ⟨.hbm, 345, rfl⟩
abbrev main_v188 : Ref sig .tc := ⟨.hbm, 346, rfl⟩
abbrev main_v189 : Ref sig .tc := ⟨.hbm, 347, rfl⟩
abbrev main_v190 : Ref sig .tc := ⟨.hbm, 348, rfl⟩
abbrev main_v191 : Ref sig .tc := ⟨.hbm, 349, rfl⟩
abbrev main_v192 : Ref sig .tc := ⟨.hbm, 350, rfl⟩
abbrev main_cst_26 : Ref sig .tc := ⟨.hbm, 351, rfl⟩
abbrev main_v193 : Ref sig .tc := ⟨.hbm, 352, rfl⟩
abbrev main_v194 : Ref sig .tc := ⟨.hbm, 353, rfl⟩
abbrev main_v195 : Ref sig .tc := ⟨.hbm, 354, rfl⟩
abbrev main_v196 : Ref sig .tc := ⟨.hbm, 355, rfl⟩
abbrev main_v197 : Ref sig .tc := ⟨.hbm, 356, rfl⟩
abbrev main_v198 : Ref sig .tc := ⟨.hbm, 357, rfl⟩
abbrev main_v199 : Ref sig .tc := ⟨.hbm, 358, rfl⟩
abbrev main_v200 : Ref sig .tc := ⟨.hbm, 359, rfl⟩
abbrev main_v201 : Ref sig .tc := ⟨.hbm, 360, rfl⟩
abbrev main_call12_cst : Ref sig .tc := ⟨.hbm, 361, rfl⟩
abbrev main_call12_v0 : Ref sig .tc := ⟨.hbm, 362, rfl⟩
abbrev main_v202 : Ref sig .tc := ⟨.hbm, 363, rfl⟩
abbrev main_v203 : Ref sig .tc := ⟨.hbm, 364, rfl⟩
abbrev main_v204 : Ref sig .tc := ⟨.hbm, 365, rfl⟩
abbrev main_v205 : Ref sig .tc := ⟨.hbm, 366, rfl⟩
abbrev main_v206 : Ref sig .tc := ⟨.hbm, 367, rfl⟩
abbrev main_v207 : Ref sig .tc := ⟨.hbm, 368, rfl⟩
abbrev main_v208 : Ref sig .tc := ⟨.hbm, 369, rfl⟩
abbrev main_v209 : Ref sig .tc := ⟨.hbm, 370, rfl⟩
abbrev main_v210 : Ref sig .tc := ⟨.hbm, 371, rfl⟩
abbrev main_call13_cst : Ref sig .tc := ⟨.hbm, 372, rfl⟩
abbrev main_call13_v0 : Ref sig .tc := ⟨.hbm, 373, rfl⟩
abbrev main_v211 : Ref sig .tc := ⟨.hbm, 374, rfl⟩
abbrev main_v212 : Ref sig .tc := ⟨.hbm, 375, rfl⟩
abbrev main_v213 : Ref sig .tc := ⟨.hbm, 376, rfl⟩
abbrev main_v214 : Ref sig .tc := ⟨.hbm, 377, rfl⟩
abbrev main_v215 : Ref sig .tc := ⟨.hbm, 378, rfl⟩
abbrev main_cst_27 : Ref sig .tc := ⟨.hbm, 379, rfl⟩
abbrev main_v216 : Ref sig .tc := ⟨.hbm, 380, rfl⟩
abbrev main_cst_28 : Ref sig .tc := ⟨.hbm, 381, rfl⟩
abbrev main_v217 : Ref sig .tc := ⟨.hbm, 382, rfl⟩
abbrev main_v218 : Ref sig .tc := ⟨.hbm, 383, rfl⟩
abbrev main_c_29 : Ref sig .tc := ⟨.hbm, 384, rfl⟩
abbrev main_call14_cst : Ref sig .tc := ⟨.hbm, 385, rfl⟩
abbrev main_call14_v0 : Ref sig .tc := ⟨.hbm, 386, rfl⟩
abbrev main_call14_v1 : Ref sig .tc := ⟨.hbm, 387, rfl⟩
abbrev main_call14_cst_0 : Ref sig .tc := ⟨.hbm, 388, rfl⟩
abbrev main_call14_v2 : Ref sig .tc := ⟨.hbm, 389, rfl⟩
abbrev main_call14_v3 : Ref sig .tc := ⟨.hbm, 390, rfl⟩
abbrev main_call14_v4 : Ref sig .tc := ⟨.hbm, 391, rfl⟩
abbrev main_call14_v5 : Ref sig .tc := ⟨.hbm, 392, rfl⟩
abbrev main_call14_v6 : Ref sig .tc := ⟨.hbm, 393, rfl⟩
abbrev main_call14_v7 : Ref sig .tc := ⟨.hbm, 394, rfl⟩
abbrev main_call14_cst_1 : Ref sig .tc := ⟨.hbm, 395, rfl⟩
abbrev main_call14_v8 : Ref sig .tc := ⟨.hbm, 396, rfl⟩
abbrev main_call14_cst_2 : Ref sig .tc := ⟨.hbm, 397, rfl⟩
abbrev main_call14_v9 : Ref sig .tc := ⟨.hbm, 398, rfl⟩
abbrev main_call14_v10 : Ref sig .tc := ⟨.hbm, 399, rfl⟩
abbrev main_call14_v11 : Ref sig .tc := ⟨.hbm, 400, rfl⟩
abbrev main_call14_cst_3 : Ref sig .tc := ⟨.hbm, 401, rfl⟩
abbrev main_call14_v12 : Ref sig .tc := ⟨.hbm, 402, rfl⟩
abbrev main_call14_cst_4 : Ref sig .tc := ⟨.hbm, 403, rfl⟩
abbrev main_call14_call0_v0 : Ref sig .tc := ⟨.hbm, 404, rfl⟩
abbrev main_call14_call0_v1 : Ref sig .tc := ⟨.hbm, 405, rfl⟩
abbrev main_v219 : Ref sig .tc := ⟨.hbm, 406, rfl⟩
abbrev main_v220 : Ref sig .tc := ⟨.hbm, 407, rfl⟩
abbrev main_v221 : Ref sig .tc := ⟨.hbm, 408, rfl⟩
abbrev main_v222 : Ref sig .tc := ⟨.hbm, 409, rfl⟩
abbrev main_v223 : Ref sig .tc := ⟨.hbm, 410, rfl⟩
abbrev main_v224 : Ref sig .tc := ⟨.hbm, 411, rfl⟩
abbrev main_v225 : Ref sig .tc := ⟨.hbm, 412, rfl⟩
abbrev main_cst_30 : Ref sig .tc := ⟨.hbm, 413, rfl⟩
abbrev main_v226 : Ref sig .tc := ⟨.hbm, 414, rfl⟩
abbrev main_v227 : Ref sig .tc := ⟨.hbm, 415, rfl⟩
abbrev main_v228 : Ref sig .tc := ⟨.hbm, 416, rfl⟩
abbrev main_v229 : Ref sig .tc := ⟨.hbm, 417, rfl⟩
abbrev main_v230 : Ref sig .tc := ⟨.hbm, 418, rfl⟩
abbrev main_v231 : Ref sig .tc := ⟨.hbm, 419, rfl⟩
abbrev main_v232 : Ref sig .tc := ⟨.hbm, 420, rfl⟩
abbrev main_v233 : Ref sig .tc := ⟨.hbm, 421, rfl⟩
abbrev main_v234 : Ref sig .tc := ⟨.hbm, 422, rfl⟩
abbrev main_c_31 : Ref sig .tc := ⟨.hbm, 423, rfl⟩
abbrev main_v235 : Ref sig .tc := ⟨.hbm, 424, rfl⟩
abbrev main_v236 : Ref sig .tc := ⟨.hbm, 425, rfl⟩
abbrev main_c_32 : Ref sig .tc := ⟨.hbm, 426, rfl⟩
abbrev main_v237 : Ref sig .tc := ⟨.hbm, 427, rfl⟩
abbrev main_v238 : Ref sig .tc := ⟨.hbm, 428, rfl⟩
abbrev main_v239 : Ref sig .tc := ⟨.hbm, 429, rfl⟩
abbrev main_v240 : Ref sig .tc := ⟨.hbm, 430, rfl⟩
abbrev main_v241 : Ref sig .tc := ⟨.hbm, 431, rfl⟩
abbrev main_v242 : Ref sig .tc := ⟨.hbm, 432, rfl⟩
abbrev main_call15_cst : Ref sig .tc := ⟨.hbm, 433, rfl⟩
abbrev main_call15_v0 : Ref sig .tc := ⟨.hbm, 434, rfl⟩
abbrev main_v243 : Ref sig .tc := ⟨.hbm, 435, rfl⟩
abbrev main_cst_33 : Ref sig .tc := ⟨.hbm, 436, rfl⟩
abbrev main_v244 : Ref sig .tc := ⟨.hbm, 437, rfl⟩
abbrev main_v245 : Ref sig .tc := ⟨.hbm, 438, rfl⟩
abbrev main_v246 : Ref sig .tc := ⟨.hbm, 439, rfl⟩
abbrev main_v247 : Ref sig .tc := ⟨.hbm, 440, rfl⟩
abbrev main_v248 : Ref sig .tc := ⟨.hbm, 441, rfl⟩
abbrev main_v249 : Ref sig .tc := ⟨.hbm, 442, rfl⟩
abbrev main_v250 : Ref sig .tc := ⟨.hbm, 443, rfl⟩
abbrev main_v251 : Ref sig .tc := ⟨.hbm, 444, rfl⟩
abbrev main_v252 : Ref sig .tc := ⟨.hbm, 445, rfl⟩
abbrev main_v253 : Ref sig .tc := ⟨.hbm, 446, rfl⟩
abbrev main_v254 : Ref sig .tc := ⟨.hbm, 447, rfl⟩
abbrev main_v255 : Ref sig .tc := ⟨.hbm, 448, rfl⟩
abbrev main_v256 : Ref sig .tc := ⟨.hbm, 449, rfl⟩
abbrev main_v257 : Ref sig .tc := ⟨.hbm, 450, rfl⟩
abbrev main_v258 : Ref sig .tc := ⟨.hbm, 451, rfl⟩
abbrev main_v259 : Ref sig .tc := ⟨.hbm, 452, rfl⟩
abbrev main_cst_34 : Ref sig .tc := ⟨.hbm, 453, rfl⟩
abbrev main_v260 : Ref sig .tc := ⟨.hbm, 454, rfl⟩
abbrev main_cst_35 : Ref sig .tc := ⟨.hbm, 455, rfl⟩
abbrev main_v261 : Ref sig .tc := ⟨.hbm, 456, rfl⟩
abbrev main_v262 : Ref sig .tc := ⟨.hbm, 457, rfl⟩
abbrev main_c_36 : Ref sig .tc := ⟨.hbm, 458, rfl⟩
abbrev main_call16_cst : Ref sig .tc := ⟨.hbm, 459, rfl⟩
abbrev main_call16_v0 : Ref sig .tc := ⟨.hbm, 460, rfl⟩
abbrev main_call16_v1 : Ref sig .tc := ⟨.hbm, 461, rfl⟩
abbrev main_call16_cst_0 : Ref sig .tc := ⟨.hbm, 462, rfl⟩
abbrev main_call16_v2 : Ref sig .tc := ⟨.hbm, 463, rfl⟩
abbrev main_call16_v3 : Ref sig .tc := ⟨.hbm, 464, rfl⟩
abbrev main_call16_v4 : Ref sig .tc := ⟨.hbm, 465, rfl⟩
abbrev main_call16_v5 : Ref sig .tc := ⟨.hbm, 466, rfl⟩
abbrev main_call16_v6 : Ref sig .tc := ⟨.hbm, 467, rfl⟩
abbrev main_call16_v7 : Ref sig .tc := ⟨.hbm, 468, rfl⟩
abbrev main_call16_cst_1 : Ref sig .tc := ⟨.hbm, 469, rfl⟩
abbrev main_call16_v8 : Ref sig .tc := ⟨.hbm, 470, rfl⟩
abbrev main_call16_cst_2 : Ref sig .tc := ⟨.hbm, 471, rfl⟩
abbrev main_call16_v9 : Ref sig .tc := ⟨.hbm, 472, rfl⟩
abbrev main_call16_v10 : Ref sig .tc := ⟨.hbm, 473, rfl⟩
abbrev main_call16_v11 : Ref sig .tc := ⟨.hbm, 474, rfl⟩
abbrev main_call16_cst_3 : Ref sig .tc := ⟨.hbm, 475, rfl⟩
abbrev main_call16_v12 : Ref sig .tc := ⟨.hbm, 476, rfl⟩
abbrev main_call16_cst_4 : Ref sig .tc := ⟨.hbm, 477, rfl⟩
abbrev main_call16_call0_v0 : Ref sig .tc := ⟨.hbm, 478, rfl⟩
abbrev main_call16_call0_v1 : Ref sig .tc := ⟨.hbm, 479, rfl⟩
abbrev main_v263 : Ref sig .tc := ⟨.hbm, 480, rfl⟩
abbrev main_v264 : Ref sig .tc := ⟨.hbm, 481, rfl⟩
abbrev main_v265 : Ref sig .tc := ⟨.hbm, 482, rfl⟩
abbrev main_v266 : Ref sig .tc := ⟨.hbm, 483, rfl⟩
abbrev main_v267 : Ref sig .tc := ⟨.hbm, 484, rfl⟩
abbrev main_v268 : Ref sig .tc := ⟨.hbm, 485, rfl⟩
abbrev main_v269 : Ref sig .tc := ⟨.hbm, 486, rfl⟩
abbrev main_cst_37 : Ref sig .tc := ⟨.hbm, 487, rfl⟩
abbrev main_v270 : Ref sig .tc := ⟨.hbm, 488, rfl⟩
abbrev main_v271 : Ref sig .tc := ⟨.hbm, 489, rfl⟩
abbrev main_v272 : Ref sig .tc := ⟨.hbm, 490, rfl⟩
abbrev main_v273 : Ref sig .tc := ⟨.hbm, 491, rfl⟩
abbrev main_v274 : Ref sig .tc := ⟨.hbm, 492, rfl⟩
abbrev main_v275 : Ref sig .tc := ⟨.hbm, 493, rfl⟩
abbrev main_v276 : Ref sig .tc := ⟨.hbm, 494, rfl⟩
abbrev main_v277 : Ref sig .tc := ⟨.hbm, 495, rfl⟩
abbrev main_v278 : Ref sig .tc := ⟨.hbm, 496, rfl⟩
abbrev main_call17_cst : Ref sig .tc := ⟨.hbm, 497, rfl⟩
abbrev main_call17_v0 : Ref sig .tc := ⟨.hbm, 498, rfl⟩
abbrev main_v279 : Ref sig .tc := ⟨.hbm, 499, rfl⟩
abbrev main_v280 : Ref sig .tc := ⟨.hbm, 500, rfl⟩
abbrev main_v281 : Ref sig .tc := ⟨.hbm, 501, rfl⟩
abbrev main_v282 : Ref sig .tc := ⟨.hbm, 502, rfl⟩
abbrev main_v283 : Ref sig .tc := ⟨.hbm, 503, rfl⟩
abbrev main_v284 : Ref sig .tc := ⟨.hbm, 504, rfl⟩
abbrev main_v285 : Ref sig .tc := ⟨.hbm, 505, rfl⟩
abbrev main_v286 : Ref sig .tc := ⟨.hbm, 506, rfl⟩
abbrev main_v287 : Ref sig .tc := ⟨.hbm, 507, rfl⟩
abbrev main_call18_cst : Ref sig .tc := ⟨.hbm, 508, rfl⟩
abbrev main_call18_v0 : Ref sig .tc := ⟨.hbm, 509, rfl⟩
abbrev main_v288 : Ref sig .tc := ⟨.hbm, 510, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x128 : S_.BroadcastsInDim S640000x128 (![] : Fin 0 → Fin S640000x128.rank)
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128_S1x128_0_0 : S3x128.Slices ![0, 0] S1x128
  slices_S4x128x128_S1x128x128_1_0_0 : S4x128x128.Slices ![1, 0, 0] S1x128x128
  slices_S4x128_S1x128_1_0 : S4x128.Slices ![1, 0] S1x128
  slices_S3x128_S1x128_1_0 : S3x128.Slices ![1, 0] S1x128
  slices_S4x128x128_S1x128x128_2_0_0 : S4x128x128.Slices ![2, 0, 0] S1x128x128
  slices_S4x128_S1x128_2_0 : S4x128.Slices ![2, 0] S1x128
  slices_S3x128_S1x128_2_0 : S3x128.Slices ![2, 0] S1x128
  slices_S4x128x128_S1x128x128_3_0_0 : S4x128x128.Slices ![3, 0, 0] S1x128x128
  slices_S4x128_S1x128_3_0 : S4x128.Slices ![3, 0] S1x128
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S50000x128_S128x128_S50000x128_1_0_0_1_n_n_wf : DotDims.WF S50000x128 S128x128 S50000x128 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.RefOps.lean ====
/- The reference program's @main as lists of its host operations, one list per printed window (`main_partN`), each
   callee's operations listed at its call site over that call's buffer record, in program order; and beside each list
   that every operation touches TensorCore references only. A transcription of the printed program, nothing else. -/
import proofs.«411739_j18880676233357_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 85 operations of `main_part0`, in order. -/
abbrev ops0 : List (HloOp τ sig (Elt F)) :=
  [ StableHlo.unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v0 main_v1 rfl shapeCasts_S1x640000_S640000,
    StableHlo.unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v2 main_v3 rfl shapeCasts_S1x640000_S640000,
    StableHlo.nullary main_c (constantI S_ 32 0#32),
    StableHlo.unary main_c main_v4 (broadcastInDim S640000 ![] bcast_S_S640000 : (⟨S_, .i32⟩ : BufTy).Contents (Elt F) → (⟨S640000, .i32⟩ : BufTy).Contents (Elt F)),
    StableHlo.binary main_v1 main_v4 main_v5 (cmpi .slt : (⟨S640000, .i32⟩ : BufTy).Contents (Elt F) → (⟨S640000, .i32⟩ : BufTy).Contents (Elt F) → (⟨S640000, .i1⟩ : BufTy).Contents (Elt F)),
    StableHlo.nullary main_c_0 (constantI S_ 32 50000#32),
    StableHlo.unary main_c_0 main_v6 (broadcastInDim S640000 ![] bcast_S_S640000 : (⟨S_, .i32⟩ : BufTy).Contents (Elt F) → (⟨S640000, .i32⟩ : BufTy).Contents (Elt F)),
    StableHlo.binary main_v1 main_v6 main_v7 (addi : (⟨S640000, .i32⟩ : BufTy).Contents (Elt F) → (⟨S640000, .i32⟩ : BufTy).Contents (Elt F) → (⟨S640000, .i32⟩ : BufTy).Contents (Elt F)),
    StableHlo.ternary main_v5 main_v7 main_v1 main_v8 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v8 main_v9 (broadcastInDim S640000x1 ![0] bcast_S640000_S640000x1_0 : (⟨S640000, .i32⟩ : BufTy).Contents (Elt F) → (⟨S640000x1, .i32⟩ : BufTy).Contents (Elt F)),
    StableHlo.binary main_arg0 main_v9 main_v10 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.binary main_v10 main_arg2 main_v11 (addf : (⟨S640000x128, .f32⟩ : BufTy).Contents (Elt F) → (⟨S640000x128, .f32⟩ : BufTy).Contents (Elt F) → (⟨S640000x128, .f32⟩ : BufTy).Contents (Elt F)),
    StableHlo.TRef.nullary main_call0.cst (constant S_ .f32 0x00000000#32),
    StableHlo.TRef.unary main_call0.cst main_call0.v0 (broadcastInDim S640000x128 ![] bcast_S_S640000x128),
    StableHlo.TRef.binary (.of main_v11) main_call0.v0 main_call0.v1 maximumf,
    StableHlo.nullary main_cst (constant S_ .f32 0x00000000#32),
    StableHlo.unary main_cst main_v13 (broadcastInDim S50000x128 ![] bcast_S_S50000x128 : (⟨S_, .f32⟩ : BufTy).Contents (Elt F) → (⟨S50000x128, .f32⟩ : BufTy).Contents (Elt F)),
    StableHlo.unary main_v3 main_v14 (broadcastInDim S640000x1 ![0] bcast_S640000_S640000x1_0 : (⟨S640000, .i32⟩ : BufTy).Contents (Elt F) → (⟨S640000x1, .i32⟩ : BufTy).Contents (Elt F)),
    StableHlo.ternary main_v13 main_v14 main_v12 main_v15 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    StableHlo.binary main_arg0 main_v15 main_v16 (addf : (⟨S50000x128, .f32⟩ : BufTy).Contents (Elt F) → (⟨S50000x128, .f32⟩ : BufTy).Contents (Elt F) → (⟨S50000x128, .f32⟩ : BufTy).Contents (Elt F)),
    StableHlo.unary main_arg3 main_v17 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v17 main_v18 rfl shapeCasts_S1x128x128_S128x128,
    StableHlo.binary main_v16 main_v18 main_v19 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v20 ((extractStridedSlice S1x128 ![0, 0] · slices_S4x128_S1x128_0_0) : (⟨S4x128, .f32⟩ : BufTy).Contents (Elt F) → (⟨S1x128, .f32⟩ : BufTy).Contents (Elt F)),
    StableHlo.reshape main_v20 main_v21 rfl shapeCasts_S1x128_S128,
    StableHlo.unary main_v21 main_v22 (broadcastInDim S1x128 ![1] bcast_S128_S1x128_1 : (⟨S128, .f32⟩ : BufTy).Contents (Elt F) → (⟨S1x128, .f32⟩ : BufTy).Contents (Elt F)),
    StableHlo.unary main_v22 main_v23 (broadcastInDim S50000x128 ![0, 1] bcast_S1x128_S50000x128_0_1 : (⟨S1x128, .f32⟩ : BufTy).Contents (Elt F) → (⟨S50000x128, .f32⟩ : BufTy).Contents (Elt F)),
    StableHlo.binary main_v19 main_v23 main_v24 (addf : (⟨S50000x128, .f32⟩ : BufTy).Contents (Elt F) → (⟨S50000x128, .f32⟩ : BufTy).Contents (Elt F) → (⟨S50000x128, .f32⟩ : BufTy).Contents (Elt F)),
    StableHlo.unary main_arg5 main_v25 ((extractStridedSlice S1x128 ![0, 0] · slices_S4x128_S1x128_0_0) : (⟨S4x128, .f32⟩ : BufTy).Contents (Elt F) → (⟨S1x128, .f32⟩ : BufTy).Contents (Elt F)),
    StableHlo.reshape main_v25 main_v26 rfl shapeCasts_S1x128_S128,
    StableHlo.unary main_arg6 main_v27 ((extractStridedSlice S1x128 ![0, 0] · slices_S4x128_S1x128_0_0) : (⟨S4x128, .f32⟩ : BufTy).Contents (Elt F) → (⟨S1x128, .f32⟩ : BufTy).Contents (Elt F)),
    StableHlo.reshape main_v27 main_v28 rfl shapeCasts_S1x128_S128,
    StableHlo.nullary main_cst_1 (constant S_ .f32 0x00000000#32),
    StableHlo.binary main_v24 main_cst_1 main_v29 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_2 (constant S_ .f32 0x47435000#32),
    StableHlo.unary main_cst_2 main_v30 (broadcastInDim S128 ![] bcast_S_S128 : (⟨S_, .f32⟩ : BufTy).Contents (Elt F) → (⟨S128, .f32⟩ : BufTy).Contents (Elt F)),
    StableHlo.binary main_v29 main_v30 main_v31 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call1.cst (constant S_ .f32 0x00000000#32),
    StableHlo.TRef.binary (.of main_v24) main_call1.cst main_call1.v0 (fun x v => Host.reduceAdd x v reducesTo_S50000x128_S128_d0 h_S_),
    StableHlo.TRef.unary main_call1.v0 main_call1.v1 (broadcastInDim S1x128 ![1] bcast_S128_S1x128_1),
    StableHlo.TRef.nullary main_call1.cst_0 (constant S_ .f32 0x47435000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S50000x128 ![0, 1] bcast_S1x128_S50000x128_0_1),
    StableHlo.TRef.binary (.of main_v24) main_call1.v4 main_call1.v5 subf,
    StableHlo.TRef.binary main_call1.v5 main_call1.v5 main_call1.v6 mulf,
    StableHlo.TRef.unary (.of main_c_3) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v31 main_v33 (broadcastInDim S1x128 ![1] bcast_S128_S1x128_1 : (⟨S128, .f32⟩ : BufTy).Contents (Elt F) → (⟨S1x128, .f32⟩ : BufTy).Contents (Elt F)),
    StableHlo.unary main_v33 main_v34 (broadcastInDim S50000x128 ![0, 1] bcast_S1x128_S50000x128_0_1 : (⟨S1x128, .f32⟩ : BufTy).Contents (Elt F) → (⟨S50000x128, .f32⟩ : BufTy).Contents (Elt F)),
    StableHlo.binary main_v24 main_v34 main_v35 (subf : (⟨S50000x128, .f32⟩ : BufTy).Contents (Elt F) → (⟨S50000x128, .f32⟩ : BufTy).Contents (Elt F) → (⟨S50000x128, .f32⟩ : BufTy).Contents (Elt F)),
    StableHlo.unary main_v26 main_v36 (broadcastInDim S1x128 ![1] bcast_S128_S1x128_1 : (⟨S128, .f32⟩ : BufTy).Contents (Elt F) → (⟨S1x128, .f32⟩ : BufTy).Contents (Elt F)),
    StableHlo.unary main_v36 main_v37 (broadcastInDim S50000x128 ![0, 1] bcast_S1x128_S50000x128_0_1 : (⟨S1x128, .f32⟩ : BufTy).Contents (Elt F) → (⟨S50000x128, .f32⟩ : BufTy).Contents (Elt F)),
    StableHlo.binary main_v37 main_v35 main_v38 (mulf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x3727C5AC#32),
    StableHlo.unary main_cst_4 main_v39 (broadcastInDim S128 ![] bcast_S_S128 : (⟨S_, .f32⟩ : BufTy).Contents (Elt F) → (⟨S128, .f32⟩ : BufTy).Contents (Elt F)),
    StableHlo.binary main_v32 main_v39 main_v40 (addf : (⟨S128, .f32⟩ : BufTy).Contents (Elt F) → (⟨S128, .f32⟩ : BufTy).Contents (Elt F) → (⟨S128, .f32⟩ : BufTy).Contents (Elt F)),
    StableHlo.unary main_v40 main_v41 (Host.rsqrt : (⟨S128, .f32⟩ : BufTy).Contents (Elt F) → (⟨S128, .f32⟩ : BufTy).Contents (Elt F)),
    StableHlo.unary main_v41 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S50000x128 ![0, 1] bcast_S1x128_S50000x128_0_1 : (⟨S1x128, .f32⟩ : BufTy).Contents (Elt F) → (⟨S50000x128, .f32⟩ : BufTy).Contents (Elt F)),
    StableHlo.binary main_v38 main_v43 main_v44 (mulf : (⟨S50000x128, .f32⟩ : BufTy).Contents (Elt F) → (⟨S50000x128, .f32⟩ : BufTy).Contents (Elt F) → (⟨S50000x128, .f32⟩ : BufTy).Contents (Elt F)),
    StableHlo.unary main_v28 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S50000x128 ![0, 1] bcast_S1x128_S50000x128_0_1 : (⟨S1x128, .f32⟩ : BufTy).Contents (Elt F) → (⟨S50000x128, .f32⟩ : BufTy).Contents (Elt F)),
    StableHlo.binary main_v44 main_v46 main_v47 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v47) main_call2.v0 main_call2.v1 maximumf,
    StableHlo.unary main_arg7 main_v49 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v49 main_v50 rfl shapeCasts_S1x128x128_S128x128,
    StableHlo.binary main_v48 main_v50 main_v51 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v52 ((extractStridedSlice S1x128 ![0, 0] · slices_S4x128_S1x128_0_0) : (⟨S4x128, .f32⟩ : BufTy).Contents (Elt F) → (⟨S1x128, .f32⟩ : BufTy).Contents (Elt F)) ]
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub ..⟩

/-- The 85 operations of `main_part1`, in order. -/
abbrev ops1 : List (HloOp τ sig (Elt F)) :=
  [ StableHlo.reshape main_v52 main_v53 rfl shapeCasts_S1x128_S128,
    StableHlo.unary main_v53 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S50000x128 ![0, 1] bcast_S1x128_S50000x128_0_1 : (⟨S1x128, .f32⟩ : BufTy).Contents (Elt F) → (⟨S50000x128, .f32⟩ : BufTy).Contents (Elt F)),
    StableHlo.binary main_v51 main_v55 main_v56 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v56) main_call3.v0 main_call3.v1 maximumf,
    StableHlo.unary main_arg9 main_v58 ((extractStridedSlice S1x128 ![0, 0] · slices_S3x128_S1x128_0_0) : (⟨S3x128, .f32⟩ : BufTy).Contents (Elt F) → (⟨S1x128, .f32⟩ : BufTy).Contents (Elt F)),
    StableHlo.reshape main_v58 main_v59 rfl shapeCasts_S1x128_S128,
    StableHlo.unary main_arg10 main_v60 ((extractStridedSlice S1x128 ![0, 0] · slices_S3x128_S1x128_0_0) : (⟨S3x128, .f32⟩ : BufTy).Contents (Elt F) → (⟨S1x128, .f32⟩ : BufTy).Contents (Elt F)),
    StableHlo.reshape main_v60 main_v61 rfl shapeCasts_S1x128_S128,
    StableHlo.nullary main_cst_5 (constant S_ .f32 0x00000000#32),
    StableHlo.binary main_v57 main_cst_5 main_v62 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_6 (constant S_ .f32 0x47435000#32),
    StableHlo.unary main_cst_6 main_v63 (broadcastInDim S128 ![] bcast_S_S128 : (⟨S_, .f32⟩ : BufTy).Contents (Elt F) → (⟨S128, .f32⟩ : BufTy).Contents (Elt F)),
    StableHlo.binary main_v62 main_v63 main_v64 (Host.divf : (⟨S128, .f32⟩ : BufTy).Contents (Elt F) → (⟨S128, .f32⟩ : BufTy).Contents (Elt F) → (⟨S128, .f32⟩ : BufTy).Contents (Elt F)),
    StableHlo.nullary main_c_7 (constantI S_ 32 0#32),
    StableHlo.TRef.nullary main_call4.cst (constant S_ .f32 0x00000000#32),
    StableHlo.TRef.binary (.of main_v57) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (.of main_v57) main_call4.v4 main_call4.v5 subf,
    StableHlo.TRef.binary main_call4.v5 main_call4.v5 main_call4.v6 mulf,
    StableHlo.TRef.unary (.of main_c_7) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v64 main_v66 (broadcastInDim S1x128 ![1] bcast_S128_S1x128_1 : (⟨S128, .f32⟩ : BufTy).Contents (Elt F) → (⟨S1x128, .f32⟩ : BufTy).Contents (Elt F)),
    StableHlo.unary main_v66 main_v67 (broadcastInDim S50000x128 ![0, 1] bcast_S1x128_S50000x128_0_1 : (⟨S1x128, .f32⟩ : BufTy).Contents (Elt F) → (⟨S50000x128, .f32⟩ : BufTy).Contents (Elt F)),
    StableHlo.binary main_v57 main_v67 main_v68 (subf : (⟨S50000x128, .f32⟩ : BufTy).Contents (Elt F) → (⟨S50000x128, .f32⟩ : BufTy).Contents (Elt F) → (⟨S50000x128, .f32⟩ : BufTy).Contents (Elt F)),
    StableHlo.unary main_v59 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S50000x128 ![0, 1] bcast_S1x128_S50000x128_0_1 : (⟨S1x128, .f32⟩ : BufTy).Contents (Elt F) → (⟨S50000x128, .f32⟩ : BufTy).Contents (Elt F)),
    StableHlo.binary main_v70 main_v68 main_v71 (mulf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x3727C5AC#32),
    StableHlo.unary main_cst_8 main_v72 (broadcastInDim S128 ![] bcast_S_S128 : (⟨S_, .f32⟩ : BufTy).Contents (Elt F) → (⟨S128, .f32⟩ : BufTy).Contents (Elt F)),
    StableHlo.binary main_v65 main_v72 main_v73 (addf : (⟨S128, .f32⟩ : BufTy).Contents (Elt F) → (⟨S128, .f32⟩ : BufTy).Contents (Elt F) → (⟨S128, .f32⟩ : BufTy).Contents (Elt F)),
    StableHlo.unary main_v73 main_v74 (Host.rsqrt : (⟨S128, .f32⟩ : BufTy).Contents (Elt F) → (⟨S128, .f32⟩ : BufTy).Contents (Elt F)),
    StableHlo.unary main_v74 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S50000x128 ![0, 1] bcast_S1x128_S50000x128_0_1 : (⟨S1x128, .f32⟩ : BufTy).Contents (Elt F) → (⟨S50000x128, .f32⟩ : BufTy).Contents (Elt F)),
    StableHlo.binary main_v71 main_v76 main_v77 (mulf : (⟨S50000x128, .f32⟩ : BufTy).Contents (Elt F) → (⟨S50000x128, .f32⟩ : BufTy).Contents (Elt F) → (⟨S50000x128, .f32⟩ : BufTy).Contents (Elt F)),
    StableHlo.unary main_v61 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S50000x128 ![0, 1] bcast_S1x128_S50000x128_0_1 : (⟨S1x128, .f32⟩ : BufTy).Contents (Elt F) → (⟨S50000x128, .f32⟩ : BufTy).Contents (Elt F)),
    StableHlo.binary main_v77 main_v79 main_v80 (addf : (⟨S50000x128, .f32⟩ : BufTy).Contents (Elt F) → (⟨S50000x128, .f32⟩ : BufTy).Contents (Elt F) → (⟨S50000x128, .f32⟩ : BufTy).Contents (Elt F)),
    StableHlo.nullary main_c_9 (constantI S_ 32 0#32),
    StableHlo.unary main_c_9 main_v81 (broadcastInDim S640000 ![] bcast_S_S640000 : (⟨S_, .i32⟩ : BufTy).Contents (Elt F) → (⟨S640000, .i32⟩ : BufTy).Contents (Elt F)),
    StableHlo.binary main_v1 main_v81 main_v82 (cmpi .slt : (⟨S640000, .i32⟩ : BufTy).Contents (Elt F) → (⟨S640000, .i32⟩ : BufTy).Contents (Elt F) → (⟨S640000, .i1⟩ : BufTy).Contents (Elt F)),
    StableHlo.nullary main_c_10 (constantI S_ 32 50000#32),
    StableHlo.unary main_c_10 main_v83 (broadcastInDim S640000 ![] bcast_S_S640000 : (⟨S_, .i32⟩ : BufTy).Contents (Elt F) → (⟨S640000, .i32⟩ : BufTy).Contents (Elt F)),
    StableHlo.binary main_v1 main_v83 main_v84 (addi : (⟨S640000, .i32⟩ : BufTy).Contents (Elt F) → (⟨S640000, .i32⟩ : BufTy).Contents (Elt F) → (⟨S640000, .i32⟩ : BufTy).Contents (Elt F)),
    StableHlo.ternary main_v82 main_v84 main_v1 main_v85 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v85 main_v86 (broadcastInDim S640000x1 ![0] bcast_S640000_S640000x1_0 : (⟨S640000, .i32⟩ : BufTy).Contents (Elt F) → (⟨S640000x1, .i32⟩ : BufTy).Contents (Elt F)),
    StableHlo.binary main_v80 main_v86 main_v87 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.binary main_v87 main_arg2 main_v88 (addf : (⟨S640000x128, .f32⟩ : BufTy).Contents (Elt F) → (⟨S640000x128, .f32⟩ : BufTy).Contents (Elt F) → (⟨S640000x128, .f32⟩ : BufTy).Contents (Elt F)),
    StableHlo.TRef.nullary main_call5.cst (constant S_ .f32 0x00000000#32),
    StableHlo.TRef.unary main_call5.cst main_call5.v0 (broadcastInDim S640000x128 ![] bcast_S_S640000x128),
    StableHlo.TRef.binary (.of main_v88) main_call5.v0 main_call5.v1 maximumf,
    StableHlo.nullary main_cst_11 (constant S_ .f32 0x00000000#32),
    StableHlo.unary main_cst_11 main_v90 (broadcastInDim S50000x128 ![] bcast_S_S50000x128 : (⟨S_, .f32⟩ : BufTy).Contents (Elt F) → (⟨S50000x128, .f32⟩ : BufTy).Contents (Elt F)),
    StableHlo.unary main_v3 main_v91 (broadcastInDim S640000x1 ![0] bcast_S640000_S640000x1_0 : (⟨S640000, .i32⟩ : BufTy).Contents (Elt F) → (⟨S640000x1, .i32⟩ : BufTy).Contents (Elt F)),
    StableHlo.ternary main_v90 main_v91 main_v89 main_v92 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    StableHlo.binary main_v80 main_v92 main_v93 (addf : (⟨S50000x128, .f32⟩ : BufTy).Contents (Elt F) → (⟨S50000x128, .f32⟩ : BufTy).Contents (Elt F) → (⟨S50000x128, .f32⟩ : BufTy).Contents (Elt F)),
    StableHlo.unary main_arg3 main_v94 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v94 main_v95 rfl shapeCasts_S1x128x128_S128x128,
    StableHlo.binary main_v93 main_v95 main_v96 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v97 ((extractStridedSlice S1x128 ![1, 0] · slices_S4x128_S1x128_1_0) : (⟨S4x128, .f32⟩ : BufTy).Contents (Elt F) → (⟨S1x128, .f32⟩ : BufTy).Contents (Elt F)),
    StableHlo.reshape main_v97 main_v98 rfl shapeCasts_S1x128_S128,
    StableHlo.unary main_v98 main_v99 (broadcastInDim S1x128 ![1] bcast_S128_S1x128_1 : (⟨S128, .f32⟩ : BufTy).Contents (Elt F) → (⟨S1x128, .f32⟩ : BufTy).Contents (Elt F)),
    StableHlo.unary main_v99 main_v100 (broadcastInDim S50000x128 ![0, 1] bcast_S1x128_S50000x128_0_1 : (⟨S1x128, .f32⟩ : BufTy).Contents (Elt F) → (⟨S50000x128, .f32⟩ : BufTy).Contents (Elt F)),
    StableHlo.binary main_v96 main_v100 main_v101 (addf : (⟨S50000x128, .f32⟩ : BufTy).Contents (Elt F) → (⟨S50000x128, .f32⟩ : BufTy).Contents (Elt F) → (⟨S50000x128, .f32⟩ : BufTy).Contents (Elt F)),
    StableHlo.unary main_arg5 main_v102 ((extractStridedSlice S1x128 ![1, 0] · slices_S4x128_S1x128_1_0) : (⟨S4x128, .f32⟩ : BufTy).Contents (Elt F) → (⟨S1x128, .f32⟩ : BufTy).Contents (Elt F)),
    StableHlo.reshape main_v102 main_v103 rfl shapeCasts_S1x128_S128,
    StableHlo.unary main_arg6 main_v104 ((extractStridedSlice S1x128 ![1, 0] · slices_S4x128_S1x128_1_0) : (⟨S4x128, .f32⟩ : BufTy).Contents (Elt F) → (⟨S1x128, .f32⟩ : BufTy).Contents (Elt F)),
    StableHlo.reshape main_v104 main_v105 rfl shapeCasts_S1x128_S128 ]
theorem ops1_sub : (ops1 : List (HloOp τ sig (Elt F))).Forall fun op => op.bufs ⊆ tcRefs τ sig :=
  ⟨reshape_bufs_sub .., unary_bufs_sub .., unary_bufs_sub .., binary_bufs_sub .., nullary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub ..⟩

/-- The 106 operations of `main_part2`, in order. -/
abbrev ops2 : List (HloOp τ sig (Elt F)) :=
  [ StableHlo.nullary main_cst_12 (constant S_ .f32 0x00000000#32),
    StableHlo.binary main_v101 main_cst_12 main_v106 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_13 (constant S_ .f32 0x47435000#32),
    StableHlo.unary main_cst_13 main_v107 (broadcastInDim S128 ![] bcast_S_S128 : (⟨S_, .f32⟩ : BufTy).Contents (Elt F) → (⟨S128, .f32⟩ : BufTy).Contents (Elt F)),
    StableHlo.binary main_v106 main_v107 main_v108 (Host.divf : (⟨S128, .f32⟩ : BufTy).Contents (Elt F) → (⟨S128, .f32⟩ : BufTy).Contents (Elt F) → (⟨S128, .f32⟩ : BufTy).Contents (Elt F)),
    StableHlo.nullary main_c_14 (constantI S_ 32 0#32),
    StableHlo.TRef.nullary main_call6.cst (constant S_ .f32 0x00000000#32),
    StableHlo.TRef.binary (.of main_v101) main_call6.cst main_call6.v0 (fun x v => Host.reduceAdd x v reducesTo_S50000x128_S128_d0 h_S_),
    StableHlo.TRef.unary main_call6.v0 main_call6.v1 (broadcastInDim S1x128 ![1] bcast_S128_S1x128_1),
    StableHlo.TRef.nullary main_call6.cst_0 (constant S_ .f32 0x47435000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S50000x128 ![0, 1] bcast_S1x128_S50000x128_0_1),
    StableHlo.TRef.binary (.of main_v101) main_call6.v4 main_call6.v5 subf,
    StableHlo.TRef.binary main_call6.v5 main_call6.v5 main_call6.v6 mulf,
    StableHlo.TRef.unary (.of main_c_14) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v108 main_v110 (broadcastInDim S1x128 ![1] bcast_S128_S1x128_1 : (⟨S128, .f32⟩ : BufTy).Contents (Elt F) → (⟨S1x128, .f32⟩ : BufTy).Contents (Elt F)),
    StableHlo.unary main_v110 main_v111 (broadcastInDim S50000x128 ![0, 1] bcast_S1x128_S50000x128_0_1 : (⟨S1x128, .f32⟩ : BufTy).Contents (Elt F) → (⟨S50000x128, .f32⟩ : BufTy).Contents (Elt F)),
    StableHlo.binary main_v101 main_v111 main_v112 (subf : (⟨S50000x128, .f32⟩ : BufTy).Contents (Elt F) → (⟨S50000x128, .f32⟩ : BufTy).Contents (Elt F) → (⟨S50000x128, .f32⟩ : BufTy).Contents (Elt F)),
    StableHlo.unary main_v103 main_v113 (broadcastInDim S1x128 ![1] bcast_S128_S1x128_1 : (⟨S128, .f32⟩ : BufTy).Contents (Elt F) → (⟨S1x128, .f32⟩ : BufTy).Contents (Elt F)),
    StableHlo.unary main_v113 main_v114 (broadcastInDim S50000x128 ![0, 1] bcast_S1x128_S50000x128_0_1 : (⟨S1x128, .f32⟩ : BufTy).Contents (Elt F) → (⟨S50000x128, .f32⟩ : BufTy).Contents (Elt F)),
    StableHlo.binary main_v114 main_v112 main_v115 (mulf : (⟨S50000x128, .f32⟩ : BufTy).Contents (Elt F) → (⟨S50000x128, .f32⟩ : BufTy).Contents (Elt F) → (⟨S50000x128, .f32⟩ : BufTy).Contents (Elt F)),
    StableHlo.nullary main_cst_15 (constant S_ .f32 0x3727C5AC#32),
    StableHlo.unary main_cst_15 main_v116 (broadcastInDim S128 ![] bcast_S_S128 : (⟨S_, .f32⟩ : BufTy).Contents (Elt F) → (⟨S128, .f32⟩ : BufTy).Contents (Elt F)),
    StableHlo.binary main_v109 main_v116 main_v117 (addf : (⟨S128, .f32⟩ : BufTy).Contents (Elt F) → (⟨S128, .f32⟩ : BufTy).Contents (Elt F) → (⟨S128, .f32⟩ : BufTy).Contents (Elt F)),
    StableHlo.unary main_v117 main_v118 (Host.rsqrt : (⟨S128, .f32⟩ : BufTy).Contents (Elt F) → (⟨S128, .f32⟩ : BufTy).Contents (Elt F)),
    StableHlo.unary main_v118 main_v119 (broadcastInDim S1x128 ![1] bcast_S128_S1x128_1 : (⟨S128, .f32⟩ : BufTy).Contents (Elt F) → (⟨S1x128, .f32⟩ : BufTy).Contents (Elt F)),
    StableHlo.unary main_v119 main_v120 (broadcastInDim S50000x128 ![0, 1] bcast_S1x128_S50000x128_0_1 : (⟨S1x128, .f32⟩ : BufTy).Contents (Elt F) → (⟨S50000x128, .f32⟩ : BufTy).Contents (Elt F)),
    StableHlo.binary main_v115 main_v120 main_v121 (mulf : (⟨S50000x128, .f32⟩ : BufTy).Contents (Elt F) → (⟨S50000x128, .f32⟩ : BufTy).Contents (Elt F) → (⟨S50000x128, .f32⟩ : BufTy).Contents (Elt F)),
    StableHlo.unary main_v105 main_v122 (broadcastInDim S1x128 ![1] bcast_S128_S1x128_1 : (⟨S128, .f32⟩ : BufTy).Contents (Elt F) → (⟨S1x128, .f32⟩ : BufTy).Contents (Elt F)),
    StableHlo.unary main_v122 main_v123 (broadcastInDim S50000x128 ![0, 1] bcast_S1x128_S50000x128_0_1 : (⟨S1x128, .f32⟩ : BufTy).Contents (Elt F) → (⟨S50000x128, .f32⟩ : BufTy).Contents (Elt F)),
    StableHlo.binary main_v121 main_v123 main_v124 (addf : (⟨S50000x128, .f32⟩ : BufTy).Contents (Elt F) → (⟨S50000x128, .f32⟩ : BufTy).Contents (Elt F) → (⟨S50000x128, .f32⟩ : BufTy).Contents (Elt F)),
    StableHlo.TRef.nullary main_call7.cst (constant S_ .f32 0x00000000#32),
    StableHlo.TRef.unary main_call7.cst main_call7.v0 (broadcastInDim S50000x128 ![] bcast_S_S50000x128),
    StableHlo.TRef.binary (.of main_v124) main_call7.v0 main_call7.v1 maximumf,
    StableHlo.unary main_arg7 main_v126 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v126 main_v127 rfl shapeCasts_S1x128x128_S128x128,
    StableHlo.binary main_v125 main_v127 main_v128 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v129 ((extractStridedSlice S1x128 ![1, 0] · slices_S4x128_S1x128_1_0) : (⟨S4x128, .f32⟩ : BufTy).Contents (Elt F) → (⟨S1x128, .f32⟩ : BufTy).Contents (Elt F)),
    StableHlo.reshape main_v129 main_v130 rfl shapeCasts_S1x128_S128,
    StableHlo.unary main_v130 main_v131 (broadcastInDim S1x128 ![1] bcast_S128_S1x128_1 : (⟨S128, .f32⟩ : BufTy).Contents (Elt F) → (⟨S1x128, .f32⟩ : BufTy).Contents (Elt F)),
    StableHlo.unary main_v131 main_v132 (broadcastInDim S50000x128 ![0, 1] bcast_S1x128_S50000x128_0_1 : (⟨S1x128, .f32⟩ : BufTy).Contents (Elt F) → (⟨S50000x128, .f32⟩ : BufTy).Contents (Elt F)),
    StableHlo.binary main_v128 main_v132 main_v133 (addf : (⟨S50000x128, .f32⟩ : BufTy).Contents (Elt F) → (⟨S50000x128, .f32⟩ : BufTy).Contents (Elt F) → (⟨S50000x128, .f32⟩ : BufTy).Contents (Elt F)),
    StableHlo.TRef.nullary main_call8.cst (constant S_ .f32 0x00000000#32),
    StableHlo.TRef.unary main_call8.cst main_call8.v0 (broadcastInDim S50000x128 ![] bcast_S_S50000x128),
    StableHlo.TRef.binary (.of main_v133) main_call8.v0 main_call8.v1 maximumf,
    StableHlo.unary main_arg9 main_v135 ((extractStridedSlice S1x128 ![1, 0] · slices_S3x128_S1x128_1_0) : (⟨S3x128, .f32⟩ : BufTy).Contents (Elt F) → (⟨S1x128, .f32⟩ : BufTy).Contents (Elt F)),
    StableHlo.reshape main_v135 main_v136 rfl shapeCasts_S1x128_S128,
    StableHlo.unary main_arg10 main_v137 ((extractStridedSlice S1x128 ![1, 0] · slices_S3x128_S1x128_1_0) : (⟨S3x128, .f32⟩ : BufTy).Contents (Elt F) → (⟨S1x128, .f32⟩ : BufTy).Contents (Elt F)),
    StableHlo.reshape main_v137 main_v138 rfl shapeCasts_S1x128_S128,
    StableHlo.nullary main_cst_16 (constant S_ .f32 0x00000000#32),
    StableHlo.binary main_v134 main_cst_16 main_v139 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_17 (constant S_ .f32 0x47435000#32),
    StableHlo.unary main_cst_17 main_v140 (broadcastInDim S128 ![] bcast_S_S128 : (⟨S_, .f32⟩ : BufTy).Contents (Elt F) → (⟨S128, .f32⟩ : BufTy).Contents (Elt F)),
    StableHlo.binary main_v139 main_v140 main_v141 (Host.divf : (⟨S128, .f32⟩ : BufTy).Contents (Elt F) → (⟨S128, .f32⟩ : BufTy).Contents (Elt F) → (⟨S128, .f32⟩ : BufTy).Contents (Elt F)),
    StableHlo.nullary main_c_18 (constantI S_ 32 0#32),
    StableHlo.TRef.nullary main_call9.cst (constant S_ .f32 0x00000000#32),
    StableHlo.TRef.binary (.of main_v134) main_call9.cst main_call9.v0 (fun x v => Host.reduceAdd x v reducesTo_S50000x128_S128_d0 h_S_),
    StableHlo.TRef.unary main_call9.v0 main_call9.v1 (broadcastInDim S1x128 ![1] bcast_S128_S1x128_1),
    StableHlo.TRef.nullary main_call9.cst_0 (constant S_ .f32 0x47435000#32),
    StableHlo.TRef.unary main_call9.cst_0 main_call9.v2 (broadcastInDim S1x128 ![] bcast_S_S1x128),
    StableHlo.TRef.binary main_call9.v1 main_call9.v2 main_call9.v3 Host.divf,
    StableHlo.TRef.unary main_call9.v3 main_call9.v4 (broadcastInDim S50000x128 ![0, 1] bcast_S1x128_S50000x128_0_1),
    StableHlo.TRef.binary (.of main_v134) main_call9.v4 main_call9.v5 subf,
    StableHlo.TRef.binary main_call9.v5 main_call9.v5 main_call9.v6 mulf,
    StableHlo.TRef.unary (.of main_c_18) main_call9.v7 (sitofp .f32),
    StableHlo.TRef.nullary main_call9.cst_1 (constant S_ .f32 0x47435000#32),
    StableHlo.TRef.binary main_call9.cst_1 main_call9.v7 main_call9.v8 subf,
    StableHlo.TRef.nullary main_call9.cst_2 (constant S_ .f32 0x00000000#32),
    StableHlo.TRef.binary main_call9.v6 main_call9.cst_2 main_call9.v9 (fun x v => Host.reduceAdd x v reducesTo_S50000x128_S128_d0 h_S_),
    StableHlo.TRef.unary main_call9.v8 main_call9.v10 (broadcastInDim S128 ![] bcast_S_S128),
    StableHlo.TRef.binary main_call9.v9 main_call9.v10 main_call9.v11 Host.divf,
    StableHlo.TRef.nullary main_call9.cst_3 (constant S_ .f32 0x00000000#32),
    StableHlo.TRef.binary main_call9.v8 main_call9.cst_3 main_call9.v12 (cmpf .ogt),
    StableHlo.TRef.nullary main_call9.cst_4 (constant S_ .f32 0x7FC00000#32),
    StableHlo.TRef.unary main_call9.cst_4 main_call9.call0.v0 id,
    StableHlo.TRef.unary main_call9.call0.v0 main_call9.call0.v1 (broadcastInDim S128 ![] bcast_S_S128),
    StableHlo.TRef.ternary main_call9.v12 main_call9.v11 main_call9.call0.v1 main_call9.call0.v2 (fun p a b => select (broadcastInDim S128 ![] bcast_S_S128 p) a b),
    StableHlo.unary main_v141 main_v143 (broadcastInDim S1x128 ![1] bcast_S128_S1x128_1 : (⟨S128, .f32⟩ : BufTy).Contents (Elt F) → (⟨S1x128, .f32⟩ : BufTy).Contents (Elt F)),
    StableHlo.unary main_v143 main_v144 (broadcastInDim S50000x128 ![0, 1] bcast_S1x128_S50000x128_0_1 : (⟨S1x128, .f32⟩ : BufTy).Contents (Elt F) → (⟨S50000x128, .f32⟩ : BufTy).Contents (Elt F)),
    StableHlo.binary main_v134 main_v144 main_v145 (subf : (⟨S50000x128, .f32⟩ : BufTy).Contents (Elt F) → (⟨S50000x128, .f32⟩ : BufTy).Contents (Elt F) → (⟨S50000x128, .f32⟩ : BufTy).Contents (Elt F)),
    StableHlo.unary main_v136 main_v146 (broadcastInDim S1x128 ![1] bcast_S128_S1x128_1 : (⟨S128, .f32⟩ : BufTy).Contents (Elt F) → (⟨S1x128, .f32⟩ : BufTy).Contents (Elt F)),
    StableHlo.unary main_v146 main_v147 (broadcastInDim S50000x128 ![0, 1] bcast_S1x128_S50000x128_0_1 : (⟨S1x128, .f32⟩ : BufTy).Contents (Elt F) → (⟨S50000x128, .f32⟩ : BufTy).Contents (Elt F)),
    StableHlo.binary main_v147 main_v145 main_v148 (mulf : (⟨S50000x128, .f32⟩ : BufTy).Contents (Elt F) → (⟨S50000x128, .f32⟩ : BufTy).Contents (Elt F) → (⟨S50000x128, .f32⟩ : BufTy).Contents (Elt F)),
    StableHlo.nullary main_cst_19 (constant S_ .f32 0x3727C5AC#32),
    StableHlo.unary main_cst_19 main_v149 (broadcastInDim S128 ![] bcast_S_S128 : (⟨S_, .f32⟩ : BufTy).Contents (Elt F) → (⟨S128, .f32⟩ : BufTy).Contents (Elt F)),
    StableHlo.binary main_v142 main_v149 main_v150 (addf : (⟨S128, .f32⟩ : BufTy).Contents (Elt F) → (⟨S128, .f32⟩ : BufTy).Contents (Elt F) → (⟨S128, .f32⟩ : BufTy).Contents (Elt F)),
    StableHlo.unary main_v150 main_v151 (Host.rsqrt : (⟨S128, .f32⟩ : BufTy).Contents (Elt F) → (⟨S128, .f32⟩ : BufTy).Contents (Elt F)),
    StableHlo.unary main_v151 main_v152 (broadcastInDim S1x128 ![1] bcast_S128_S1x128_1 : (⟨S128, .f32⟩ : BufTy).Contents (Elt F) → (⟨S1x128, .f32⟩ : BufTy).Contents (Elt F)),
    StableHlo.unary main_v152 main_v153 (broadcastInDim S50000x128 ![0, 1] bcast_S1x128_S50000x128_0_1 : (⟨S1x128, .f32⟩ : BufTy).Contents (Elt F) → (⟨S50000x128, .f32⟩ : BufTy).Contents (Elt F)),
    StableHlo.binary main_v148 main_v153 main_v154 (mulf : (⟨S50000x128, .f32⟩ : BufTy).Contents (Elt F) → (⟨S50000x128, .f32⟩ : BufTy).Contents (Elt F) → (⟨S50000x128, .f32⟩ : BufTy).Contents (Elt F)),
    StableHlo.unary main_v138 main_v155 (broadcastInDim S1x128 ![1] bcast_S128_S1x128_1 : (⟨S128, .f32⟩ : BufTy).Contents (Elt F) → (⟨S1x128, .f32⟩ : BufTy).Contents (Elt F)),
    StableHlo.unary main_v155 main_v156 (broadcastInDim S50000x128 ![0, 1] bcast_S1x128_S50000x128_0_1 : (⟨S1x128, .f32⟩ : BufTy).Contents (Elt F) → (⟨S50000x128, .f32⟩ : BufTy).Contents (Elt F)),
    StableHlo.binary main_v154 main_v156 main_v157 (addf : (⟨S50000x128, .f32⟩ : BufTy).Contents (Elt F) → (⟨S50000x128, .f32⟩ : BufTy).Contents (Elt F) → (⟨S50000x128, .f32⟩ : BufTy).Contents (Elt F)) ]
theorem ops2_sub : (ops2 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩

/-- The 85 operations of `main_part3`, in order. -/
abbrev ops3 : List (HloOp τ sig (Elt F)) :=
  [ StableHlo.nullary main_c_20 (constantI S_ 32 0#32),
    StableHlo.unary main_c_20 main_v158 (broadcastInDim S640000 ![] bcast_S_S640000 : (⟨S_, .i32⟩ : BufTy).Contents (Elt F) → (⟨S640000, .i32⟩ : BufTy).Contents (Elt F)),
    StableHlo.binary main_v1 main_v158 main_v159 (cmpi .slt : (⟨S640000, .i32⟩ : BufTy).Contents (Elt F) → (⟨S640000, .i32⟩ : BufTy).Contents (Elt F) → (⟨S640000, .i1⟩ : BufTy).Contents (Elt F)),
    StableHlo.nullary main_c_21 (constantI S_ 32 50000#32),
    StableHlo.unary main_c_21 main_v160 (broadcastInDim S640000 ![] bcast_S_S640000 : (⟨S_, .i32⟩ : BufTy).Contents (Elt F) → (⟨S640000, .i32⟩ : BufTy).Contents (Elt F)),
    StableHlo.binary main_v1 main_v160 main_v161 (addi : (⟨S640000, .i32⟩ : BufTy).Contents (Elt F) → (⟨S640000, .i32⟩ : BufTy).Contents (Elt F) → (⟨S640000, .i32⟩ : BufTy).Contents (Elt F)),
    StableHlo.ternary main_v159 main_v161 main_v1 main_v162 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v162 main_v163 (broadcastInDim S640000x1 ![0] bcast_S640000_S640000x1_0 : (⟨S640000, .i32⟩ : BufTy).Contents (Elt F) → (⟨S640000x1, .i32⟩ : BufTy).Contents (Elt F)),
    StableHlo.binary main_v157 main_v163 main_v164 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.binary main_v164 main_arg2 main_v165 (addf : (⟨S640000x128, .f32⟩ : BufTy).Contents (Elt F) → (⟨S640000x128, .f32⟩ : BufTy).Contents (Elt F) → (⟨S640000x128, .f32⟩ : BufTy).Contents (Elt F)),
    StableHlo.TRef.nullary main_call10.cst (constant S_ .f32 0x00000000#32),
    StableHlo.TRef.unary main_call10.cst main_call10.v0 (broadcastInDim S640000x128 ![] bcast_S_S640000x128),
    StableHlo.TRef.binary (.of main_v165) main_call10.v0 main_call10.v1 maximumf,
    StableHlo.nullary main_cst_22 (constant S_ .f32 0x00000000#32),
    StableHlo.unary main_cst_22 main_v167 (broadcastInDim S50000x128 ![] bcast_S_S50000x128 : (⟨S_, .f32⟩ : BufTy).Contents (Elt F) → (⟨S50000x128, .f32⟩ : BufTy).Contents (Elt F)),
    StableHlo.unary main_v3 main_v168 (broadcastInDim S640000x1 ![0] bcast_S640000_S640000x1_0 : (⟨S640000, .i32⟩ : BufTy).Contents (Elt F) → (⟨S640000x1, .i32⟩ : BufTy).Contents (Elt F)),
    StableHlo.ternary main_v167 main_v168 main_v166 main_v169 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    StableHlo.binary main_v157 main_v169 main_v170 (addf : (⟨S50000x128, .f32⟩ : BufTy).Contents (Elt F) → (⟨S50000x128, .f32⟩ : BufTy).Contents (Elt F) → (⟨S50000x128, .f32⟩ : BufTy).Contents (Elt F)),
    StableHlo.unary main_arg3 main_v171 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v171 main_v172 rfl shapeCasts_S1x128x128_S128x128,
    StableHlo.binary main_v170 main_v172 main_v173 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v174 ((extractStridedSlice S1x128 ![2, 0] · slices_S4x128_S1x128_2_0) : (⟨S4x128, .f32⟩ : BufTy).Contents (Elt F) → (⟨S1x128, .f32⟩ : BufTy).Contents (Elt F)),
    StableHlo.reshape main_v174 main_v175 rfl shapeCasts_S1x128_S128,
    StableHlo.unary main_v175 main_v176 (broadcastInDim S1x128 ![1] bcast_S128_S1x128_1 : (⟨S128, .f32⟩ : BufTy).Contents (Elt F) → (⟨S1x128, .f32⟩ : BufTy).Contents (Elt F)),
    StableHlo.unary main_v176 main_v177 (broadcastInDim S50000x128 ![0, 1] bcast_S1x128_S50000x128_0_1 : (⟨S1x128, .f32⟩ : BufTy).Contents (Elt F) → (⟨S50000x128, .f32⟩ : BufTy).Contents (Elt F)),
    StableHlo.binary main_v173 main_v177 main_v178 (addf : (⟨S50000x128, .f32⟩ : BufTy).Contents (Elt F) → (⟨S50000x128, .f32⟩ : BufTy).Contents (Elt F) → (⟨S50000x128, .f32⟩ : BufTy).Contents (Elt F)),
    StableHlo.unary main_arg5 main_v179 ((extractStridedSlice S1x128 ![2, 0] · slices_S4x128_S1x128_2_0) : (⟨S4x128, .f32⟩ : BufTy).Contents (Elt F) → (⟨S1x128, .f32⟩ : BufTy).Contents (Elt F)),
    StableHlo.reshape main_v179 main_v180 rfl shapeCasts_S1x128_S128,
    StableHlo.unary main_arg6 main_v181 ((extractStridedSlice S1x128 ![2, 0] · slices_S4x128_S1x128_2_0) : (⟨S4x128, .f32⟩ : BufTy).Contents (Elt F) → (⟨S1x128, .f32⟩ : BufTy).Contents (Elt F)),
    StableHlo.reshape main_v181 main_v182 rfl shapeCasts_S1x128_S128,
    StableHlo.nullary main_cst_23 (constant S_ .f32 0x00000000#32),
    StableHlo.binary main_v178 main_cst_23 main_v183 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_24 (constant S_ .f32 0x47435000#32),
    StableHlo.unary main_cst_24 main_v184 (broadcastInDim S128 ![] bcast_S_S128 : (⟨S_, .f32⟩ : BufTy).Contents (Elt F) → (⟨S128, .f32⟩ : BufTy).Contents (Elt F)),
    StableHlo.binary main_v183 main_v184 main_v185 (Host.divf : (⟨S128, .f32⟩ : BufTy).Contents (Elt F) → (⟨S128, .f32⟩ : BufTy).Contents (Elt F) → (⟨S128, .f32⟩ : BufTy).Contents (Elt F)),
    StableHlo.nullary main_c_25 (constantI S_ 32 0#32),
    StableHlo.TRef.nullary main_call11.cst (constant S_ .f32 0x00000000#32),
    StableHlo.TRef.binary (.of main_v178) main_call11.cst main_call11.v0 (fun x v => Host.reduceAdd x v reducesTo_S50000x128_S128_d0 h_S_),
    StableHlo.TRef.unary main_call11.v0 main_call11.v1 (broadcastInDim S1x128 ![1] bcast_S128_S1x128_1),
    StableHlo.TRef.nullary main_call11.cst_0 (constant S_ .f32 0x47435000#32),
    StableHlo.TRef.unary main_call11.cst_0 main_call11.v2 (broadcastInDim S1x128 ![] bcast_S_S1x128),
    StableHlo.TRef.binary main_call11.v1 main_call11.v2 main_call11.v3 Host.divf,
    StableHlo.TRef.unary main_call11.v3 main_call11.v4 (broadcastInDim S50000x128 ![0, 1] bcast_S1x128_S50000x128_0_1),
    StableHlo.TRef.binary (.of main_v178) main_call11.v4 main_call11.v5 subf,
    StableHlo.TRef.binary main_call11.v5 main_call11.v5 main_call11.v6 mulf,
    StableHlo.TRef.unary (.of main_c_25) main_call11.v7 (sitofp .f32),
    StableHlo.TRef.nullary main_call11.cst_1 (constant S_ .f32 0x47435000#32),
    StableHlo.TRef.binary main_call11.cst_1 main_call11.v7 main_call11.v8 subf,
    StableHlo.TRef.nullary main_call11.cst_2 (constant S_ .f32 0x00000000#32),
    StableHlo.TRef.binary main_call11.v6 main_call11.cst_2 main_call11.v9 (fun x v => Host.reduceAdd x v reducesTo_S50000x128_S128_d0 h_S_),
    StableHlo.TRef.unary main_call11.v8 main_call11.v10 (broadcastInDim S128 ![] bcast_S_S128),
    StableHlo.TRef.binary main_call11.v9 main_call11.v10 main_call11.v11 Host.divf,
    StableHlo.TRef.nullary main_call11.cst_3 (constant S_ .f32 0x00000000#32),
    StableHlo.TRef.binary main_call11.v8 main_call11.cst_3 main_call11.v12 (cmpf .ogt),
    StableHlo.TRef.nullary main_call11.cst_4 (constant S_ .f32 0x7FC00000#32),
    StableHlo.TRef.unary main_call11.cst_4 main_call11.call0.v0 id,
    StableHlo.TRef.unary main_call11.call0.v0 main_call11.call0.v1 (broadcastInDim S128 ![] bcast_S_S128),
    StableHlo.TRef.ternary main_call11.v12 main_call11.v11 main_call11.call0.v1 main_call11.call0.v2 (fun p a b => select (broadcastInDim S128 ![] bcast_S_S128 p) a b),
    StableHlo.unary main_v185 main_v187 (broadcastInDim S1x128 ![1] bcast_S128_S1x128_1 : (⟨S128, .f32⟩ : BufTy).Contents (Elt F) → (⟨S1x128, .f32⟩ : BufTy).Contents (Elt F)),
    StableHlo.unary main_v187 main_v188 (broadcastInDim S50000x128 ![0, 1] bcast_S1x128_S50000x128_0_1 : (⟨S1x128, .f32⟩ : BufTy).Contents (Elt F) → (⟨S50000x128, .f32⟩ : BufTy).Contents (Elt F)),
    StableHlo.binary main_v178 main_v188 main_v189 (subf : (⟨S50000x128, .f32⟩ : BufTy).Contents (Elt F) → (⟨S50000x128, .f32⟩ : BufTy).Contents (Elt F) → (⟨S50000x128, .f32⟩ : BufTy).Contents (Elt F)),
    StableHlo.unary main_v180 main_v190 (broadcastInDim S1x128 ![1] bcast_S128_S1x128_1 : (⟨S128, .f32⟩ : BufTy).Contents (Elt F) → (⟨S1x128, .f32⟩ : BufTy).Contents (Elt F)),
    StableHlo.unary main_v190 main_v191 (broadcastInDim S50000x128 ![0, 1] bcast_S1x128_S50000x128_0_1 : (⟨S1x128, .f32⟩ : BufTy).Contents (Elt F) → (⟨S50000x128, .f32⟩ : BufTy).Contents (Elt F)),
    StableHlo.binary main_v191 main_v189 main_v192 (mulf : (⟨S50000x128, .f32⟩ : BufTy).Contents (Elt F) → (⟨S50000x128, .f32⟩ : BufTy).Contents (Elt F) → (⟨S50000x128, .f32⟩ : BufTy).Contents (Elt F)),
    StableHlo.nullary main_cst_26 (constant S_ .f32 0x3727C5AC#32),
    StableHlo.unary main_cst_26 main_v193 (broadcastInDim S128 ![] bcast_S_S128 : (⟨S_, .f32⟩ : BufTy).Contents (Elt F) → (⟨S128, .f32⟩ : BufTy).Contents (Elt F)),
    StableHlo.binary main_v186 main_v193 main_v194 (addf : (⟨S128, .f32⟩ : BufTy).Contents (Elt F) → (⟨S128, .f32⟩ : BufTy).Contents (Elt F) → (⟨S128, .f32⟩ : BufTy).Contents (Elt F)),
    StableHlo.unary main_v194 main_v195 (Host.rsqrt : (⟨S128, .f32⟩ : BufTy).Contents (Elt F) → (⟨S128, .f32⟩ : BufTy).Contents (Elt F)),
    StableHlo.unary main_v195 main_v196 (broadcastInDim S1x128 ![1] bcast_S128_S1x128_1 : (⟨S128, .f32⟩ : BufTy).Contents (Elt F) → (⟨S1x128, .f32⟩ : BufTy).Contents (Elt F)),
    StableHlo.unary main_v196 main_v197 (broadcastInDim S50000x128 ![0, 1] bcast_S1x128_S50000x128_0_1 : (⟨S1x128, .f32⟩ : BufTy).Contents (Elt F) → (⟨S50000x128, .f32⟩ : BufTy).Contents (Elt F)),
    StableHlo.binary main_v192 main_v197 main_v198 (mulf : (⟨S50000x128, .f32⟩ : BufTy).Contents (Elt F) → (⟨S50000x128, .f32⟩ : BufTy).Contents (Elt F) → (⟨S50000x128, .f32⟩ : BufTy).Contents (Elt F)),
    StableHlo.unary main_v182 main_v199 (broadcastInDim S1x128 ![1] bcast_S128_S1x128_1 : (⟨S128, .f32⟩ : BufTy).Contents (Elt F) → (⟨S1x128, .f32⟩ : BufTy).Contents (Elt F)),
    StableHlo.unary main_v199 main_v200 (broadcastInDim S50000x128 ![0, 1] bcast_S1x128_S50000x128_0_1 : (⟨S1x128, .f32⟩ : BufTy).Contents (Elt F) → (⟨S50000x128, .f32⟩ : BufTy).Contents (Elt F)),
    StableHlo.binary main_v198 main_v200 main_v201 (addf : (⟨S50000x128, .f32⟩ : BufTy).Contents (Elt F) → (⟨S50000x128, .f32⟩ : BufTy).Contents (Elt F) → (⟨S50000x128, .f32⟩ : BufTy).Contents (Elt F)),
    StableHlo.TRef.nullary main_call12.cst (constant S_ .f32 0x00000000#32),
    StableHlo.TRef.unary main_call12.cst main_call12.v0 (broadcastInDim S50000x128 ![] bcast_S_S50000x128),
    StableHlo.TRef.binary (.of main_v201) main_call12.v0 main_call12.v1 maximumf,
    StableHlo.unary main_arg7 main_v203 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v203 main_v204 rfl shapeCasts_S1x128x128_S128x128,
    StableHlo.binary main_v202 main_v204 main_v205 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v206 ((extractStridedSlice S1x128 ![2, 0] · slices_S4x128_S1x128_2_0) : (⟨S4x128, .f32⟩ : BufTy).Contents (Elt F) → (⟨S1x128, .f32⟩ : BufTy).Contents (Elt F)),
    StableHlo.reshape main_v206 main_v207 rfl shapeCasts_S1x128_S128,
    StableHlo.unary main_v207 main_v208 (broadcastInDim S1x128 ![1] bcast_S128_S1x128_1 : (⟨S128, .f32⟩ : BufTy).Contents (Elt F) → (⟨S1x128, .f32⟩ : BufTy).Contents (Elt F)),
    StableHlo.unary main_v208 main_v209 (broadcastInDim S50000x128 ![0, 1] bcast_S1x128_S50000x128_0_1 : (⟨S1x128, .f32⟩ : BufTy).Contents (Elt F) → (⟨S50000x128, .f32⟩ : BufTy).Contents (Elt F)),
    StableHlo.binary main_v205 main_v209 main_v210 (addf : (⟨S50000x128, .f32⟩ : BufTy).Contents (Elt F) → (⟨S50000x128, .f32⟩ : BufTy).Contents (Elt F) → (⟨S50000x128, .f32⟩ : BufTy).Contents (Elt F)) ]
theorem ops3_sub : (ops3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩

/-- The 85 operations of `main_part4`, in order. -/
abbrev ops4 : List (HloOp τ sig (Elt F)) :=
  [ StableHlo.TRef.nullary main_call13.cst (constant S_ .f32 0x00000000#32),
    StableHlo.TRef.unary main_call13.cst main_call13.v0 (broadcastInDim S50000x128 ![] bcast_S_S50000x128),
    StableHlo.TRef.binary (.of main_v210) main_call13.v0 main_call13.v1 maximumf,
    StableHlo.unary main_arg9 main_v212 ((extractStridedSlice S1x128 ![2, 0] · slices_S3x128_S1x128_2_0) : (⟨S3x128, .f32⟩ : BufTy).Contents (Elt F) → (⟨S1x128, .f32⟩ : BufTy).Contents (Elt F)),
    StableHlo.reshape main_v212 main_v213 rfl shapeCasts_S1x128_S128,
    StableHlo.unary main_arg10 main_v214 ((extractStridedSlice S1x128 ![2, 0] · slices_S3x128_S1x128_2_0) : (⟨S3x128, .f32⟩ : BufTy).Contents (Elt F) → (⟨S1x128, .f32⟩ : BufTy).Contents (Elt F)),
    StableHlo.reshape main_v214 main_v215 rfl shapeCasts_S1x128_S128,
    StableHlo.nullary main_cst_27 (constant S_ .f32 0x00000000#32),
    StableHlo.binary main_v211 main_cst_27 main_v216 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_28 (constant S_ .f32 0x47435000#32),
    StableHlo.unary main_cst_28 main_v217 (broadcastInDim S128 ![] bcast_S_S128 : (⟨S_, .f32⟩ : BufTy).Contents (Elt F) → (⟨S128, .f32⟩ : BufTy).Contents (Elt F)),
    StableHlo.binary main_v216 main_v217 main_v218 (Host.divf : (⟨S128, .f32⟩ : BufTy).Contents (Elt F) → (⟨S128, .f32⟩ : BufTy).Contents (Elt F) → (⟨S128, .f32⟩ : BufTy).Contents (Elt F)),
    StableHlo.nullary main_c_29 (constantI S_ 32 0#32),
    StableHlo.TRef.nullary main_call14.cst (constant S_ .f32 0x00000000#32),
    StableHlo.TRef.binary (.of main_v211) main_call14.cst main_call14.v0 (fun x v => Host.reduceAdd x v reducesTo_S50000x128_S128_d0 h_S_),
    StableHlo.TRef.unary main_call14.v0 main_call14.v1 (broadcastInDim S1x128 ![1] bcast_S128_S1x128_1),
    StableHlo.TRef.nullary main_call14.cst_0 (constant S_ .f32 0x47435000#32),
    StableHlo.TRef.unary main_call14.cst_0 main_call14.v2 (broadcastInDim S1x128 ![] bcast_S_S1x128),
    StableHlo.TRef.binary main_call14.v1 main_call14.v2 main_call14.v3 Host.divf,
    StableHlo.TRef.unary main_call14.v3 main_call14.v4 (broadcastInDim S50000x128 ![0, 1] bcast_S1x128_S50000x128_0_1),
    StableHlo.TRef.binary (.of main_v211) main_call14.v4 main_call14.v5 subf,
    StableHlo.TRef.binary main_call14.v5 main_call14.v5 main_call14.v6 mulf,
    StableHlo.TRef.unary (.of main_c_29) main_call14.v7 (sitofp .f32),
    StableHlo.TRef.nullary main_call14.cst_1 (constant S_ .f32 0x47435000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S50000x128_S128_d0 h_S_),
    StableHlo.TRef.unary main_call14.v8 main_call14.v10 (broadcastInDim S128 ![] bcast_S_S128),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S128 ![] bcast_S_S128),
    StableHlo.TRef.ternary main_call14.v12 main_call14.v11 main_call14.call0.v1 main_call14.call0.v2 (fun p a b => select (broadcastInDim S128 ![] bcast_S_S128 p) a b),
    StableHlo.unary main_v218 main_v220 (broadcastInDim S1x128 ![1] bcast_S128_S1x128_1 : (⟨S128, .f32⟩ : BufTy).Contents (Elt F) → (⟨S1x128, .f32⟩ : BufTy).Contents (Elt F)),
    StableHlo.unary main_v220 main_v221 (broadcastInDim S50000x128 ![0, 1] bcast_S1x128_S50000x128_0_1 : (⟨S1x128, .f32⟩ : BufTy).Contents (Elt F) → (⟨S50000x128, .f32⟩ : BufTy).Contents (Elt F)),
    StableHlo.binary main_v211 main_v221 main_v222 (subf : (⟨S50000x128, .f32⟩ : BufTy).Contents (Elt F) → (⟨S50000x128, .f32⟩ : BufTy).Contents (Elt F) → (⟨S50000x128, .f32⟩ : BufTy).Contents (Elt F)),
    StableHlo.unary main_v213 main_v223 (broadcastInDim S1x128 ![1] bcast_S128_S1x128_1 : (⟨S128, .f32⟩ : BufTy).Contents (Elt F) → (⟨S1x128, .f32⟩ : BufTy).Contents (Elt F)),
    StableHlo.unary main_v223 main_v224 (broadcastInDim S50000x128 ![0, 1] bcast_S1x128_S50000x128_0_1 : (⟨S1x128, .f32⟩ : BufTy).Contents (Elt F) → (⟨S50000x128, .f32⟩ : BufTy).Contents (Elt F)),
    StableHlo.binary main_v224 main_v222 main_v225 (mulf : (⟨S50000x128, .f32⟩ : BufTy).Contents (Elt F) → (⟨S50000x128, .f32⟩ : BufTy).Contents (Elt F) → (⟨S50000x128, .f32⟩ : BufTy).Contents (Elt F)),
    StableHlo.nullary main_cst_30 (constant S_ .f32 0x3727C5AC#32),
    StableHlo.unary main_cst_30 main_v226 (broadcastInDim S128 ![] bcast_S_S128 : (⟨S_, .f32⟩ : BufTy).Contents (Elt F) → (⟨S128, .f32⟩ : BufTy).Contents (Elt F)),
    StableHlo.binary main_v219 main_v226 main_v227 (addf : (⟨S128, .f32⟩ : BufTy).Contents (Elt F) → (⟨S128, .f32⟩ : BufTy).Contents (Elt F) → (⟨S128, .f32⟩ : BufTy).Contents (Elt F)),
    StableHlo.unary main_v227 main_v228 (Host.rsqrt : (⟨S128, .f32⟩ : BufTy).Contents (Elt F) → (⟨S128, .f32⟩ : BufTy).Contents (Elt F)),
    StableHlo.unary main_v228 main_v229 (broadcastInDim S1x128 ![1] bcast_S128_S1x128_1 : (⟨S128, .f32⟩ : BufTy).Contents (Elt F) → (⟨S1x128, .f32⟩ : BufTy).Contents (Elt F)),
    StableHlo.unary main_v229 main_v230 (broadcastInDim S50000x128 ![0, 1] bcast_S1x128_S50000x128_0_1 : (⟨S1x128, .f32⟩ : BufTy).Contents (Elt F) → (⟨S50000x128, .f32⟩ : BufTy).Contents (Elt F)),
    StableHlo.binary main_v225 main_v230 main_v231 (mulf : (⟨S50000x128, .f32⟩ : BufTy).Contents (Elt F) → (⟨S50000x128, .f32⟩ : BufTy).Contents (Elt F) → (⟨S50000x128, .f32⟩ : BufTy).Contents (Elt F)),
    StableHlo.unary main_v215 main_v232 (broadcastInDim S1x128 ![1] bcast_S128_S1x128_1 : (⟨S128, .f32⟩ : BufTy).Contents (Elt F) → (⟨S1x128, .f32⟩ : BufTy).Contents (Elt F)),
    StableHlo.unary main_v232 main_v233 (broadcastInDim S50000x128 ![0, 1] bcast_S1x128_S50000x128_0_1 : (⟨S1x128, .f32⟩ : BufTy).Contents (Elt F) → (⟨S50000x128, .f32⟩ : BufTy).Contents (Elt F)),
    StableHlo.binary main_v231 main_v233 main_v234 (addf : (⟨S50000x128, .f32⟩ : BufTy).Contents (Elt F) → (⟨S50000x128, .f32⟩ : BufTy).Contents (Elt F) → (⟨S50000x128, .f32⟩ : BufTy).Contents (Elt F)),
    StableHlo.nullary main_c_31 (constantI S_ 32 0#32),
    StableHlo.unary main_c_31 main_v235 (broadcastInDim S640000 ![] bcast_S_S640000 : (⟨S_, .i32⟩ : BufTy).Contents (Elt F) → (⟨S640000, .i32⟩ : BufTy).Contents (Elt F)),
    StableHlo.binary main_v1 main_v235 main_v236 (cmpi .slt : (⟨S640000, .i32⟩ : BufTy).Contents (Elt F) → (⟨S640000, .i32⟩ : BufTy).Contents (Elt F) → (⟨S640000, .i1⟩ : BufTy).Contents (Elt F)),
    StableHlo.nullary main_c_32 (constantI S_ 32 50000#32),
    StableHlo.unary main_c_32 main_v237 (broadcastInDim S640000 ![] bcast_S_S640000 : (⟨S_, .i32⟩ : BufTy).Contents (Elt F) → (⟨S640000, .i32⟩ : BufTy).Contents (Elt F)),
    StableHlo.binary main_v1 main_v237 main_v238 (addi : (⟨S640000, .i32⟩ : BufTy).Contents (Elt F) → (⟨S640000, .i32⟩ : BufTy).Contents (Elt F) → (⟨S640000, .i32⟩ : BufTy).Contents (Elt F)),
    StableHlo.ternary main_v236 main_v238 main_v1 main_v239 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v239 main_v240 (broadcastInDim S640000x1 ![0] bcast_S640000_S640000x1_0 : (⟨S640000, .i32⟩ : BufTy).Contents (Elt F) → (⟨S640000x1, .i32⟩ : BufTy).Contents (Elt F)),
    StableHlo.binary main_v234 main_v240 main_v241 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    StableHlo.binary main_v241 main_arg2 main_v242 (addf : (⟨S640000x128, .f32⟩ : BufTy).Contents (Elt F) → (⟨S640000x128, .f32⟩ : BufTy).Contents (Elt F) → (⟨S640000x128, .f32⟩ : BufTy).Contents (Elt F)),
    StableHlo.TRef.nullary main_call15.cst (constant S_ .f32 0x00000000#32),
    StableHlo.TRef.unary main_call15.cst main_call15.v0 (broadcastInDim S640000x128 ![] bcast_S_S640000x128),
    StableHlo.TRef.binary (.of main_v242) main_call15.v0 main_call15.v1 maximumf,
    StableHlo.nullary main_cst_33 (constant S_ .f32 0x00000000#32),
    StableHlo.unary main_cst_33 main_v244 (broadcastInDim S50000x128 ![] bcast_S_S50000x128 : (⟨S_, .f32⟩ : BufTy).Contents (Elt F) → (⟨S50000x128, .f32⟩ : BufTy).Contents (Elt F)),
    StableHlo.unary main_v3 main_v245 (broadcastInDim S640000x1 ![0] bcast_S640000_S640000x1_0 : (⟨S640000, .i32⟩ : BufTy).Contents (Elt F) → (⟨S640000x1, .i32⟩ : BufTy).Contents (Elt F)),
    StableHlo.ternary main_v244 main_v245 main_v243 main_v246 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    StableHlo.binary main_v234 main_v246 main_v247 (addf : (⟨S50000x128, .f32⟩ : BufTy).Contents (Elt F) → (⟨S50000x128, .f32⟩ : BufTy).Contents (Elt F) → (⟨S50000x128, .f32⟩ : BufTy).Contents (Elt F)),
    StableHlo.unary main_arg3 main_v248 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v248 main_v249 rfl shapeCasts_S1x128x128_S128x128,
    StableHlo.binary main_v247 main_v249 main_v250 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v251 ((extractStridedSlice S1x128 ![3, 0] · slices_S4x128_S1x128_3_0) : (⟨S4x128, .f32⟩ : BufTy).Contents (Elt F) → (⟨S1x128, .f32⟩ : BufTy).Contents (Elt F)),
    StableHlo.reshape main_v251 main_v252 rfl shapeCasts_S1x128_S128,
    StableHlo.unary main_v252 main_v253 (broadcastInDim S1x128 ![1] bcast_S128_S1x128_1 : (⟨S128, .f32⟩ : BufTy).Contents (Elt F) → (⟨S1x128, .f32⟩ : BufTy).Contents (Elt F)),
    StableHlo.unary main_v253 main_v254 (broadcastInDim S50000x128 ![0, 1] bcast_S1x128_S50000x128_0_1 : (⟨S1x128, .f32⟩ : BufTy).Contents (Elt F) → (⟨S50000x128, .f32⟩ : BufTy).Contents (Elt F)),
    StableHlo.binary main_v250 main_v254 main_v255 (addf : (⟨S50000x128, .f32⟩ : BufTy).Contents (Elt F) → (⟨S50000x128, .f32⟩ : BufTy).Contents (Elt F) → (⟨S50000x128, .f32⟩ : BufTy).Contents (Elt F)),
    StableHlo.unary main_arg5 main_v256 ((extractStridedSlice S1x128 ![3, 0] · slices_S4x128_S1x128_3_0) : (⟨S4x128, .f32⟩ : BufTy).Contents (Elt F) → (⟨S1x128, .f32⟩ : BufTy).Contents (Elt F)),
    StableHlo.reshape main_v256 main_v257 rfl shapeCasts_S1x128_S128,
    StableHlo.unary main_arg6 main_v258 ((extractStridedSlice S1x128 ![3, 0] · slices_S4x128_S1x128_3_0) : (⟨S4x128, .f32⟩ : BufTy).Contents (Elt F) → (⟨S1x128, .f32⟩ : BufTy).Contents (Elt F)),
    StableHlo.reshape main_v258 main_v259 rfl shapeCasts_S1x128_S128,
    StableHlo.nullary main_cst_34 (constant S_ .f32 0x00000000#32),
    StableHlo.binary main_v255 main_cst_34 main_v260 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_35 (constant S_ .f32 0x47435000#32),
    StableHlo.unary main_cst_35 main_v261 (broadcastInDim S128 ![] bcast_S_S128 : (⟨S_, .f32⟩ : BufTy).Contents (Elt F) → (⟨S128, .f32⟩ : BufTy).Contents (Elt F)) ]
theorem ops4_sub : (ops4 : List (HloOp τ sig (Elt F))).Forall fun op => op.bufs ⊆ tcRefs τ sig :=
  ⟨nullary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub ..⟩

/-- The 54 operations of `main_part5`, in order. -/
abbrev ops5 : List (HloOp τ sig (Elt F)) :=
  [ StableHlo.binary main_v260 main_v261 main_v262 (Host.divf : (⟨S128, .f32⟩ : BufTy).Contents (Elt F) → (⟨S128, .f32⟩ : BufTy).Contents (Elt F) → (⟨S128, .f32⟩ : BufTy).Contents (Elt F)),
    StableHlo.nullary main_c_36 (constantI S_ 32 0#32),
    StableHlo.TRef.nullary main_call16.cst (constant S_ .f32 0x00000000#32),
    StableHlo.TRef.binary (.of main_v255) main_call16.cst main_call16.v0 (fun x v => Host.reduceAdd x v reducesTo_S50000x128_S128_d0 h_S_),
    StableHlo.TRef.unary main_call16.v0 main_call16.v1 (broadcastInDim S1x128 ![1] bcast_S128_S1x128_1),
    StableHlo.TRef.nullary main_call16.cst_0 (constant S_ .f32 0x47435000#32),
    StableHlo.TRef.unary main_call16.cst_0 main_call16.v2 (broadcastInDim S1x128 ![] bcast_S_S1x128),
    StableHlo.TRef.binary main_call16.v1 main_call16.v2 main_call16.v3 Host.divf,
    StableHlo.TRef.unary main_call16.v3 main_call16.v4 (broadcastInDim S50000x128 ![0, 1] bcast_S1x128_S50000x128_0_1),
    StableHlo.TRef.binary (.of main_v255) main_call16.v4 main_call16.v5 subf,
    StableHlo.TRef.binary main_call16.v5 main_call16.v5 main_call16.v6 mulf,
    StableHlo.TRef.unary (.of main_c_36) main_call16.v7 (sitofp .f32),
    StableHlo.TRef.nullary main_call16.cst_1 (constant S_ .f32 0x47435000#32),
    StableHlo.TRef.binary main_call16.cst_1 main_call16.v7 main_call16.v8 subf,
    StableHlo.TRef.nullary main_call16.cst_2 (constant S_ .f32 0x00000000#32),
    StableHlo.TRef.binary main_call16.v6 main_call16.cst_2 main_call16.v9 (fun x v => Host.reduceAdd x v reducesTo_S50000x128_S128_d0 h_S_),
    StableHlo.TRef.unary main_call16.v8 main_call16.v10 (broadcastInDim S128 ![] bcast_S_S128),
    StableHlo.TRef.binary main_call16.v9 main_call16.v10 main_call16.v11 Host.divf,
    StableHlo.TRef.nullary main_call16.cst_3 (constant S_ .f32 0x00000000#32),
    StableHlo.TRef.binary main_call16.v8 main_call16.cst_3 main_call16.v12 (cmpf .ogt),
    StableHlo.TRef.nullary main_call16.cst_4 (constant S_ .f32 0x7FC00000#32),
    StableHlo.TRef.unary main_call16.cst_4 main_call16.call0.v0 id,
    StableHlo.TRef.unary main_call16.call0.v0 main_call16.call0.v1 (broadcastInDim S128 ![] bcast_S_S128),
    StableHlo.TRef.ternary main_call16.v12 main_call16.v11 main_call16.call0.v1 main_call16.call0.v2 (fun p a b => select (broadcastInDim S128 ![] bcast_S_S128 p) a b),
    StableHlo.unary main_v262 main_v264 (broadcastInDim S1x128 ![1] bcast_S128_S1x128_1 : (⟨S128, .f32⟩ : BufTy).Contents (Elt F) → (⟨S1x128, .f32⟩ : BufTy).Contents (Elt F)),
    StableHlo.unary main_v264 main_v265 (broadcastInDim S50000x128 ![0, 1] bcast_S1x128_S50000x128_0_1 : (⟨S1x128, .f32⟩ : BufTy).Contents (Elt F) → (⟨S50000x128, .f32⟩ : BufTy).Contents (Elt F)),
    StableHlo.binary main_v255 main_v265 main_v266 (subf : (⟨S50000x128, .f32⟩ : BufTy).Contents (Elt F) → (⟨S50000x128, .f32⟩ : BufTy).Contents (Elt F) → (⟨S50000x128, .f32⟩ : BufTy).Contents (Elt F)),
    StableHlo.unary main_v257 main_v267 (broadcastInDim S1x128 ![1] bcast_S128_S1x128_1 : (⟨S128, .f32⟩ : BufTy).Contents (Elt F) → (⟨S1x128, .f32⟩ : BufTy).Contents (Elt F)),
    StableHlo.unary main_v267 main_v268 (broadcastInDim S50000x128 ![0, 1] bcast_S1x128_S50000x128_0_1 : (⟨S1x128, .f32⟩ : BufTy).Contents (Elt F) → (⟨S50000x128, .f32⟩ : BufTy).Contents (Elt F)),
    StableHlo.binary main_v268 main_v266 main_v269 (mulf : (⟨S50000x128, .f32⟩ : BufTy).Contents (Elt F) → (⟨S50000x128, .f32⟩ : BufTy).Contents (Elt F) → (⟨S50000x128, .f32⟩ : BufTy).Contents (Elt F)),
    StableHlo.nullary main_cst_37 (constant S_ .f32 0x3727C5AC#32),
    StableHlo.unary main_cst_37 main_v270 (broadcastInDim S128 ![] bcast_S_S128 : (⟨S_, .f32⟩ : BufTy).Contents (Elt F) → (⟨S128, .f32⟩ : BufTy).Contents (Elt F)),
    StableHlo.binary main_v263 main_v270 main_v271 (addf : (⟨S128, .f32⟩ : BufTy).Contents (Elt F) → (⟨S128, .f32⟩ : BufTy).Contents (Elt F) → (⟨S128, .f32⟩ : BufTy).Contents (Elt F)),
    StableHlo.unary main_v271 main_v272 (Host.rsqrt : (⟨S128, .f32⟩ : BufTy).Contents (Elt F) → (⟨S128, .f32⟩ : BufTy).Contents (Elt F)),
    StableHlo.unary main_v272 main_v273 (broadcastInDim S1x128 ![1] bcast_S128_S1x128_1 : (⟨S128, .f32⟩ : BufTy).Contents (Elt F) → (⟨S1x128, .f32⟩ : BufTy).Contents (Elt F)),
    StableHlo.unary main_v273 main_v274 (broadcastInDim S50000x128 ![0, 1] bcast_S1x128_S50000x128_0_1 : (⟨S1x128, .f32⟩ : BufTy).Contents (Elt F) → (⟨S50000x128, .f32⟩ : BufTy).Contents (Elt F)),
    StableHlo.binary main_v269 main_v274 main_v275 (mulf : (⟨S50000x128, .f32⟩ : BufTy).Contents (Elt F) → (⟨S50000x128, .f32⟩ : BufTy).Contents (Elt F) → (⟨S50000x128, .f32⟩ : BufTy).Contents (Elt F)),
    StableHlo.unary main_v259 main_v276 (broadcastInDim S1x128 ![1] bcast_S128_S1x128_1 : (⟨S128, .f32⟩ : BufTy).Contents (Elt F) → (⟨S1x128, .f32⟩ : BufTy).Contents (Elt F)),
    StableHlo.unary main_v276 main_v277 (broadcastInDim S50000x128 ![0, 1] bcast_S1x128_S50000x128_0_1 : (⟨S1x128, .f32⟩ : BufTy).Contents (Elt F) → (⟨S50000x128, .f32⟩ : BufTy).Contents (Elt F)),
    StableHlo.binary main_v275 main_v277 main_v278 (addf : (⟨S50000x128, .f32⟩ : BufTy).Contents (Elt F) → (⟨S50000x128, .f32⟩ : BufTy).Contents (Elt F) → (⟨S50000x128, .f32⟩ : BufTy).Contents (Elt F)),
    StableHlo.TRef.nullary main_call17.cst (constant S_ .f32 0x00000000#32),
    StableHlo.TRef.unary main_call17.cst main_call17.v0 (broadcastInDim S50000x128 ![] bcast_S_S50000x128),
    StableHlo.TRef.binary (.of main_v278) main_call17.v0 main_call17.v1 maximumf,
    StableHlo.unary main_arg7 main_v280 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v280 main_v281 rfl shapeCasts_S1x128x128_S128x128,
    StableHlo.binary main_v279 main_v281 main_v282 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v283 ((extractStridedSlice S1x128 ![3, 0] · slices_S4x128_S1x128_3_0) : (⟨S4x128, .f32⟩ : BufTy).Contents (Elt F) → (⟨S1x128, .f32⟩ : BufTy).Contents (Elt F)),
    StableHlo.reshape main_v283 main_v284 rfl shapeCasts_S1x128_S128,
    StableHlo.unary main_v284 main_v285 (broadcastInDim S1x128 ![1] bcast_S128_S1x128_1 : (⟨S128, .f32⟩ : BufTy).Contents (Elt F) → (⟨S1x128, .f32⟩ : BufTy).Contents (Elt F)),
    StableHlo.unary main_v285 main_v286 (broadcastInDim S50000x128 ![0, 1] bcast_S1x128_S50000x128_0_1 : (⟨S1x128, .f32⟩ : BufTy).Contents (Elt F) → (⟨S50000x128, .f32⟩ : BufTy).Contents (Elt F)),
    StableHlo.binary main_v282 main_v286 main_v287 (addf : (⟨S50000x128, .f32⟩ : BufTy).Contents (Elt F) → (⟨S50000x128, .f32⟩ : BufTy).Contents (Elt F) → (⟨S50000x128, .f32⟩ : BufTy).Contents (Elt F)),
    StableHlo.TRef.nullary main_call18.cst (constant S_ .f32 0x00000000#32),
    StableHlo.TRef.unary main_call18.cst main_call18.v0 (broadcastInDim S50000x128 ![] bcast_S_S50000x128),
    StableHlo.TRef.binary (.of main_v287) main_call18.v0 main_call18.v1 maximumf ]
theorem ops5_sub : (ops5 : List (HloOp τ sig (Elt F))).Forall fun op => op.bufs ⊆ tcRefs τ sig :=
  ⟨binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩

end Cert.ReferenceIdeal.RefRun

end
-- ==== Proof.RRun.lean ====
import proofs.«411739_j18880676233357_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) := ops0 ++ ops1 ++ ops2 ++ ops3 ++ ops4 ++ ops5

theorem part0_eq (c : Dev nD) : main_part0 (F := F) c = seq ops0 := by
  simp only [main_part0, fn_relu.body, fn_relu_0.body, fn_var.body, fn_where.body, seq, bind_assoc, pure_bind]
  rfl

theorem part1_eq (c : Dev nD) : main_part1 (F := F) c = seq ops1 := by
  simp only [main_part1, fn_relu.body, fn_relu_0.body, fn_var.body, fn_where.body, seq, bind_assoc, pure_bind]
  rfl

theorem part2_eq (c : Dev nD) : main_part2 (F := F) c = seq ops2 := by
  simp only [main_part2, fn_relu.body, fn_relu_0.body, fn_var.body, fn_where.body, seq, bind_assoc, pure_bind]
  rfl

theorem part3_eq (c : Dev nD) : main_part3 (F := F) c = seq ops3 := by
  simp only [main_part3, fn_relu.body, fn_relu_0.body, fn_var.body, fn_where.body, seq, bind_assoc, pure_bind]
  rfl

theorem part4_eq (c : Dev nD) : main_part4 (F := F) c = seq ops4 := by
  simp only [main_part4, fn_relu.body, fn_relu_0.body, fn_var.body, fn_where.body, seq, bind_assoc, pure_bind]
  rfl

theorem part5_eq (c : Dev nD) : main_part5 (F := F) c = seq ops5 := by
  simp only [main_part5, fn_relu.body, fn_relu_0.body, fn_var.body, fn_where.body, seq, bind_assoc, pure_bind]

theorem main_eq (c : Dev nD) : main (F := F) c = seq ops := by
  simp only [main, ops, seq_append, bind_assoc, part0_eq, part1_eq, part2_eq, part3_eq, part4_eq, part5_eq]

-- Running a concatenation is running its parts in turn.
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

-- A property of every operation of the six windows holds of every operation of the program.
theorem ops_all {p : HloOp τ sig (Elt F) → Prop} (h0 : ops0.Forall p) (h1 : ops1.Forall p) (h2 : ops2.Forall p)
    (h3 : ops3.Forall p) (h4 : ops4.Forall p) (h5 : ops5.Forall p) : ∀ op ∈ ops, p op :=
  List.forall_iff_forall_mem.mp (List.forall_append.mpr ⟨List.forall_append.mpr ⟨List.forall_append.mpr
    ⟨List.forall_append.mpr ⟨List.forall_append.mpr ⟨h0, h1⟩, h2⟩, h3⟩, h4⟩, h5⟩)

theorem ops_fresh : ∀ op ∈ (ops : List (HloOp τ sig (Elt F))), op.fresh = ∅ := by
  refine ops_all ?_ ?_ ?_ ?_ ?_ ?_ <;> (simp only [List.Forall]; repeat' constructor)

theorem scopedRefs_eq : (Finset.univ.filter fun b : Ref sig .tc => b.isScoped) = ∅ := by decide
theorem scopedSems_eq : (Finset.univ.filter fun sm : SemLoc sig => sm.isScoped .tc) = ∅ := by decide

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq
    (fun _ => List.forall_iff_forall_mem.mpr (ops_all ops0_sub ops1_sub ops2_sub ops3_sub ops4_sub ops5_sub)) m ρ (fun _ => ops_fresh)

/-- No operation of the stretch writes a reference of index below n. -/
def Keeps (n : Nat) (L : List (HloOp τ sig (Elt F))) : Prop :=
  ∀ op ∈ L, ∀ r : Ref sig .tc, r.idx.val < n → Proc.devRef (τ := τ) .tc r ∉ op.writes

-- Distinct references are distinct buffers, so an operation whose one result has index n or more writes none below n.
theorem keepsBelow_of_writes {n : Nat} {op : HloOp τ sig (Elt F)} {y : Ref sig .tc}
    (hw : op.writes = {Proc.devRef .tc y}) (hy : n ≤ y.idx.val) (r : Ref sig .tc) (hr : r.idx.val < n) :
    Proc.devRef (τ := τ) .tc r ∉ op.writes := by
  intro h
  rw [hw, Finset.mem_singleton] at h
  have e : r = y := Proc.devRef_injective _ h
  subst e
  omega

variable {n : Nat} {L L' : List (HloOp τ sig (Elt F))}

theorem Keeps.app (h : Keeps n L) (h' : Keeps n L') : Keeps n (L ++ L') :=
  fun op m => (List.mem_append.mp m).elim (h op) (h' op)
theorem Keeps.take (h : Keeps n L) (k : Nat) : Keeps n (L.take k) := fun op m => h op (List.mem_of_mem_take m)
theorem Keeps.drop (h : Keeps n L) (k : Nat) : Keeps n (L.drop k) := fun op m => h op (List.mem_of_mem_drop m)
theorem Keeps.mono {m : Nat} (h : Keeps n L) (hm : m ≤ n) : Keeps m L :=
  fun op hop r hr => h op hop r (Nat.lt_of_lt_of_le hr hm)

-- A stretch that writes nothing below n leaves every buffer below n as it was.
theorem keep (hL : Keeps n L) (V : Valuation τ sig (Elt F)) (r : Ref sig .tc) (hr : r.idx.val < n) :
    after L V (Proc.devRef .tc r) = V (Proc.devRef .tc r) :=
  after_of_forall_not_mem L V fun op hop => hL op hop r hr

-- The arguments have index below 11 and the two index vectors 12 and 14; every later result has index 15 or more.
theorem ops0_keep : Keeps 11 (ops0 : List (HloOp τ sig (Elt F))) := List.forall_iff_forall_mem.mp <| by
  simp only [List.Forall]
  repeat' apply And.intro
  all_goals exact keepsBelow_of_writes rfl (by decide)

theorem ops0_low : Keeps 15 (ops0.drop 4 : List (HloOp τ sig (Elt F))) := List.forall_iff_forall_mem.mp <| by
  simp only [List.Forall, List.drop_succ_cons, List.drop_zero]
  repeat' apply And.intro
  all_goals exact keepsBelow_of_writes rfl (by decide)

theorem ops1_low : Keeps 15 (ops1 : List (HloOp τ sig (Elt F))) := List.forall_iff_forall_mem.mp <| by
  simp only [List.Forall]
  repeat' apply And.intro
  all_goals exact keepsBelow_of_writes rfl (by decide)

theorem ops2_low : Keeps 15 (ops2 : List (HloOp τ sig (Elt F))) := List.forall_iff_forall_mem.mp <| by
  simp only [List.Forall]
  repeat' apply And.intro
  all_goals exact keepsBelow_of_writes rfl (by decide)

theorem ops3_low : Keeps 15 (ops3 : List (HloOp τ sig (Elt F))) := List.forall_iff_forall_mem.mp <| by
  simp only [List.Forall]
  repeat' apply And.intro
  all_goals exact keepsBelow_of_writes rfl (by decide)

theorem ops4_low : Keeps 15 (ops4 : List (HloOp τ sig (Elt F))) := List.forall_iff_forall_mem.mp <| by
  simp only [List.Forall]
  repeat' apply And.intro
  all_goals exact keepsBelow_of_writes rfl (by decide)

theorem ops5_low : Keeps 15 (ops5 : List (HloOp τ sig (Elt F))) := List.forall_iff_forall_mem.mp <| by
  simp only [List.Forall]
  repeat' apply And.intro
  all_goals exact keepsBelow_of_writes rfl (by decide)

theorem arg_kept (V : Valuation τ sig (Elt F)) (r : Ref sig .tc) (hr : r.idx.val < 11) :
    after ops V (Proc.devRef .tc r) = V (Proc.devRef .tc r) :=
  keep (((((ops0_keep.app (ops1_low.mono (by decide))).app (ops2_low.mono (by decide))).app (ops3_low.mono (by decide))).app
    (ops4_low.mono (by decide))).app (ops5_low.mono (by decide))) V r hr

/-- The contents of the buffers below 15: the eleven arguments and the two index vectors. -/
def low (V : Valuation τ sig (Elt F)) (r : Ref sig .tc) (_ : r.idx.val < 15) := V (Proc.devRef .tc r)

theorem low_after (hL : Keeps 15 L) (V : Valuation τ sig (Elt F)) : low (after L V) = low V := by
  funext r hr
  exact keep hL V r hr

end Cert.ReferenceIdeal.RefRun

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev Mat (n m : Nat) := Fin n → Fin m → EReal

abbrev Row := Fin 128 → EReal

abbrev cur {n m : Nat} (A : (⟨2, ![n, m]⟩ : Shape).Idx → EReal) : Mat n m := fun r j => A (ix2 r j)

abbrev unc {n m : Nat} (f : Mat n m) : (⟨2, ![n, m]⟩ : Shape).Idx → EReal := fun i => f (i 0) (i 1)

abbrev cur1 {m : Nat} (a : (⟨1, ![m]⟩ : Shape).Idx → EReal) : Fin m → EReal := fun j => a (ix1 j)

theorem unc_cur {n m : Nat} (A : (⟨2, ![n, m]⟩ : Shape).Idx → EReal) : unc (cur A) = A := by
  funext i; exact congrArg A (eq_ix2 i).symm

theorem eq_of_cur_eq {n m : Nat} {A B : (⟨2, ![n, m]⟩ : Shape).Idx → EReal} (h : cur A = cur B) : A = B := by
  rw [← unc_cur A, ← unc_cur B, h]

structure Folds where

  rows : Mat 50000 128 → Mat 640000 128

  agg : Mat 640000 128 → Mat 50000 128

  colsum : Mat 50000 128 → Row

def nF : EReal := Ideal.ofBits .f32 0x47435000#32

def ndF : EReal := nF - FloatOps.sitofp (F := Ideal) .f32 (0#32 : BitVec 32)

def guard : BitVec 1 := FloatOps.cmpf (F := Ideal) .ogt ndF (Ideal.ofBits .f32 0x00000000#32)

def junk : EReal := Ideal.ofBits .f32 0x7FC00000#32

def eps : EReal := Ideal.ofBits .f32 0x3727C5AC#32

variable (Φ : Folds)

def mean (h : Mat 50000 128) : Row := fun j => Ideal.div (Φ.colsum h j) nF

def csq (h : Mat 50000 128) : Mat 50000 128 := fun r k => (h r k - mean Φ h k) * (h r k - mean Φ h k)

def var (h : Mat 50000 128) : Row := fun j => Scalar.select guard (Ideal.div (Φ.colsum (csq Φ h) j) ndF) junk

def bn (h : Mat 50000 128) (mu va g be : Row) : Mat 50000 128 :=
  fun r j => g j * (h r j - mu j) * Ideal.rsqrt (va j + eps) + be j

def bnSelf (h : Mat 50000 128) (g be : Row) : Mat 50000 128 := bn h (mean Φ h) (var Φ h) g be

def relu {n : Nat} (h : Mat n 128) : Mat n 128 := fun r j => max (h r j) 0

def lin (h : Mat 50000 128) (w : Mat 128 128) (b : Row) : Mat 50000 128 :=
  fun r j => (∑ k : Fin 128, h r k * w k j) + b j

def msg (zg ea : Mat 640000 128) : Mat 640000 128 := fun e j => max (zg e j + ea e j) 0

def self_plus (z agg : Mat 50000 128) : Mat 50000 128 := fun r j => z r j + agg r j

def tail (h1 : Mat 50000 128) (mu va g1 be1 : Row) (w2 : Mat 128 128) (b2 : Row) : Mat 50000 128 :=
  relu (lin (relu (bn h1 mu va g1 be1)) w2 b2)

def layer (z : Mat 50000 128) (ea : Mat 640000 128) (w1 : Mat 128 128) (b1 g1 be1 : Row) (w2 : Mat 128 128) (b2 : Row) :
    Mat 50000 128 :=
  let h1 := lin (self_plus z (Φ.agg (msg (Φ.rows z) ea))) w1 b1
  tail h1 (mean Φ h1) (var Φ h1) g1 be1 w2 b2

def net (x : Mat 50000 128) (ea : Mat 640000 128) (W1 : Fin 4 → Mat 128 128) (b1 g1 be1 : Fin 4 → Row)
    (W2 : Fin 4 → Mat 128 128) (b2 : Fin 4 → Row) (bg bb : Fin 3 → Row) : Mat 50000 128 :=
  let z1 := bnSelf Φ (layer Φ x ea (W1 0) (b1 0) (g1 0) (be1 0) (W2 0) (b2 0)) (bg 0) (bb 0)
  let z2 := bnSelf Φ (layer Φ z1 ea (W1 1) (b1 1) (g1 1) (be1 1) (W2 1) (b2 1)) (bg 1) (bb 1)
  let z3 := bnSelf Φ (layer Φ z2 ea (W1 2) (b1 2) (g1 2) (be1 2) (W2 2) (b2 2)) (bg 2) (bb 2)
  layer Φ z3 ea (W1 3) (b1 3) (g1 3) (be1 3) (W2 3) (b2 3)

abbrev slab (W : (⟨3, ![4, 128, 128]⟩ : Shape).Idx → EReal) (i : Fin 4) : Mat 128 128 := fun k j => W (ix3 i k j)

abbrev prow {n : Nat} (B : (⟨2, ![n, 128]⟩ : Shape).Idx → EReal) (i : Fin n) : Row := fun j => B (ix2 i j)

end Cert.Spec

end
-- ==== Proof.KFolds.lean ====
import proofs.«411739_j18880676233357_1_alg».proof.Proof.Gen.KernelIdeal
import proofs.«411739_j18880676233357_1_alg».proof.Proof.Spec

noncomputable section

namespace Cert.KernelIdeal.Val

open Cert.KernelIdeal Cert.KernelIdeal.Gen Cert.Spec Idealize.ShloMosaic

def idxOf (src : IVec S640000 32) : IVec S640000x1 32 :=
  broadcastInDim S640000x1 ![0] bcast_S640000_S640000x1_0
    (select (cmpi .slt src (broadcastInDim S640000 ![] bcast_S_S640000 (constantI S_ 32 0#32)))
      (addi src (broadcastInDim S640000 ![] bcast_S_S640000 (constantI S_ 32 50000#32))) src)

def ΦK (src dst : IVec S640000 32) : Folds where
  rows z := cur (Host.gather gather_S50000x128_S640000x1_S640000x128_1_0_n_n_0_1_1128 (unc z) (idxOf src))
  agg u := cur (Host.scatterAdd (F := Ideal) scatter_S50000x128_S640000x1_S640000x128_1_0_0_1
    (broadcastInDim S50000x128 ![] bcast_S_S50000x128 (constant (F := Ideal) S_ .f32 0x00000000#32))
    (broadcastInDim S640000x1 ![0] bcast_S640000_S640000x1_0 dst) (unc u))
  colsum h := cur1 (Host.reduceAdd (F := Ideal) (unc h) (constant (F := Ideal) S_ .f32 0x00000000#32) reducesTo_S50000x128_S128_d0 h_S_)

def srcOf (ei : IVec S2x640000 32) : IVec S640000 32 :=
  shapeCast S640000 (extractStridedSlice S1x640000 ![0, 0] ei slices_S2x640000_S1x640000_0_0) shapeCasts_S1x640000_S640000

def dstOf (ei : IVec S2x640000 32) : IVec S640000 32 :=
  shapeCast S640000 (extractStridedSlice S1x640000 ![1, 0] ei slices_S2x640000_S1x640000_1_0) shapeCasts_S1x640000_S640000

def SrcVecOk (src : IVec S640000 32) : Prop :=
  ∀ e : Fin 640000, 0 ≤ (src (ValueIdx.ix1 e)).toInt ∧ (src (ValueIdx.ix1 e)).toInt < 50000

end Cert.KernelIdeal.Val

end
-- ==== Proof.RFolds.lean ====
import proofs.«411739_j18880676233357_1_alg».proof.Proof.Gen.ReferenceIdeal
import proofs.«411739_j18880676233357_1_alg».proof.Proof.Spec

noncomputable section

namespace Cert.ReferenceIdeal.Val

open Cert.ReferenceIdeal Cert.ReferenceIdeal.Gen Cert.Spec Idealize.ShloMosaic

def idxOf (src : IVec S640000 32) : IVec S640000x1 32 :=
  broadcastInDim S640000x1 ![0] bcast_S640000_S640000x1_0
    (select (cmpi .slt src (broadcastInDim S640000 ![] bcast_S_S640000 (constantI S_ 32 0#32)))
      (addi src (broadcastInDim S640000 ![] bcast_S_S640000 (constantI S_ 32 50000#32))) src)

def ΦR (src dst : IVec S640000 32) : Folds where
  rows z := cur (Host.gather gather_S50000x128_S640000x1_S640000x128_1_0_n_n_0_1_1128 (unc z) (idxOf src))
  agg u := cur (Host.scatterAdd (F := Ideal) scatter_S50000x128_S640000x1_S640000x128_1_0_0_1
    (broadcastInDim S50000x128 ![] bcast_S_S50000x128 (constant (F := Ideal) S_ .f32 0x00000000#32))
    (broadcastInDim S640000x1 ![0] bcast_S640000_S640000x1_0 dst) (unc u))
  colsum h := cur1 (Host.reduceAdd (F := Ideal) (unc h) (constant (F := Ideal) S_ .f32 0x00000000#32) reducesTo_S50000x128_S128_d0 h_S_)

def srcOf (ei : IVec S2x640000 32) : IVec S640000 32 :=
  shapeCast S640000 (extractStridedSlice S1x640000 ![0, 0] ei slices_S2x640000_S1x640000_0_0) shapeCasts_S1x640000_S640000

def dstOf (ei : IVec S2x640000 32) : IVec S640000 32 :=
  shapeCast S640000 (extractStridedSlice S1x640000 ![1, 0] ei slices_S2x640000_S1x640000_1_0) shapeCasts_S1x640000_S640000

def SrcVecOk (src : IVec S640000 32) : Prop :=
  ∀ e : Fin 640000, 0 ≤ (src (ValueIdx.ix1 e)).toInt ∧ (src (ValueIdx.ix1 e)).toInt < 50000

end Cert.ReferenceIdeal.Val

end
-- ==== Proof.WordCmp.lean ====
import Idealize.ShloMosaic.Lib.ValueIdx
import Idealize.ShloMosaic.Lib.Affine
import Idealize.ShloMosaic.Lib.StableHlo.Predicate

namespace Cert.Word

open Idealize.ShloMosaic

theorem toInt_zero : (0#32 : BitVec 32).toInt = 0 := by decide
theorem toInt_49999 : (49999#32 : BitVec 32).toInt = 49999 := by decide
theorem toInt_50000 : (50000#32 : BitVec 32).toInt = 50000 := by decide

variable {s : Shape}

theorem cmpi_apply {w : Nat} (p : CmpIPredicate) (v u : IVec s w) (i : s.Idx) : cmpi p v u i = IntOp.cmpi p (v i) (u i) := rfl
theorem andi_apply {w : Nat} (v u : IVec s w) (i : s.Idx) : andi v u i = IntOp.andi (v i) (u i) := rfl

section Vector
variable {v u : IVec s 32}

-- A word whose signed value lies in [0, 50000) compares with 0, 49999 and 50000 as its value does.
theorem cmpi_slt_zero (i : s.Idx) (h : 0 ≤ (v i).toInt ∧ (v i).toInt < 50000) (hu : u i = 0#32) :
    cmpi .slt v u i = 0#1 := by
  rw [cmpi_apply, hu]
  refine ValueIdx.eq_zero_of_ne_one fun e => ?_
  rw [IntOp.cmpi_slt, toInt_zero] at e
  omega
theorem cmpi_sge_zero (i : s.Idx) (h : 0 ≤ (v i).toInt ∧ (v i).toInt < 50000) (hu : u i = 0#32) :
    cmpi .sge v u i = 1#1 := by rw [cmpi_apply, hu, IntOp.cmpi_sge, toInt_zero]; exact h.1
theorem cmpi_sle_top (i : s.Idx) (h : 0 ≤ (v i).toInt ∧ (v i).toInt < 50000) (hu : u i = 49999#32) :
    cmpi .sle v u i = 1#1 := by rw [cmpi_apply, hu, IntOp.cmpi_sle, toInt_49999]; omega

theorem cmpi_sge_zero_all (h : ∀ i, 0 ≤ (v i).toInt ∧ (v i).toInt < 50000) (hu : ∀ i, u i = 0#32) :
    cmpi .sge v u = fun _ => 1#1 := funext fun i => cmpi_sge_zero i (h i) (hu i)
theorem cmpi_sle_top_all (h : ∀ i, 0 ≤ (v i).toInt ∧ (v i).toInt < 50000) (hu : ∀ i, u i = 49999#32) :
    cmpi .sle v u = fun _ => 1#1 := funext fun i => cmpi_sle_top i (h i) (hu i)

-- Conversely, a lane where both compares came out 1 holds a word in [0, 50000).
theorem inRange_of_cmpi (i : s.Idx) {lo hi : IVec s 32} (hlo : lo i = 0#32) (hhi : hi i = 50000#32)
    (h : andi (cmpi .sge v lo) (cmpi .slt v hi) i = 1#1) : 0 ≤ (v i).toInt ∧ (v i).toInt < 50000 := by
  rw [andi_apply, cmpi_apply, cmpi_apply, hlo, hhi, IntOp.andi_eq_one, IntOp.cmpi_sge, IntOp.cmpi_slt, toInt_zero, toInt_50000] at h
  exact h

end Vector

variable {α : Type}

theorem select_of_one (c : IVec s 1) (a b : s.Idx → α) (i : s.Idx) (h : c i = 1#1) : select c a b i = a i := by
  rw [ValueIdx.select_apply, h]; exact ValueIdx.select_one _ _
theorem select_all_one (c : IVec s 1) (a b : s.Idx → α) (h : ∀ i, c i = 1#1) : select c a b = a :=
  funext fun i => select_of_one c a b i (h i)

-- Adding 50000 where the word is negative changes no node index.
theorem wrap_eq_self {v z n : IVec s 32} (h : ∀ i, 0 ≤ (v i).toInt ∧ (v i).toInt < 50000) (hz : ∀ i, z i = 0#32) :
    select (cmpi .slt v z) (addi v n) v = v :=
  funext fun i => by rw [ValueIdx.select_apply, cmpi_slt_zero i (h i) (hz i)]; exact ValueIdx.select_zero _ _

end Cert.Word
-- ==== Proof.PreSrc.lean ====
import proofs.«411739_j18880676233357_1_alg».proof.Pre_finite_inputs
import proofs.«411739_j18880676233357_1_alg».proof.Proof.Gen.Pre_finite_inputs
import proofs.«411739_j18880676233357_1_alg».proof.Proof.KFolds
import proofs.«411739_j18880676233357_1_alg».proof.Proof.WordCmp
import Idealize.ShloMosaic.Lib.ReduceAll
import Idealize.ShloMosaic.Lib.StableHlo.Predicate

noncomputable section

namespace Cert.PreSrc

open Idealize.ShloMosaic Cert.Pre_finite_inputs Cert.Pre_finite_inputs.Facts

instance : Subsingleton S_.Idx := ⟨fun a b => funext fun d => d.elim0⟩

-- An all-reduction by `and` that is 1 had a 1 in every lane, and there both compares hold.
theorem range_of_all {s t u : Shape} {axes : List (Fin s.rank)} [Subsingleton t.Idx] (v lo hi : IVec s 32)
    (hlo : ∀ i, lo i = 0#32) (hhi : ∀ i, hi i = 50000#32) (init : IVec u 1) (hr : s.ReducesTo axes t) (hu : 0 < u.numel)
    (j : t.Idx) (e : Host.reduce IntOp.andi (andi (cmpi .sge v lo) (cmpi .slt v hi)) init hr hu j = 1#1) (i : s.Idx) :
    0 ≤ (v i).toInt ∧ (v i).toInt < 50000 :=
  Cert.Word.inRange_of_cmpi i (hlo i) (hhi i) (Host.reduce_andi_all _ init hr hu j e i)

-- The precondition's last conjunct is that all-reduction over row 0 of the edge index.
theorem srcVecOk_of_pre (a0 : FVec Ideal S50000x128 .f32) (a1 : IVec S2x640000 32)
    (a2 : FVec Ideal S640000x128 .f32) (a3 : FVec Ideal S4x128x128 .f32) (a4 a5 a6 : FVec Ideal S4x128 .f32)
    (a7 : FVec Ideal S4x128x128 .f32) (a8 : FVec Ideal S4x128 .f32) (a9 a10 : FVec Ideal S3x128 .f32)
    (h : Cert.Pre_finite_inputs.fn (F := Ideal) a0 a1 a2 a3 a4 a5 a6 a7 a8 a9 a10 = fun _ => 1#1) :
    Cert.KernelIdeal.Val.SrcVecOk (Cert.KernelIdeal.Val.srcOf a1) := fun e => by
  have e' := congrFun h ValueIdx.ix0
  dsimp only [Cert.Pre_finite_inputs.fn, Cert.Pre_finite_inputs.fn_part1, Cert.Pre_finite_inputs.fn_part2, Cert.Pre_finite_inputs.fn_part3] at e'
  exact range_of_all (Cert.KernelIdeal.Val.srcOf a1) _ _ (fun _ => rfl) (fun _ => rfl) _ _ _ _ (IntOp.andi_eq_one.1 e').2 (ValueIdx.ix1 e)

end Cert.PreSrc

end
-- ==== Proof.KHost.lean ====
import proofs.«411739_j18880676233357_1_alg».proof.Proof.KFolds
import proofs.«411739_j18880676233357_1_alg».proof.Proof.WordCmp
import Idealize.ShloMosaic.Lib.StableHlo.Run
import Idealize.ShloMosaic.Lib.ValueLayout
import Idealize.ShloMosaic.Lib.KernelVsHost
import Idealize.ShloMosaic.Lib.IdealHost
import Idealize.ShloMosaic.PureOps.Ideal.Laws
import Idealize.ShloMosaic.PureOps.Reduce

noncomputable section

namespace Cert.KernelIdeal.Val

open Cert.KernelIdeal Cert.KernelIdeal.Gen Cert.Spec
open Idealize.ShloMosaic Idealize.ShloMosaic.TcCoe Idealize.SL.Sem Idealize.ShloMosaic.ValueIdx

-- The only column of a one-row matrix that q can name is q itself.
theorem bcast_row_apply {α : Type} {m : Nat} (h : (⟨1, ![m]⟩ : Shape).BroadcastsInDim ⟨2, ![1, m]⟩ ![1])
    (v : (⟨1, ![m]⟩ : Shape).Idx → α) (u : Fin 1) (q : Fin m) :
    broadcastInDim ⟨2, ![1, m]⟩ ![1] h v (ix2 u q) = v (ix1 q) :=
  broadcastInDim_apply _ h v _ _ (fun a => match a with
    | ⟨0, _⟩ => by
      show q.val = if m = 1 then 0 else q.val
      split
      · next h1 => have := q.isLt; omega
      · rfl)

-- A conjunction of ones is one: by induction along the fold.
theorem reduce_andi_one {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  have key : ∀ l : List s.Idx, l.foldl (fun r i => IntOp.andi r (x i)) 1#1 = 1#1 := by
    intro l
    induction l with
    | nil => rfl
    | cons a l ih =>
      rw [List.foldl_cons, hx a, show IntOp.andi (1#1 : BitVec 1) 1#1 = 1#1 from by decide]
      exact ih
  rw [Host.reduce_eq_foldl, hi]
  exact key _

section Terms
variable {F : FTy → Type} [FloatOps F]

def takeTerm (src : IVec S640000 32) (z : FVec F S50000x128 .f32) : FVec F S640000x128 .f32 :=
  select
    (broadcastInDim S640000x128 ![0] bcast_S640000_S640000x128_0
      (Host.reduce IntOp.andi
        (andi (cmpi .sge (idxOf src) (broadcastInDim S640000x1 ![] bcast_S_S640000x1 (constantI S_ 32 0#32)))
          (cmpi .sle (idxOf src)
            (broadcastInDim S640000x1 ![0, 1] bcast_S1x1_S640000x1_0_1
              (broadcastInDim S1x1 ![1] bcast_S1_S1x1_1 (constantI S1 32 49999#32)))))
        (constantI S_ 1 1#1) reducesTo_S640000x1_S640000_d1 h_S_))
    (Host.gather gather_S50000x128_S640000x1_S640000x128_1_0_n_n_0_1_1128 z (idxOf src))
    (broadcastInDim S640000x128 ![] bcast_S_S640000x128 (constant S_ .f32 0x7FC00000#32))

def aggTerm (dst : IVec S640000 32) (u : FVec F S640000x128 .f32) : FVec F S50000x128 .f32 :=
  Host.scatterAdd scatter_S50000x128_S640000x1_S640000x128_1_0_0_1
    (broadcastInDim S50000x128 ![] bcast_S_S50000x128 (constant S_ .f32 0x00000000#32))
    (broadcastInDim S640000x1 ![0] bcast_S640000_S640000x1_0 dst) u

def meanTerm (x : FVec F S50000x128 .f32) : FVec F S1x128 .f32 :=
  Host.divf
    (broadcastInDim S1x128 ![1] bcast_S128_S1x128_1
      (Host.reduceAdd x (constant S_ .f32 0x00000000#32) reducesTo_S50000x128_S128_d0 h_S_))
    (broadcastInDim S1x128 ![] bcast_S_S1x128 (constant S_ .f32 0x47435000#32))

def ndTerm (c : IVec S_ 32) : FVec F S_ .f32 := subf (constant S_ .f32 0x47435000#32) (sitofp .f32 c)

def sqTerm (x : FVec F S50000x128 .f32) : FVec F S50000x128 .f32 :=
  mulf (subf x (broadcastInDim S50000x128 ![0, 1] bcast_S1x128_S50000x128_0_1 (meanTerm x)))
    (subf x (broadcastInDim S50000x128 ![0, 1] bcast_S1x128_S50000x128_0_1 (meanTerm x)))

def varTerm (x : FVec F S50000x128 .f32) (c : IVec S_ 32) : FVec F S1x128 .f32 :=
  select (broadcastInDim S1x128 ![] bcast_S_S1x128 (cmpf .ogt (ndTerm (F := F) c) (constant S_ .f32 0x00000000#32)))
    (Host.divf
      (broadcastInDim S1x128 ![1] bcast_S128_S1x128_1
        (Host.reduceAdd (sqTerm x) (constant S_ .f32 0x00000000#32) reducesTo_S50000x128_S128_d0 h_S_))
      (broadcastInDim S1x128 ![] bcast_S_S1x128 (ndTerm (F := F) c)))
    (broadcastInDim S1x128 ![] bcast_S_S1x128 (id (constant S_ .f32 0x7FC00000#32)))

abbrev slabTerm (o : Nat) (hs : S4x128x128.Slices ![o, 0, 0] S1x128x128) (W : FVec F S4x128x128 .f32) : FVec F S128x128 .f32 :=
  shapeCast S128x128 (extractStridedSlice S1x128x128 ![o, 0, 0] W hs) shapeCasts_S1x128x128_S128x128

abbrev prowTerm {n : Nat} (o : Nat) (hs : (⟨2, ![n, 128]⟩ : Shape).Slices ![o, 0] S1x128) (B : FVec F ⟨2, ![n, 128]⟩ .f32) :
    FVec F S1x128 .f32 :=
  broadcastInDim S1x128 ![1] bcast_S128_S1x128_1 (shapeCast S128 (extractStridedSlice S1x128 ![o, 0] B hs) shapeCasts_S1x128_S128)

end Terms

-- A node index is not below zero, so the wrap leaves it alone.
theorem idxOf_inRange {src : IVec S640000 32} (hs : SrcVecOk src) (k : S640000x1.Idx) :
    0 ≤ (idxOf src k).toInt ∧ (idxOf src k).toInt < 50000 := by
  have hall : ∀ i : S640000.Idx, 0 ≤ (src i).toInt ∧ (src i).toInt < 50000 := fun i => by
    rw [eq_ix1 i]; exact hs (i 0)
  unfold idxOf
  rw [Cert.Word.wrap_eq_self (v := src) (z := broadcastInDim S640000 ![] bcast_S_S640000 (constantI S_ 32 0#32))
    (n := broadcastInDim S640000 ![] bcast_S_S640000 (constantI S_ 32 50000#32)) hall (fun _ => rfl)]
  exact hall _

-- Every index passes both range tests, so the mask is all ones and the select keeps the gathered rows.
theorem cur_takeTerm {src : IVec S640000 32} (dst : IVec S640000 32) (hs : SrcVecOk src) (z : FVec Ideal S50000x128 .f32) :
    cur (takeTerm src z) = (ΦK src dst).rows (cur z) := by
  have e : takeTerm src z = Host.gather gather_S50000x128_S640000x1_S640000x128_1_0_n_n_0_1_1128 z (idxOf src) := by
    unfold takeTerm
    refine Cert.Word.select_all_one _ _ _ fun i => ?_
    show Host.reduce IntOp.andi _ _ _ _ _ = 1#1
    refine reduce_andi_one _ _ _ _ (fun k => ?_) (fun _ => rfl) _
    rw [Cert.Word.andi_apply,
      Cert.Word.cmpi_sge_zero (u := broadcastInDim S640000x1 ![] bcast_S_S640000x1 (constantI S_ 32 0#32)) k
        (idxOf_inRange hs k) rfl,
      Cert.Word.cmpi_sle_top (u := broadcastInDim S640000x1 ![0, 1] bcast_S1x1_S640000x1_0_1
        (broadcastInDim S1x1 ![1] bcast_S1_S1x1_1 (constantI S1 32 49999#32))) k (idxOf_inRange hs k) rfl]
    decide
  rw [e]
  show _ = cur (Host.gather gather_S50000x128_S640000x1_S640000x128_1_0_n_n_0_1_1128 (unc (cur z)) (idxOf src))
  rw [unc_cur]

theorem cur_aggTerm (src dst : IVec S640000 32) (u : FVec Ideal S640000x128 .f32) :
    cur (aggTerm dst u) = (ΦK src dst).agg (cur u) := by
  show _ = cur (aggTerm (F := Ideal) dst (unc (cur u)))
  rw [unc_cur]

theorem cur_meanTerm (src dst : IVec S640000 32) (x : FVec Ideal S50000x128 .f32) (u : Fin 1) :
    cur (meanTerm x) u = mean (ΦK src dst) (cur x) := by
  funext j
  show Ideal.div (broadcastInDim S1x128 ![1] bcast_S128_S1x128_1
      (Host.reduceAdd x (constant S_ .f32 0x00000000#32) reducesTo_S50000x128_S128_d0 h_S_) (ix2 u j)) nF
    = Ideal.div (Host.reduceAdd (F := Ideal) (φ := .f32) (unc (cur x)) (constant (F := Ideal) S_ .f32 0x00000000#32)
      reducesTo_S50000x128_S128_d0 h_S_ (ix1 j)) nF
  rw [bcast_row_apply, unc_cur]

theorem sqTerm_eq (src dst : IVec S640000 32) (x : FVec Ideal S50000x128 .f32) :
    sqTerm x = unc (csq (ΦK src dst) (cur x)) := by
  funext i
  obtain ⟨r, k, rfl⟩ : ∃ (r : Fin 50000) (k : Fin 128), i = ix2 r k := ⟨i 0, i 1, eq_ix2 i⟩
  show (x (ix2 r k) - broadcastInDim S50000x128 ![0, 1] bcast_S1x128_S50000x128_0_1 (meanTerm x) (ix2 r k))
        * (x (ix2 r k) - broadcastInDim S50000x128 ![0, 1] bcast_S1x128_S50000x128_0_1 (meanTerm x) (ix2 r k))
      = (x (ix2 r k) - mean (ΦK src dst) (cur x) k) * (x (ix2 r k) - mean (ΦK src dst) (cur x) k)
  rw [broadcastInDim_oneRow_apply,
    show meanTerm x (ix2 (0 : Fin 1) k) = mean (ΦK src dst) (cur x) k from congrFun (cur_meanTerm src dst x 0) k]

theorem cur_varTerm (src dst : IVec S640000 32) (x : FVec Ideal S50000x128 .f32) (u : Fin 1) :
    cur (varTerm x (constantI S_ 32 0#32)) u = var (ΦK src dst) (cur x) := by
  funext j
  show Scalar.select guard
      (Ideal.div (broadcastInDim S1x128 ![1] bcast_S128_S1x128_1
        (Host.reduceAdd (sqTerm x) (constant S_ .f32 0x00000000#32) reducesTo_S50000x128_S128_d0 h_S_) (ix2 u j)) ndF) junk = _
  rw [bcast_row_apply, sqTerm_eq src dst x]
  rfl

theorem cur_slab (o : Nat) (W : FVec Ideal S4x128x128 .f32) (hs : S4x128x128.Slices ![o, 0, 0] S1x128x128) (ℓ : Fin 4)
    (hℓ : ℓ.val = o) : cur (slabTerm o hs W) = slab W ℓ := by
  funext k j
  exact (shapeCast_1ab_ab_apply _ _ k j).trans
    (extractStridedSlice_apply _ _ hs _ _ (fun ax => match ax with
      | ⟨0, _⟩ => by show ℓ.val = o + 0; omega
      | ⟨1, _⟩ => (Nat.zero_add _).symm
      | ⟨2, _⟩ => (Nat.zero_add _).symm))

theorem cur_prow {n : Nat} (o : Nat) (B : FVec Ideal ⟨2, ![n, 128]⟩ .f32) (hs : (⟨2, ![n, 128]⟩ : Shape).Slices ![o, 0] S1x128)
    (ℓ : Fin n) (hℓ : ℓ.val = o) (u : Fin 1) : cur (prowTerm o hs B) u = prow B ℓ := by
  funext j
  exact (bcast_row_apply _ _ u j).trans
    ((shapeCast_1a_a_apply _ _ j).trans (slice2_axis0_apply o B hs 0 j ℓ (by rw [hℓ]; rfl)))

-- Every buffer is its term of earlier ones; read as the specification's functions, the terms compose into one layer.
theorem layer_of_terms {src dst dst' : IVec S640000 32} (hs : SrcVecOk src) {o : Nat} {ℓ : Fin 4} {ℓ' : Fin 3}
    (hℓ : ℓ.val = o) (hℓ' : ℓ'.val = o)
    {hW : S4x128x128.Slices ![o, 0, 0] S1x128x128} {hB : (⟨2, ![4, 128]⟩ : Shape).Slices ![o, 0] S1x128}
    {hG : (⟨2, ![3, 128]⟩ : Shape).Slices ![o, 0] S1x128}
    {x x' a8 a14 a14' a14'' a31 a31' a31'' a43 : FVec Ideal S50000x128 .f32} {ea ea' a4 a5 : FVec Ideal S640000x128 .f32}
    {w1 w1' w2 w2' : FVec Ideal S4x128x128 .f32} {b1 b1' g1 g1' e1 e1' b2 b2' : FVec Ideal ⟨2, ![4, 128]⟩ .f32}
    {g g' e e' : FVec Ideal ⟨2, ![3, 128]⟩ .f32} {a10 a27 : FVec Ideal S128x128 .f32}
    {a13 a18 a18' a19 a19' a22 a25 a30 a35 a35' a36 a36' a39 a42 : FVec Ideal S1x128 .f32} {c2 c3 : IVec S_ 32}
    (r4 : a4 = takeTerm src x)
    (r5 : cur a5 = msg (cur a4) (cur ea')) (kea : ea' = ea)
    (r8 : a8 = aggTerm dst' a5) (kd : dst' = dst)
    (r10 : a10 = slabTerm o hW w1') (k10 : w1' = w1)
    (r13 : a13 = prowTerm o hB b1') (k13 : b1' = b1)
    (r14 : cur a14 = lin (self_plus (cur x') (cur a8)) (cur a10) (cur a13 0)) (kx : x' = x)
    (r18 : a18 = meanTerm a14)
    (r19 : a19 = varTerm a14' c2) (k14 : a14' = a14) (kc2 : c2 = constantI S_ 32 0#32)
    (r22 : a22 = prowTerm o hB g1') (k22 : g1' = g1)
    (r25 : a25 = prowTerm o hB e1') (k25 : e1' = e1)
    (r27 : a27 = slabTerm o hW w2') (k27 : w2' = w2)
    (r30 : a30 = prowTerm o hB b2') (k30 : b2' = b2)
    (r31 : cur a31 = tail (cur a14'') (cur a18' 0) (cur a19' 0) (cur a22 0) (cur a25 0) (cur a27) (cur a30 0))
    (k14' : a14'' = a14) (k18 : a18' = a18) (k19 : a19' = a19)
    (r35 : a35 = meanTerm a31)
    (r36 : a36 = varTerm a31' c3) (k31 : a31' = a31) (kc3 : c3 = constantI S_ 32 0#32)
    (r39 : a39 = prowTerm o hG g') (k39 : g' = g)
    (r42 : a42 = prowTerm o hG e') (k42 : e' = e)
    (r43 : cur a43 = bn (cur a31'') (cur a35' 0) (cur a36' 0) (cur a39 0) (cur a42 0))
    (k31' : a31'' = a31) (k35 : a35' = a35) (k36 : a36' = a36) :
    cur a43 = bnSelf (ΦK src dst) (layer (ΦK src dst) (cur x) (cur ea) (slab w1 ℓ) (prow b1 ℓ) (prow g1 ℓ) (prow e1 ℓ)
      (slab w2 ℓ) (prow b2 ℓ)) (prow g ℓ') (prow e ℓ') := by
  revert hℓ hℓ'
  subst_vars
  intro hℓ hℓ'
  rw [r43, cur_meanTerm src dst', cur_varTerm src dst', cur_prow o _ hG ℓ' hℓ', cur_prow o _ hG ℓ' hℓ', r31,
    cur_meanTerm src dst', cur_varTerm src dst', cur_prow o _ hB ℓ hℓ, cur_prow o _ hB ℓ hℓ, cur_slab o _ hW ℓ hℓ,
    cur_prow o _ hB ℓ hℓ, r14, cur_slab o _ hW ℓ hℓ, cur_prow o _ hB ℓ hℓ, cur_aggTerm src, r5, cur_takeTerm dst' hs]
  rfl

theorem writes_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

macro "writes_sub" ops:ident : tactic => `(tactic| (
  simp only [$ops:ident, List.Forall, StableHlo.nullary_writes, StableHlo.unary_writes, StableHlo.binary_writes,
    StableHlo.ternary_writes, StableHlo.reshape_writes]
  repeat' apply And.intro
  all_goals exact writes_sub_of_mem (by decide)))

abbrev ins : List (Ref sig .tc) :=
  [main_arg0, main_arg1, main_arg2, main_arg3, main_arg4, main_arg5, main_arg6, main_arg7, main_arg8, main_arg9,
    main_arg10, main_v1, main_v3]

end Cert.KernelIdeal.Val

end
-- ==== Proof.KHost0.lean ====
import proofs.«411739_j18880676233357_1_alg».proof.Proof.Gen.KernelIdeal.Launch
import proofs.«411739_j18880676233357_1_alg».proof.Proof.KHost

set_option maxRecDepth 16384

noncomputable section

namespace Cert.KernelIdeal.Val.L0

open Cert.KernelIdeal Cert.KernelIdeal.Gen Cert.KernelIdeal.Val Cert.Spec
open Idealize.ShloMosaic Idealize.ShloMosaic.TcCoe Idealize.SL.Sem Idealize.ShloMosaic.ValueIdx

section Runs
variable {F : FTy → Type} [FloatOps F] (U : Valuation τ sig (Elt F))

theorem run0_1_v4 : StableHlo.after (hostOps0_1 (F := F)) U main_v4 = takeTerm (U main_v1) (U main_arg0) := by
  after_results_simp <;> (try simp only [StableHlo.TRef.ofBuf, StableHlo.TRef.toBuf, cast_eq]) <;> rfl

theorem run1_v8 : StableHlo.after (hostOps1 (F := F)) U main_v8 = aggTerm (U main_v3) (U main_v5) := by
  after_results; rfl

theorem run1_v10 : StableHlo.after (hostOps1 (F := F)) U main_v10
    = slabTerm 0 slices_S4x128x128_S1x128x128_0_0_0 (U main_arg3) := by
  after_results; rfl

theorem run1_v13 : StableHlo.after (hostOps1 (F := F)) U main_v13 = prowTerm 0 slices_S4x128_S1x128_0_0 (U main_arg4) := by
  after_results; rfl

theorem run2_v18 : StableHlo.after (hostOps2 (F := F)) U main_v18 = meanTerm (U main_v14) := by
  after_results; rfl

theorem run2_c : StableHlo.after (hostOps2 (F := F)) U main_c = constantI S_ 32 0#32 := by
  after_results

theorem run2_1_v19 : StableHlo.after (hostOps2_1 (F := F)) U main_v19 = varTerm (U main_v14) (U main_c) := by
  after_results_simp <;> (try simp only [StableHlo.TRef.ofBuf, StableHlo.TRef.toBuf, cast_eq]) <;> rfl

theorem run2_2_v22 : StableHlo.after (hostOps2_2 (F := F)) U main_v22 = prowTerm 0 slices_S4x128_S1x128_0_0 (U main_arg5) := by
  after_results; rfl

theorem run2_2_v25 : StableHlo.after (hostOps2_2 (F := F)) U main_v25 = prowTerm 0 slices_S4x128_S1x128_0_0 (U main_arg6) := by
  after_results; rfl

theorem run2_2_v27 : StableHlo.after (hostOps2_2 (F := F)) U main_v27
    = slabTerm 0 slices_S4x128x128_S1x128x128_0_0_0 (U main_arg7) := by
  after_results; rfl

theorem run2_2_v30 : StableHlo.after (hostOps2_2 (F := F)) U main_v30 = prowTerm 0 slices_S4x128_S1x128_0_0 (U main_arg8) := by
  after_results; rfl

theorem run3_v35 : StableHlo.after (hostOps3 (F := F)) U main_v35 = meanTerm (U main_v31) := by
  after_results; rfl

theorem run3_c : StableHlo.after (hostOps3 (F := F)) U main_c_4 = constantI S_ 32 0#32 := by
  after_results

theorem run3_1_v36 : StableHlo.after (hostOps3_1 (F := F)) U main_v36 = varTerm (U main_v31) (U main_c_4) := by
  after_results_simp <;> (try simp only [StableHlo.TRef.ofBuf, StableHlo.TRef.toBuf, cast_eq]) <;> rfl

theorem run3_2_v39 : StableHlo.after (hostOps3_2 (F := F)) U main_v39 = prowTerm 0 slices_S3x128_S1x128_0_0 (U main_arg9) := by
  after_results; rfl

theorem run3_2_v42 : StableHlo.after (hostOps3_2 (F := F)) U main_v42 = prowTerm 0 slices_S3x128_S1x128_0_0 (U main_arg10) := by
  after_results; rfl

end Runs

section KeepHost
variable {F : FTy → Type} [FloatOps F] (U : Valuation τ sig (Elt F)) {b : Ref sig .tc}

abbrev wr0_1 : List (Ref sig .tc) :=
  [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4]
theorem keep0_1 (hb : b ∉ wr0_1) : StableHlo.after (hostOps0_1 (F := F)) U b = U b :=
  StableHlo.after_of_writes_sub _ _ (W := wr0_1) (by writes_sub hostOps0_1) hb

abbrev wr1 : List (Ref sig .tc) :=
  [main_cst, main_v6, main_v7, main_v8, main_v9, main_v10, main_v11, main_v12, main_v13]
theorem keep1 (hb : b ∉ wr1) : StableHlo.after (hostOps1 (F := F)) U b = U b :=
  StableHlo.after_of_writes_sub _ _ (W := wr1) (by writes_sub hostOps1) hb

abbrev wr2 : List (Ref sig .tc) :=
  [main_cst_0, main_v15, main_v16, main_cst_1, main_v17, main_v18, main_c]
theorem keep2 (hb : b ∉ wr2) : StableHlo.after (hostOps2 (F := F)) U b = U b :=
  StableHlo.after_of_writes_sub _ _ (W := wr2) (by writes_sub hostOps2) hb

abbrev wr2_1 : List (Ref sig .tc) :=
  [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v19]
theorem keep2_1 (hb : b ∉ wr2_1) : StableHlo.after (hostOps2_1 (F := F)) U b = U b :=
  StableHlo.after_of_writes_sub _ _ (W := wr2_1) (by writes_sub hostOps2_1) hb

abbrev wr2_2 : List (Ref sig .tc) :=
  [main_v20, main_v21, main_v22, main_v23, main_v24, main_v25, main_v26, main_v27, main_v28, main_v29, main_v30]
theorem keep2_2 (hb : b ∉ wr2_2) : StableHlo.after (hostOps2_2 (F := F)) U b = U b :=
  StableHlo.after_of_writes_sub _ _ (W := wr2_2) (by writes_sub hostOps2_2) hb

abbrev wr3 : List (Ref sig .tc) :=
  [main_cst_2, main_v32, main_v33, main_cst_3, main_v34, main_v35, main_c_4]
theorem keep3 (hb : b ∉ wr3) : StableHlo.after (hostOps3 (F := F)) U b = U b :=
  StableHlo.after_of_writes_sub _ _ (W := wr3) (by writes_sub hostOps3) hb

abbrev wr3_1 : List (Ref sig .tc) :=
  [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v36]
theorem keep3_1 (hb : b ∉ wr3_1) : StableHlo.after (hostOps3_1 (F := F)) U b = U b :=
  StableHlo.after_of_writes_sub _ _ (W := wr3_1) (by writes_sub hostOps3_1) hb

abbrev wr3_2 : List (Ref sig .tc) :=
  [main_v37, main_v38, main_v39, main_v40, main_v41, main_v42]
theorem keep3_2 (hb : b ∉ wr3_2) : StableHlo.after (hostOps3_2 (F := F)) U b = U b :=
  StableHlo.after_of_writes_sub _ _ (W := wr3_2) (by writes_sub hostOps3_2) hb

end KeepHost

end Cert.KernelIdeal.Val.L0

end
-- ==== Proof.KRegEdge.lean ====
import proofs.«411739_j18880676233357_1_alg».proof.Proof.Gen.KernelIdeal.Frame
import proofs.«411739_j18880676233357_1_alg».proof.Proof.Spec
import Idealize.ShloMosaic.Lib.Pipeline.Value
import Idealize.ShloMosaic.Lib.ValueIdx
import Idealize.ShloMosaic.PureOps.Ideal.Laws

noncomputable section

namespace Cert.KernelIdeal.RegVal

open Cert.KernelIdeal Cert.KernelIdeal.Gen Cert.Spec
open Idealize.ShloMosaic Idealize.ShloMosaic.TcCoe Idealize.SL.Sem

variable (V : (c : Dev nD) → (b : Ref sig .tc) → Buf (Elt Ideal) ((c : Thread nD τ).loc b))

/-- The edge messages of two arrays of one shape: the positive part of their sum, entry by entry. -/
abbrev edge_msg {s : Shape} (a b : s.Idx → EReal) : s.Idx → EReal := fun i => max (a i + b i) 0

theorem edge_hz : (![0, 0] : Fin 2 → Nat) = fun _ => 0 := funext fun a => by fin_cases a <;> rfl

/-- The body's output block is the messages of its two input blocks. -/
theorem edge_out (x0 x1 : Vec Ideal S8000x128 .f32) : out0_2 (F := Ideal) x0 x1 = edge_msg x0 x1 := by
  unfold out0_2
  rw [View.canon_unit_zero edge_hz]
  simp only [View.ld_unit_zero (S := S8000x128) edge_hz]
  funext j
  unfold k0_pay1
  refine (ValueIdx.maximumf_apply _ _ j).trans ?_
  rw [ValueIdx.addf_apply, ValueIdx.broadcast_apply, shapeCast_self]
  exact congrArg (max (x0 j + x1 j)) Ideal.ofBits_zero_f32

/-- Taking a block commutes with the entrywise message: the three arrays are cut into the same blocks. -/
theorem edge_block (A B : S640000x128.Idx → EReal) (t : Fin cfg0.N) {X : Vec Ideal S8000x128 .f32}
    (h : X = out0_2 (((cfg0.win 0).blk t).view.read (Elt Ideal) A) (((cfg0.win 1).blk t).view.read (Elt Ideal) B)) :
    (cfg0.win 2).cut (grid0.coords t) X = ((cfg0.win 2).blk t).view.read (Elt Ideal) (edge_msg A B) := by
  rw [h, edge_out]; rfl

theorem edge_idx : ∀ t : Fin cfg0.N, win0_2.index t (0 : Fin 2) = t.val :=
  (by decide +kernel : ∀ t : Fin grid0.N, _)

/-- The 80 blocks of 8000 rows tile the array: row r lies in block r / 8000. -/
theorem edge_cover (i : S640000x128.Idx) :
    ∃ t : Fin cfg0.N, (cfg0.win 2).flush t = true ∧ i ∈ ((cfg0.win 2).blk t).view.set := by
  have hi0 : (i 0).val < 640000 := (i 0).isLt
  have hi1 : (i 1).val < 128 := (i 1).isLt
  obtain ⟨t, ht⟩ : ∃ t : Fin cfg0.N, t.val = (i 0).val / 8000 :=
    ⟨⟨(i 0).val / 8000, by rw [show cfg0.N = 80 from N_0]; omega⟩, rfl⟩
  have e0 := edge_idx t
  refine ⟨t, flush0_2 t, ?_⟩
  show i ∈ ((View.whole main_v5).slice (win0_2.rect t)).set
  rw [View.set_slice_whole, Rect.mem_set_unit]
  intro a
  match a with
  | ⟨0, _⟩ => show win0_2.index t (0 : Fin 2) * 8000 ≤ (i 0).val ∧ (i 0).val < win0_2.index t (0 : Fin 2) * 8000 + 8000; omega
  | ⟨1, _⟩ => show 0 * 128 ≤ (i 1).val ∧ (i 1).val < 0 * 128 + 128; omega

/-- Each region leaves the messages of its two entry arrays: every block is right and the blocks tile the array (region 0's geometry, up to the arrays' names). -/
theorem arr0 (c : Dev nD) :
    cur ((dat0 (F := Ideal) V c).arrAt 2 cfg0.N) = msg (cur (V c main_v4)) (cur (V c main_arg2)) :=
  congrArg cur ((dat0 (F := Ideal) V c).arrAt_eq_of_cover 2 (edge_msg (V c main_v4) (V c main_arg2))
    (fun t _ => edge_block _ _ t (after0_2 V c t)) edge_cover)

theorem arr4 (c : Dev nD) :
    cur ((dat4 (F := Ideal) V c).arrAt 2 cfg4.N) = msg (cur (V c main_v44)) (cur (V c main_arg2)) :=
  congrArg cur ((dat4 (F := Ideal) V c).arrAt_eq_of_cover 2 (edge_msg (V c main_v44) (V c main_arg2))
    (fun t _ => edge_block _ _ t (after4_2 V c t)) edge_cover)

theorem arr8 (c : Dev nD) :
    cur ((dat8 (F := Ideal) V c).arrAt 2 cfg8.N) = msg (cur (V c main_v84)) (cur (V c main_arg2)) :=
  congrArg cur ((dat8 (F := Ideal) V c).arrAt_eq_of_cover 2 (edge_msg (V c main_v84) (V c main_arg2))
    (fun t _ => edge_block _ _ t (after8_2 V c t)) edge_cover)

theorem arr12 (c : Dev nD) :
    cur ((dat12 (F := Ideal) V c).arrAt 2 cfg12.N) = msg (cur (V c main_v124)) (cur (V c main_arg2)) :=
  congrArg cur ((dat12 (F := Ideal) V c).arrAt_eq_of_cover 2 (edge_msg (V c main_v124) (V c main_arg2))
    (fun t _ => edge_block _ _ t (after12_2 V c t)) edge_cover)

end Cert.KernelIdeal.RegVal

end
-- ==== Proof.KRegStage1.lean ====
import proofs.«411739_j18880676233357_1_alg».proof.Proof.Gen.KernelIdeal.Frame
import proofs.«411739_j18880676233357_1_alg».proof.Proof.Spec
import Idealize.ShloMosaic.Lib.StackMember
import Idealize.ShloMosaic.Lib.ValueLayout

set_option maxRecDepth 16384

noncomputable section

namespace Cert.KernelIdeal.RegVal

open Cert.KernelIdeal Cert.KernelIdeal.Gen Cert.Spec
open Idealize.ShloMosaic Idealize.ShloMosaic.TcCoe Idealize.SL.Sem
open Idealize.ShloMosaic.ValueIdx

/-- The dimension numbers are the plain matrix product's, and into a zero accumulator nothing is added to its sum. -/
theorem stage1_mm_apply (L : FVec Ideal S5000x128 .bf16) (R : FVec Ideal S128x128 .bf16) (p : Fin 5000) (q : Fin 128) :
    matmul dot_S5000x128_S128x128_S5000x128_1_0_0_1_n_n none L R (constant S5000x128 .f32 0x00000000#32) (ix2 p q)
      = ∑ k : Fin 128, L (ix2 p k) * R (ix2 k q) :=
  (congrFun (matmul_zero_eq_dotGeneral _ none L R) (ix2 p q)).trans (StackMember.dotGeneral_plain_apply none L R p q)

/-- Changes of float format are the identity on the extended reals, so the stored value is the product plus the bias row. -/
theorem stage1_pay1_apply (x0 x1 : Vec Ideal S5000x128 .f32) (w : Vec Ideal S128x128 .f32) (b : Vec Ideal S1x128 .f32)
    (p : Fin 5000) (q : Fin 128) :
    k1_pay1 (F := Ideal) x0 x1 w b (ix2 p q)
      = (∑ k : Fin 128, (x0 (ix2 p k) + x1 (ix2 p k)) * w (ix2 k q)) + b (ix2 0 q) := by
  unfold k1_pay1
  simp only [shapeCast_self]
  exact congrArg₂ (· + ·) (stage1_mm_apply _ _ p q) (broadcastTo_1b_ab_apply _ _ p q)

/-- The later regions' bodies differ from the first's by an identity reshape of the first operand only. -/
theorem stage1_pay5_apply (x0 x1 : Vec Ideal S5000x128 .f32) (w : Vec Ideal S128x128 .f32) (b : Vec Ideal S1x128 .f32)
    (p : Fin 5000) (q : Fin 128) :
    k5_pay1 (F := Ideal) x0 x1 w b (ix2 p q)
      = (∑ k : Fin 128, (x0 (ix2 p k) + x1 (ix2 p k)) * w (ix2 k q)) + b (ix2 0 q) := by
  unfold k5_pay1
  simp only [shapeCast_self]
  exact congrArg₂ (· + ·) (stage1_mm_apply _ _ p q) (broadcastTo_1b_ab_apply _ _ p q)

theorem stage1_hz : (![0, 0] : Fin 2 → Nat) = fun _ => 0 := funext fun a => by fin_cases a <;> rfl

/-- The first linear layer of (own row + aggregated messages), as one array of the node shape. -/
abbrev stage1_G (a0 a1 : S50000x128.Idx → EReal) (w : S128x128.Idx → EReal) (b : S1x128.Idx → EReal) : S50000x128.Idx → EReal :=
  unc (lin (self_plus (cur a0) (cur a1)) (cur w) ((cur b) 0))

/-- Decided over the ten points; it gives the row offset of a block and the tiling. -/
theorem stage1_idx : ∀ t : Fin cfg1.N, win1_4.index t (0 : Fin 2) = t.val :=
  (by decide +kernel : ∀ t : Fin grid1.N, _)

/-- A row block starts 5000 · (block index) rows down at column 0 and has unit strides. -/
theorem stage1_rows (a : S50000x128.Idx → EReal) (t : Fin cfg1.N) (y : S5000x128.Idx) (i : S50000x128.Idx)
    (h0 : (i 0).val = win1_4.index t 0 * 5000 + (y 0).val) (h1 : (i 1).val = (y 1).val) :
    ((cfg1.win 4).blk t).view.read (Elt Ideal) a y = a i := by
  rw [View.read_apply]
  show a _ = a i
  refine congrArg a (Shape.idx_ext₂ ?_ ?_)
  · show win1_4.index t (0 : Fin 2) * 5000 + 1 * (y 0).val = (i 0).val; rw [h0]; omega
  · show 0 * 128 + 1 * (y 1).val = (i 1).val; rw [h1]; omega

/-- The weight's block starts at the origin and has the array's shape, -/
theorem stage1_weight (a : S128x128.Idx → EReal) (t : Fin cfg1.N) (y : S128x128.Idx) :
    ((cfg1.win 2).blk t).view.read (Elt Ideal) a y = a y := by
  rw [View.read_apply]
  show a _ = a y
  exact congrArg a (Shape.idx_ext₂ (by show 0 * 128 + 1 * (y 0).val = (y 0).val; omega) (by show 0 * 128 + 1 * (y 1).val = (y 1).val; omega))

/-- and so does the bias row's. -/
theorem stage1_bias (a : S1x128.Idx → EReal) (t : Fin cfg1.N) (y : S1x128.Idx) :
    ((cfg1.win 3).blk t).view.read (Elt Ideal) a y = a y := by
  rw [View.read_apply]
  show a _ = a y
  exact congrArg a (Shape.idx_ext₂ (by show 0 * 1 + 1 * (y 0).val = (y 0).val; omega) (by show 0 * 128 + 1 * (y 1).val = (y 1).val; omega))

/-- Stated over arbitrary arrays and any body with the stored value above, so that all four regions are instances. -/
theorem stage1_flushed
    (pay : Vec Ideal S5000x128 .f32 → Vec Ideal S5000x128 .f32 → Vec Ideal S128x128 .f32 → Vec Ideal S1x128 .f32 → FVec Ideal S5000x128 .f32)
    (hpay : ∀ x0 x1 w b p q, pay x0 x1 w b (ix2 p q) = (∑ k : Fin 128, (x0 (ix2 p k) + x1 (ix2 p k)) * w (ix2 k q)) + b (ix2 0 q))
    (a0 a1 : S50000x128.Idx → EReal) (aw : S128x128.Idx → EReal) (ab : S1x128.Idx → EReal) (t : Fin cfg1.N) :
    (cfg1.win 4).cut (grid1.coords t)
        (View.canon [⟨r1_0, pay (View.ld (((cfg1.win 0).blk t).view.read (Elt Ideal) a0) r1_0) (View.ld (((cfg1.win 1).blk t).view.read (Elt Ideal) a1) r1_0)
          (View.ld (((cfg1.win 2).blk t).view.read (Elt Ideal) aw) r1_1) (View.ld (((cfg1.win 3).blk t).view.read (Elt Ideal) ab) r1_2)⟩])
      = ((cfg1.win 4).blk t).view.read (Elt Ideal) (stage1_G a0 a1 aw ab) := by
  rw [View.canon_unit_zero stage1_hz]
  simp only [View.ld_unit_zero (S := S5000x128) stage1_hz, View.ld_unit_zero (S := S128x128) stage1_hz,
    View.ld_unit_zero (S := S1x128) stage1_hz]
  funext j
  obtain ⟨p, q, rfl⟩ : ∃ (p : Fin 5000) (q : Fin 128), j = ix2 p q := ⟨j 0, j 1, eq_ix2 j⟩
  have hr : win1_4.index t 0 * 5000 + p.val < 50000 := by
    have := lt_of_lt_of_eq t.isLt N_1; rw [stage1_idx t]; omega
  refine (hpay _ _ _ _ p q).trans ((congrArg₂ (· + ·) (Finset.sum_congr rfl fun k _ => ?_) (stage1_bias ab t _)).trans
    (stage1_rows (stage1_G a0 a1 aw ab) t (ix2 p q) (ix2 ⟨_, hr⟩ q) rfl rfl).symm)
  exact congrArg₂ (· * ·) (congrArg₂ (· + ·) (stage1_rows a0 t (ix2 p k) (ix2 ⟨_, hr⟩ k) rfl rfl)
    (stage1_rows a1 t (ix2 p k) (ix2 ⟨_, hr⟩ k) rfl rfl)) (stage1_weight aw t _)

/-- Row r lies in the block of point r / 5000. -/
theorem stage1_cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, lt_of_lt_of_eq (by omega : (i 0).val / 5000 < 10) N_1.symm⟩, rfl⟩
  refine ⟨t, flush1_4 t, ?_⟩
  show i ∈ ((View.whole main_v14).slice (win1_4.rect t)).set
  rw [View.set_slice_whole, Rect.mem_set_unit]
  intro a
  match a with
  | ⟨0, _⟩ =>
    show win1_4.index t (0 : Fin 2) * 5000 ≤ (i 0).val ∧ (i 0).val < win1_4.index t (0 : Fin 2) * 5000 + 5000
    rw [stage1_idx t, ht]; omega
  | ⟨1, _⟩ =>
    show 0 * 128 ≤ (i 1).val ∧ (i 1).val < 0 * 128 + 128
    omega

variable (V : (c : Dev nD) → (b : Ref sig .tc) → Buf (Elt Ideal) ((c : Thread nD τ).loc b))

/-- Each region's blocks and stored value are the first region's by unfolding, over its own arrays. -/
theorem arr1 (c : Dev nD) :
    cur ((dat1 (F := Ideal) V c).arrAt 4 cfg1.N) = lin (self_plus (cur (V c main_arg0)) (cur (V c main_v8))) (cur (V c main_v10)) ((cur (V c main_v13)) 0) :=
  congrArg cur ((dat1 (F := Ideal) V c).arrAt_eq_of_cover 4 (stage1_G (V c main_arg0) (V c main_v8) (V c main_v10) (V c main_v13))
    (fun t _ => (congrArg ((cfg1.win 4).cut (grid1.coords t)) (after1_4 V c t)).trans <| stage1_flushed k1_pay1 stage1_pay1_apply (V c main_arg0) (V c main_v8) (V c main_v10) (V c main_v13) t) stage1_cover)

theorem arr5 (c : Dev nD) :
    cur ((dat5 (F := Ideal) V c).arrAt 4 cfg5.N) = lin (self_plus (cur (V c main_v43)) (cur (V c main_v48))) (cur (V c main_v50)) ((cur (V c main_v53)) 0) :=
  congrArg cur ((dat5 (F := Ideal) V c).arrAt_eq_of_cover 4 (stage1_G (V c main_v43) (V c main_v48) (V c main_v50) (V c main_v53))
    (fun t _ => (congrArg ((cfg5.win 4).cut (grid5.coords t)) (after5_4 V c t)).trans <| stage1_flushed k5_pay1 stage1_pay5_apply (V c main_v43) (V c main_v48) (V c main_v50) (V c main_v53) t) stage1_cover)

theorem arr9 (c : Dev nD) :
    cur ((dat9 (F := Ideal) V c).arrAt 4 cfg9.N) = lin (self_plus (cur (V c main_v83)) (cur (V c main_v88))) (cur (V c main_v90)) ((cur (V c main_v93)) 0) :=
  congrArg cur ((dat9 (F := Ideal) V c).arrAt_eq_of_cover 4 (stage1_G (V c main_v83) (V c main_v88) (V c main_v90) (V c main_v93))
    (fun t _ => (congrArg ((cfg9.win 4).cut (grid9.coords t)) (after9_4 V c t)).trans <| stage1_flushed k5_pay1 stage1_pay5_apply (V c main_v83) (V c main_v88) (V c main_v90) (V c main_v93) t) stage1_cover)

theorem arr13 (c : Dev nD) :
    cur ((dat13 (F := Ideal) V c).arrAt 4 cfg13.N) = lin (self_plus (cur (V c main_v123)) (cur (V c main_v128))) (cur (V c main_v130)) ((cur (V c main_v133)) 0) :=
  congrArg cur ((dat13 (F := Ideal) V c).arrAt_eq_of_cover 4 (stage1_G (V c main_v123) (V c main_v128) (V c main_v130) (V c main_v133))
    (fun t _ => (congrArg ((cfg13.win 4).cut (grid13.coords t)) (after13_4 V c t)).trans <| stage1_flushed k5_pay1 stage1_pay5_apply (V c main_v123) (V c main_v128) (V c main_v130) (V c main_v133) t) stage1_cover)

end Cert.KernelIdeal.RegVal

end
-- ==== Proof.KRegStage2.lean ====
import proofs.«411739_j18880676233357_1_alg».proof.Proof.Gen.KernelIdeal.Frame
import proofs.«411739_j18880676233357_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegVal.S2

open Cert.KernelIdeal Cert.KernelIdeal.Gen Cert.Spec
open Idealize.ShloMosaic Idealize.ShloMosaic.TcCoe Idealize.SL.Sem Idealize.ShloMosaic.ValueIdx

/-- Into a zero accumulator, the product at row p and column q is the sum over the 128 inner positions. -/
theorem matmul_at (a : FVec Ideal S5000x128 .bf16) (b : FVec Ideal S128x128 .bf16) (p : Fin 5000) (q : Fin 128) :
    FloatOps.matmul dot_S5000x128_S128x128_S5000x128_1_0_0_1_n_n none a b (constant (F := Ideal) S5000x128 .f32 0x00000000#32) (ix2 p q)
      = ∑ k : Fin 128, a (ix2 p k) * b (ix2 k q) := by
  rw [Ideal.matmul_constant_zero_apply]
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have hl : dot_S5000x128_S128x128_S5000x128_1_0_0_1_n_n.lhsIdx (ix2 p q)
      ((contrEquiv1 dot_S5000x128_S128x128_S5000x128_1_0_0_1_n_n 128 rfl rfl).symm k) = ix2 p k :=
    funext fun ax => Fin.ext (match ax with | ⟨0, _⟩ => rfl | ⟨1, _⟩ => hk)
  have hr : dot_S5000x128_S128x128_S5000x128_1_0_0_1_n_n.rhsIdx (ix2 p q)
      ((contrEquiv1 dot_S5000x128_S128x128_S5000x128_1_0_0_1_n_n 128 rfl rfl).symm k) = ix2 k q :=
    funext fun ax => Fin.ext (match ax with | ⟨0, _⟩ => hk | ⟨1, _⟩ => rfl)
  rw [hl, hr]

theorem rsqrt_at {s : Shape} {φ : FTy} (x : FVec Ideal s φ) (i : s.Idx) : rsqrt x i = Ideal.rsqrt (x i) := rfl

theorem zero_word : (FloatOps.ofBits (F := Ideal) .f32 0x00000000#32 : EReal) = 0 := Ideal.ofBits_zero_f32

/-- Every step but the product is pointwise and a parameter row is one row repeated: with row p of the block row r of A, the block's arithmetic at (p, q) is the layer's second half at (r, q). -/
theorem pay_tail (x0 : Vec Ideal S5000x128 .f32) (x1 x2 x3 x4 : Vec Ideal S1x128 .f32) (x5 : Vec Ideal S128x128 .f32)
    (x6 : Vec Ideal S1x128 .f32) (A : S50000x128.Idx → EReal) (p : Fin 5000) (r : Fin 50000)
    (h : ∀ k, x0 (ix2 p k) = A (ix2 r k)) (q : Fin 128) :
    k2_pay1 (F := Ideal) x0 x2 x3 x1 x4 x5 x6 (ix2 p q)
      = tail (cur A) (cur x1 0) (cur x2 0) (cur x3 0) (cur x4 0) (cur x5) (cur x6 0) r q := by
  unfold k2_pay1
  simp only [maximumf_apply, addf_apply, mulf_apply, subf_apply, broadcast_apply, truncf_apply, matmul, matmul_at,
    shapeCast_self, broadcastTo_1b_ab_apply, rsqrt_at, zero_word, h]
  rfl

theorem hz : (![0, 0] : Fin 2 → Nat) = fun _ => 0 := funext fun a => by fin_cases a <;> rfl

/-- Block t of window w of the first region, read off an array. -/
abbrev rd (w : Fin cfg2.W) (t : Fin cfg2.N) (A : ((cfg2.win w).blk t).view.ty.Contents (Elt Ideal)) :
    ((cfg2.win w).xblock (cfg2.grid.coords t)).Idx → Elt Ideal (cfg2.win w).elt :=
  ((cfg2.win w).blk t).view.read (Elt Ideal) A

/-- At point t the two row-block windows sit at block (t, 0), the six parameter windows at block 0 on every axis. -/
theorem idx : ∀ t : Fin cfg2.N, win2_0.index t (0 : Fin 2) = t.val ∧ win2_0.index t (1 : Fin 2) = 0
    ∧ win2_7.index t (0 : Fin 2) = t.val ∧ win2_7.index t (1 : Fin 2) = 0
    ∧ (∀ a, win2_1.index t a = 0) ∧ (∀ a, win2_2.index t a = 0) ∧ (∀ a, win2_3.index t a = 0)
    ∧ (∀ a, win2_4.index t a = 0) ∧ (∀ a, win2_5.index t a = 0) ∧ (∀ a, win2_6.index t a = 0) ∧ t.val < 10 :=
  (by decide +kernel : ∀ t : Fin grid2.N, _)

/-- A parameter window's block is its whole array: at block 0 an element keeps its coordinates. -/
theorem par (t : Fin cfg2.N) (A1 A2 A3 A4 : S1x128.Idx → EReal) (A5 : S128x128.Idx → EReal) (A6 : S1x128.Idx → EReal) :
    rd 1 t A1 = A1 ∧ rd 2 t A2 = A2 ∧ rd 3 t A3 = A3 ∧ rd 4 t A4 = A4 ∧ rd 5 t A5 = A5 ∧ rd 6 t A6 = A6 := by
  obtain ⟨-, -, -, -, h1, h2, h3, h4, h5, h6, -⟩ := idx t
  exact ⟨funext fun y => congrArg A1 (funext fun a => Fin.ext (win2_1.rect_emb_val_of_index_zero t a (h1 a) y)),
    funext fun y => congrArg A2 (funext fun a => Fin.ext (win2_2.rect_emb_val_of_index_zero t a (h2 a) y)),
    funext fun y => congrArg A3 (funext fun a => Fin.ext (win2_3.rect_emb_val_of_index_zero t a (h3 a) y)),
    funext fun y => congrArg A4 (funext fun a => Fin.ext (win2_4.rect_emb_val_of_index_zero t a (h4 a) y)),
    funext fun y => congrArg A5 (funext fun a => Fin.ext (win2_5.rect_emb_val_of_index_zero t a (h5 a) y)),
    funext fun y => congrArg A6 (funext fun a => Fin.ext (win2_6.rect_emb_val_of_index_zero t a (h6 a) y))⟩

/-- Row p of point t's block, of the node array and of the output alike, is row 5000 t + p: the block point t leaves is those rows of the layer's second half. -/
theorem flushed (t : Fin cfg2.N) (A0 : S50000x128.Idx → EReal) (A1 A2 A3 A4 : S1x128.Idx → EReal) (A5 : S128x128.Idx → EReal)
    (A6 : S1x128.Idx → EReal) :
    (cfg2.win 7).cut (grid2.coords t)
        (out2_7 (F := Ideal) (rd 0 t A0) (rd 1 t A1) (rd 2 t A2) (rd 3 t A3) (rd 4 t A4) (rd 5 t A5) (rd 6 t A6))
      = ((cfg2.win 7).blk t).view.read (Elt Ideal)
          (unc (tail (cur A0) (cur A1 0) (cur A2 0) (cur A3 0) (cur A4 0) (cur A5) (cur A6 0))) := by
  obtain ⟨e0, e1, f0, f1, -, -, -, -, -, -, ht⟩ := idx t
  obtain ⟨g1, g2, g3, g4, g5, g6⟩ := par t A1 A2 A3 A4 A5 A6
  funext j
  obtain ⟨p, q, rfl⟩ : ∃ (p : Fin 5000) (q : Fin 128), j = ix2 p q := ⟨j 0, j 1, eq_ix2 j⟩
  have hr : t.val * 5000 + p.val < 50000 := by have := p.isLt; omega
  have hemb : ((cfg2.win 7).blk t).view.emb (ix2 p q) = (ix2 (⟨t.val * 5000 + p.val, hr⟩ : Fin 50000) q : S50000x128.Idx) := by
    funext a; apply Fin.ext
    match a with
    | ⟨0, _⟩ => show win2_7.index t (0 : Fin 2) * 5000 + 1 * p.val = t.val * 5000 + p.val; rw [f0]; omega
    | ⟨1, _⟩ => show win2_7.index t (1 : Fin 2) * 128 + 1 * q.val = q.val; rw [f1]; omega
  have h0 : ∀ k, rd 0 t A0 (ix2 p k) = A0 (ix2 (⟨t.val * 5000 + p.val, hr⟩ : Fin 50000) k) := fun k => by
    refine congrArg A0 (funext fun a => Fin.ext ?_)
    match a with
    | ⟨0, _⟩ => show win2_0.index t (0 : Fin 2) * 5000 + 1 * p.val = t.val * 5000 + p.val; rw [e0]; omega
    | ⟨1, _⟩ => show win2_0.index t (1 : Fin 2) * 128 + 1 * k.val = k.val; rw [e1]; omega
  show out2_7 (F := Ideal) _ _ _ _ _ _ _ (ix2 p q) = _
  rw [View.read_apply, hemb, g1, g2, g3, g4, g5, g6]
  unfold out2_7
  rw [View.canon_unit_zero hz]
  simp only [View.ld_unit_zero (S := S5000x128) hz, View.ld_unit_zero (S := S1x128) hz, View.ld_unit_zero (S := S128x128) hz]
  exact pay_tail (rd 0 t A0) A1 A2 A3 A4 A5 A6 A0 p _ h0 q

/-- The ten blocks tile the array: row r is in the block of point r / 5000. -/
theorem cover (i : S50000x128.Idx) : ∃ t : Fin cfg2.N, i ∈ ((cfg2.win 7).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, f0, f1, -⟩ := idx t
  refine ⟨t, ?_⟩
  show i ∈ ((View.whole main_v31).slice (win2_7.rect t)).set
  rw [View.set_slice_whole, Rect.mem_set_unit]
  intro a
  match a with
  | ⟨0, _⟩ => show win2_7.index t (0 : Fin 2) * 5000 ≤ (i 0).val ∧ (i 0).val < win2_7.index t (0 : Fin 2) * 5000 + 5000; rw [f0, ht]; omega
  | ⟨1, _⟩ => show win2_7.index t (1 : Fin 2) * 128 ≤ (i 1).val ∧ (i 1).val < win2_7.index t (1 : Fin 2) * 128 + 128; rw [f1]; omega

theorem cur_eq {n m : Nat} {A : (⟨2, ![n, m]⟩ : Shape).Idx → EReal} {f : Mat n m} (h : A = unc f) : cur A = f := h ▸ rfl

end Cert.KernelIdeal.RegVal.S2

namespace Cert.KernelIdeal.RegVal

open Cert.KernelIdeal Cert.KernelIdeal.Gen Cert.Spec
open Idealize.ShloMosaic Idealize.ShloMosaic.TcCoe Idealize.SL.Sem

variable (V : (c : Dev nD) → (b : Ref sig .tc) → Buf (Elt Ideal) ((c : Thread nD τ).loc b))

/-- A sibling region's windows have the first region's geometry and its block the same arithmetic, so the first region's lemmas apply to it as they stand. -/
theorem arr2 (c : Dev nD) :
    cur ((dat2 (F := Ideal) V c).arrAt 7 cfg2.N) = tail (cur (V c main_v14)) ((cur (V c main_v18)) 0) ((cur (V c main_v19)) 0) ((cur (V c main_v22)) 0) ((cur (V c main_v25)) 0) (cur (V c main_v27)) ((cur (V c main_v30)) 0) :=
  S2.cur_eq ((dat2 (F := Ideal) V c).arrAt_eq_of_cover 7 _
    (fun t _ => (congrArg ((cfg2.win 7).cut (grid2.coords t)) (after2_7 V c t)).trans (S2.flushed t (V c main_v14) (V c main_v18) (V c main_v19) (V c main_v22) (V c main_v25) (V c main_v27) (V c main_v30)))
    fun i => (S2.cover i).imp fun t h => ⟨flush2_7 t, h⟩)

theorem arr6 (c : Dev nD) :
    cur ((dat6 (F := Ideal) V c).arrAt 7 cfg6.N) = tail (cur (V c main_v54)) ((cur (V c main_v58)) 0) ((cur (V c main_v59)) 0) ((cur (V c main_v62)) 0) ((cur (V c main_v65)) 0) (cur (V c main_v67)) ((cur (V c main_v70)) 0) :=
  S2.cur_eq ((dat6 (F := Ideal) V c).arrAt_eq_of_cover 7 _
    (fun t _ => (congrArg ((cfg6.win 7).cut (grid6.coords t)) (after6_7 V c t)).trans (S2.flushed t (V c main_v54) (V c main_v58) (V c main_v59) (V c main_v62) (V c main_v65) (V c main_v67) (V c main_v70)))
    fun i => (S2.cover i).imp fun t h => ⟨flush6_7 t, h⟩)

theorem arr10 (c : Dev nD) :
    cur ((dat10 (F := Ideal) V c).arrAt 7 cfg10.N) = tail (cur (V c main_v94)) ((cur (V c main_v98)) 0) ((cur (V c main_v99)) 0) ((cur (V c main_v102)) 0) ((cur (V c main_v105)) 0) (cur (V c main_v107)) ((cur (V c main_v110)) 0) :=
  S2.cur_eq ((dat10 (F := Ideal) V c).arrAt_eq_of_cover 7 _
    (fun t _ => (congrArg ((cfg10.win 7).cut (grid10.coords t)) (after10_7 V c t)).trans (S2.flushed t (V c main_v94) (V c main_v98) (V c main_v99) (V c main_v102) (V c main_v105) (V c main_v107) (V c main_v110)))
    fun i => (S2.cover i).imp fun t h => ⟨flush10_7 t, h⟩)

theorem arr14 (c : Dev nD) :
    cur ((dat14 (F := Ideal) V c).arrAt 7 cfg14.N) = tail (cur (V c main_v134)) ((cur (V c main_v138)) 0) ((cur (V c main_v139)) 0) ((cur (V c main_v142)) 0) ((cur (V c main_v145)) 0) (cur (V c main_v147)) ((cur (V c main_v150)) 0) :=
  S2.cur_eq ((dat14 (F := Ideal) V c).arrAt_eq_of_cover 7 _
    (fun t _ => (congrArg ((cfg14.win 7).cut (grid14.coords t)) (after14_7 V c t)).trans (S2.flushed t (V c main_v134) (V c main_v138) (V c main_v139) (V c main_v142) (V c main_v145) (V c main_v147) (V c main_v150)))
    fun i => (S2.cover i).imp fun t h => ⟨flush14_7 t, h⟩)

end Cert.KernelIdeal.RegVal

end
-- ==== Proof.KRegStage3.lean ====
import proofs.«411739_j18880676233357_1_alg».proof.Proof.Gen.KernelIdeal.Frame
import proofs.«411739_j18880676233357_1_alg».proof.Proof.Spec
import Idealize.ShloMosaic.Lib.ValueLayout
import Idealize.ShloMosaic.PureOps.Ideal.Laws

noncomputable section

namespace Cert.KernelIdeal.RegVal

open Cert.KernelIdeal Cert.KernelIdeal.Gen Cert.Spec
open Idealize.ShloMosaic Idealize.ShloMosaic.TcCoe Idealize.SL.Sem
open Idealize.ShloMosaic.ValueIdx

variable (V : (c : Dev nD) → (b : Ref sig .tc) → Buf (Elt Ideal) ((c : Thread nD τ).loc b))

/-- Batch normalisation of a node array by four one-row arrays (mean, variance, scale, shift), entry by entry. -/
abbrev stage3_bn (h : S50000x128.Idx → EReal) (mu va g be : S1x128.Idx → EReal) : S50000x128.Idx → EReal :=
  fun i => g (ix2 0 (i 1)) * (h i - mu (ix2 0 (i 1))) * Ideal.rsqrt (va (ix2 0 (i 1)) + eps) + be (ix2 0 (i 1))

theorem stage3_hz : (![0, 0] : Fin 2 → Nat) = fun _ => 0 := funext fun a => by fin_cases a <;> rfl

/-- The body's value at row p, column q is the normalised entry at any array index i in column q where h agrees with the block. -/
theorem stage3_pay (v0 v5 : Vec Ideal S1x128 .f32) (v7 : Vec Ideal S5000x128 .f32) (v9 v17 : Vec Ideal S1x128 .f32)
    (p : Fin 5000) {q : Fin 128} {i : S50000x128.Idx} (hq : i 1 = q) {h : S50000x128.Idx → EReal}
    (h7 : v7 (ix2 p q) = h i) : k3_pay1 v0 v5 v7 v9 v17 (ix2 p q) = stage3_bn h v9 v0 v5 v17 i := by
  unfold k3_pay1
  simp only [shapeCast_self]
  rw [addf_apply, mulf_apply, mulf_apply, subf_apply, broadcastTo_1b_ab_apply, broadcastTo_1b_ab_apply,
    broadcastTo_1b_ab_apply, broadcastTo_1b_ab_apply, h7]
  subst hq
  rfl

/-- The block of a one-row array is the array itself. -/
theorem stage3_row (A : S1x128.Idx → EReal) (t : Fin cfg3.N) : ((cfg3.win 1).blk t).view.read (Elt Ideal) A = A := by
  funext j
  show A _ = A j
  congr 1; funext a
  exact Fin.ext (win3_1.rect_emb_val_of_index_zero t a (by fin_cases a <;> rfl) j)

/-- The body's output block is that block of the normalised array: input and output are cut into the same row blocks, and a block keeps its columns. -/
theorem stage3_block (A0 : S50000x128.Idx → EReal) (A1 A2 A3 A4 : S1x128.Idx → EReal) (t : Fin cfg3.N)
    {X : Vec Ideal S5000x128 .f32}
    (h : X = out3_5 (((cfg3.win 0).blk t).view.read (Elt Ideal) A0) (((cfg3.win 1).blk t).view.read (Elt Ideal) A1)
      (((cfg3.win 2).blk t).view.read (Elt Ideal) A2) (((cfg3.win 3).blk t).view.read (Elt Ideal) A3)
      (((cfg3.win 4).blk t).view.read (Elt Ideal) A4)) :
    (cfg3.win 5).cut (grid3.coords t) X = ((cfg3.win 5).blk t).view.read (Elt Ideal) (stage3_bn A0 A1 A2 A3 A4) := by
  rw [h.trans (congr (congr (congr (congrArg (out3_5 _) (stage3_row A1 t)) (stage3_row A2 t)) (stage3_row A3 t))
    (stage3_row A4 t))]
  unfold out3_5
  rw [View.canon_unit_zero stage3_hz]
  simp only [View.ld_unit_zero (S := S5000x128) stage3_hz, View.ld_unit_zero (S := S1x128) stage3_hz]
  refine funext fun j : S5000x128.Idx => ?_
  obtain ⟨p, q, rfl⟩ : ∃ (p : Fin 5000) (q : Fin 128), j = ix2 p q := ⟨j 0, j 1, eq_ix2 j⟩
  exact stage3_pay A2 A3 _ A1 A4 p (Fin.ext (win3_5.rect_emb_val_of_index_zero t 1 rfl (ix2 p q))) rfl

theorem stage3_idx : ∀ t : Fin cfg3.N, win3_5.index t (0 : Fin 2) = t.val :=
  (by decide +kernel : ∀ t : Fin grid3.N, _)

/-- The ten blocks of 5000 rows tile the array: row r lies in block r / 5000. -/
theorem stage3_cover (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  obtain ⟨t, ht⟩ : ∃ t : Fin cfg3.N, t.val = (i 0).val / 5000 :=
    ⟨⟨(i 0).val / 5000, by rw [show cfg3.N = 10 from N_3]; omega⟩, rfl⟩
  have e0 := stage3_idx t
  refine ⟨t, flush3_5 t, ?_⟩
  show i ∈ ((View.whole main_v43).slice (win3_5.rect t)).set
  rw [View.set_slice_whole, Rect.mem_set_unit]
  intro a
  match a with
  | ⟨0, _⟩ => show win3_5.index t (0 : Fin 2) * 5000 ≤ (i 0).val ∧ (i 0).val < win3_5.index t (0 : Fin 2) * 5000 + 5000; omega
  | ⟨1, _⟩ => show 0 * 128 ≤ (i 1).val ∧ (i 1).val < 0 * 128 + 128; omega

/-- Each region leaves its entry array normalised by its four rows: every block is right and the blocks tile the array (region 3's geometry, up to the arrays' names). -/
theorem arr3 (c : Dev nD) :
    cur ((dat3 (F := Ideal) V c).arrAt 5 cfg3.N) = bn (cur (V c main_v31)) ((cur (V c main_v35)) 0) ((cur (V c main_v36)) 0) ((cur (V c main_v39)) 0) ((cur (V c main_v42)) 0) :=
  congrArg cur ((dat3 (F := Ideal) V c).arrAt_eq_of_cover 5
    (stage3_bn (V c main_v31) (V c main_v35) (V c main_v36) (V c main_v39) (V c main_v42))
    (fun t _ => stage3_block _ _ _ _ _ t (after3_5 V c t)) stage3_cover)

theorem arr7 (c : Dev nD) :
    cur ((dat7 (F := Ideal) V c).arrAt 5 cfg7.N) = bn (cur (V c main_v71)) ((cur (V c main_v75)) 0) ((cur (V c main_v76)) 0) ((cur (V c main_v79)) 0) ((cur (V c main_v82)) 0) :=
  congrArg cur ((dat7 (F := Ideal) V c).arrAt_eq_of_cover 5
    (stage3_bn (V c main_v71) (V c main_v75) (V c main_v76) (V c main_v79) (V c main_v82))
    (fun t _ => stage3_block _ _ _ _ _ t (after7_5 V c t)) stage3_cover)

theorem arr11 (c : Dev nD) :
    cur ((dat11 (F := Ideal) V c).arrAt 5 cfg11.N) = bn (cur (V c main_v111)) ((cur (V c main_v115)) 0) ((cur (V c main_v116)) 0) ((cur (V c main_v119)) 0) ((cur (V c main_v122)) 0) :=
  congrArg cur ((dat11 (F := Ideal) V c).arrAt_eq_of_cover 5
    (stage3_bn (V c main_v111) (V c main_v115) (V c main_v116) (V c main_v119) (V c main_v122))
    (fun t _ => stage3_block _ _ _ _ _ t (after11_5 V c t)) stage3_cover)

end Cert.KernelIdeal.RegVal

end
-- ==== Proof.KLayer0.lean ====
import proofs.«411739_j18880676233357_1_alg».proof.Proof.Gen.KernelIdeal.Frame
import proofs.«411739_j18880676233357_1_alg».proof.Proof.KHost0
import proofs.«411739_j18880676233357_1_alg».proof.Proof.KRegEdge
import proofs.«411739_j18880676233357_1_alg».proof.Proof.KRegStage1
import proofs.«411739_j18880676233357_1_alg».proof.Proof.KRegStage2
import proofs.«411739_j18880676233357_1_alg».proof.Proof.KRegStage3
import Idealize.ShloMosaic.Lib.Pipeline.Value

set_option maxRecDepth 16384

noncomputable section

namespace Cert.KernelIdeal.Val.L0

open Cert.KernelIdeal Cert.KernelIdeal.Gen Cert.KernelIdeal.Val Cert.Spec
open Idealize.ShloMosaic Idealize.ShloMosaic.TcCoe Idealize.SL.Sem Idealize.ShloMosaic.ValueIdx

section Keep
variable {b : Ref sig .tc} (m : (ℓ : Loc nD τ sig) → Buf (Elt Ideal) ℓ) (ρ : Dev nD → PrngReg) (c : Dev nD)

abbrev win0 : List (Ref sig .tc) := [main_v4, main_arg2, main_v5]
theorem keepR0 (hb : b ∉ win0) : W3 m ρ c b = W2 m ρ c b :=
  W3_of_ne m ρ c b fun w e => hb (e ▸ (by decide : ∀ w : Fin cfg0.W, Pipeline.arrRef spec0 w ∈ win0) w)

abbrev win1 : List (Ref sig .tc) := [main_arg0, main_v8, main_v10, main_v13, main_v14]
theorem keepR1 (hb : b ∉ win1) : W5 m ρ c b = W4 m ρ c b :=
  W5_of_ne m ρ c b fun w e => hb (e ▸ (by decide : ∀ w : Fin cfg1.W, Pipeline.arrRef spec1 w ∈ win1) w)

abbrev win2 : List (Ref sig .tc) := [main_v14, main_v18, main_v19, main_v22, main_v25, main_v27, main_v30, main_v31]
theorem keepR2 (hb : b ∉ win2) : W9 m ρ c b = W8 m ρ c b :=
  W9_of_ne m ρ c b fun w e => hb (e ▸ (by decide : ∀ w : Fin cfg2.W, Pipeline.arrRef spec2 w ∈ win2) w)

abbrev win3 : List (Ref sig .tc) := [main_v31, main_v35, main_v36, main_v39, main_v42, main_v43]
theorem keepR3 (hb : b ∉ win3) : W13 m ρ c b = W12 m ρ c b :=
  W13_of_ne m ρ c b fun w e => hb (e ▸ (by decide : ∀ w : Fin cfg3.W, Pipeline.arrRef spec3 w ∈ win3) w)

-- A region changes none of the arrays it only reads.
theorem inR0_arg2 : W3 m ρ c main_arg2 = W2 m ρ c main_arg2 :=
  (W3_arr m ρ c 1).trans (((dat0 (V2 m ρ) c).arrAt_in 1 rfl _).trans (A_eq0 (V2 m ρ) c 1))
theorem inR1_arg0 : W5 m ρ c main_arg0 = W4 m ρ c main_arg0 :=
  (W5_arr m ρ c 0).trans (((dat1 (V4 m ρ) c).arrAt_in 0 rfl _).trans (A_eq1 (V4 m ρ) c 0))

section Stay
variable (hb : b ∈ ins)
include hb

-- No stretch writes an argument or an index vector, and a region at most reads them.
theorem s2 : W2 m ρ c b = W1 m ρ c b := keep0_1 (W1 m ρ c) ((by decide : ∀ b ∈ ins, b ∉ wr0_1) b hb)

theorem s3 : W3 m ρ c b = W1 m ρ c b := by
  refine Eq.trans ?_ (s2 m ρ c hb)
  by_cases h : b ∈ win0
  · obtain rfl := (by decide : ∀ b ∈ ins, b ∈ win0 → b = main_arg2) b hb h
    exact inR0_arg2 m ρ c
  · exact keepR0 m ρ c h

theorem s4 : W4 m ρ c b = W1 m ρ c b := (keep1 (W3 m ρ c) ((by decide : ∀ b ∈ ins, b ∉ wr1) b hb)).trans (s3 m ρ c hb)

theorem s7 : W7 m ρ c b = W1 m ρ c b := by
  refine (keep2_1 (W6 m ρ c) ((by decide : ∀ b ∈ ins, b ∉ wr2_1) b hb)).trans ((keep2 (W5 m ρ c) ((by decide : ∀ b ∈ ins, b ∉ wr2) b hb)).trans
    (Eq.trans ?_ (s4 m ρ c hb)))
  by_cases h : b ∈ win1
  · obtain rfl := (by decide : ∀ b ∈ ins, b ∈ win1 → b = main_arg0) b hb h
    exact inR1_arg0 m ρ c
  · exact keepR1 m ρ c h

theorem s11 : W11 m ρ c b = W1 m ρ c b :=
  (keep3_1 (W10 m ρ c) ((by decide : ∀ b ∈ ins, b ∉ wr3_1) b hb)).trans ((keep3 (W9 m ρ c) ((by decide : ∀ b ∈ ins, b ∉ wr3) b hb)).trans
    ((keepR2 m ρ c ((by decide : ∀ b ∈ ins, b ∉ win2) b hb)).trans ((keep2_2 (W7 m ρ c) ((by decide : ∀ b ∈ ins, b ∉ wr2_2) b hb)).trans (s7 m ρ c hb))))

theorem s13 : W13 m ρ c b = W1 m ρ c b :=
  (keepR3 m ρ c ((by decide : ∀ b ∈ ins, b ∉ win3) b hb)).trans ((keep3_2 (W11 m ρ c) ((by decide : ∀ b ∈ ins, b ∉ wr3_2) b hb)).trans (s11 m ρ c hb))

end Stay

end Keep

section Layer0
variable (m : (ℓ : Loc nD τ sig) → Buf (Elt Ideal) ℓ) (ρ : Dev nD → PrngReg) (c : Dev nD)

abbrev Φ0 : Folds := ΦK (W1 m ρ c (Proc.devRef .tc main_v1)) (W1 m ρ c (Proc.devRef .tc main_v3))

-- Each stretch's result and each region's output, read back to the entry, are the hypotheses of the one-layer theorem.
theorem layer0 (hs : SrcVecOk (W1 m ρ c (Proc.devRef .tc main_v1))) : cur (W13 m ρ c (Proc.devRef .tc main_v43))
    = bnSelf (Φ0 m ρ c)
        (layer (Φ0 m ρ c) (cur (W1 m ρ c (Proc.devRef .tc main_arg0))) (cur (W1 m ρ c (Proc.devRef .tc main_arg2))) (slab (W1 m ρ c (Proc.devRef .tc main_arg3)) 0) (prow (W1 m ρ c (Proc.devRef .tc main_arg4)) 0)
          (prow (W1 m ρ c (Proc.devRef .tc main_arg5)) 0) (prow (W1 m ρ c (Proc.devRef .tc main_arg6)) 0) (slab (W1 m ρ c (Proc.devRef .tc main_arg7)) 0) (prow (W1 m ρ c (Proc.devRef .tc main_arg8)) 0))
        (prow (W1 m ρ c (Proc.devRef .tc main_arg9)) 0) (prow (W1 m ρ c (Proc.devRef .tc main_arg10)) 0) :=
  layer_of_terms hs (o := 0) (ℓ := 0) (ℓ' := 0) rfl rfl
    (run0_1_v4 (W1 m ρ c))
    ((congrArg cur (W3_arr m ρ c 2)).trans (RegVal.arr0 (V2 m ρ) c)) (s2 m ρ c (b := main_arg2) (by decide))
    (run1_v8 (W3 m ρ c)) (s3 m ρ c (b := main_v3) (by decide))
    (run1_v10 (W3 m ρ c)) (s3 m ρ c (b := main_arg3) (by decide))
    (run1_v13 (W3 m ρ c)) (s3 m ρ c (b := main_arg4) (by decide))
    ((congrArg cur (W5_arr m ρ c 4)).trans (RegVal.arr1 (V4 m ρ) c)) (s4 m ρ c (b := main_arg0) (by decide))
    (run2_v18 (W5 m ρ c))
    (run2_1_v19 (W6 m ρ c)) (keep2 (W5 m ρ c) (b := main_v14) (by decide)) (run2_c (W5 m ρ c))
    (run2_2_v22 (W7 m ρ c)) (s7 m ρ c (b := main_arg5) (by decide))
    (run2_2_v25 (W7 m ρ c)) (s7 m ρ c (b := main_arg6) (by decide))
    (run2_2_v27 (W7 m ρ c)) (s7 m ρ c (b := main_arg7) (by decide))
    (run2_2_v30 (W7 m ρ c)) (s7 m ρ c (b := main_arg8) (by decide))
    ((congrArg cur (W9_arr m ρ c 7)).trans (RegVal.arr2 (V8 m ρ) c))
    ((keep2_2 (W7 m ρ c) (b := main_v14) (by decide)).trans
      ((keep2_1 (W6 m ρ c) (by decide)).trans (keep2 (W5 m ρ c) (by decide))))
    ((keep2_2 (W7 m ρ c) (b := main_v18) (by decide)).trans (keep2_1 (W6 m ρ c) (by decide)))
    (keep2_2 (W7 m ρ c) (b := main_v19) (by decide))
    (run3_v35 (W9 m ρ c))
    (run3_1_v36 (W10 m ρ c)) (keep3 (W9 m ρ c) (b := main_v31) (by decide)) (run3_c (W9 m ρ c))
    (run3_2_v39 (W11 m ρ c)) (s11 m ρ c (b := main_arg9) (by decide))
    (run3_2_v42 (W11 m ρ c)) (s11 m ρ c (b := main_arg10) (by decide))
    ((congrArg cur (W13_arr m ρ c 5)).trans (RegVal.arr3 (V12 m ρ) c))
    ((keep3_2 (W11 m ρ c) (b := main_v31) (by decide)).trans
      ((keep3_1 (W10 m ρ c) (by decide)).trans (keep3 (W9 m ρ c) (by decide))))
    ((keep3_2 (W11 m ρ c) (b := main_v35) (by decide)).trans (keep3_1 (W10 m ρ c) (by decide)))
    (keep3_2 (W11 m ρ c) (b := main_v36) (by decide))

theorem keep0 (b : Ref sig .tc)
    (hb : b ∈ [main_arg0, main_arg1, main_arg2, main_arg3, main_arg4, main_arg5, main_arg6, main_arg7, main_arg8, main_arg9,
      main_arg10, main_v1, main_v3]) :
    W13 m ρ c (Proc.devRef .tc b) = W1 m ρ c (Proc.devRef .tc b) :=
  s13 m ρ c hb

end Layer0

end Cert.KernelIdeal.Val.L0

end
-- ==== Proof.KHost1.lean ====
import proofs.«411739_j18880676233357_1_alg».proof.Proof.Gen.KernelIdeal.Launch
import proofs.«411739_j18880676233357_1_alg».proof.Proof.KHost

set_option maxRecDepth 16384

noncomputable section

namespace Cert.KernelIdeal.Val.L1

open Cert.KernelIdeal Cert.KernelIdeal.Gen Cert.KernelIdeal.Val Cert.Spec
open Idealize.ShloMosaic Idealize.ShloMosaic.TcCoe Idealize.SL.Sem Idealize.ShloMosaic.ValueIdx

section Runs
variable {F : FTy → Type} [FloatOps F] (U : Valuation τ sig (Elt F))

theorem run4_v44 : StableHlo.after (hostOps4 (F := F)) U main_v44 = takeTerm (U main_v1) (U main_v43) := by
  after_results_simp <;> (try simp only [StableHlo.TRef.ofBuf, StableHlo.TRef.toBuf, cast_eq]) <;> rfl

theorem run5_v48 : StableHlo.after (hostOps5 (F := F)) U main_v48 = aggTerm (U main_v3) (U main_v45) := by
  after_results; rfl

theorem run5_v50 : StableHlo.after (hostOps5 (F := F)) U main_v50
    = slabTerm 1 slices_S4x128x128_S1x128x128_1_0_0 (U main_arg3) := by
  after_results; rfl

theorem run5_v53 : StableHlo.after (hostOps5 (F := F)) U main_v53 = prowTerm 1 slices_S4x128_S1x128_1_0 (U main_arg4) := by
  after_results; rfl

theorem run6_v58 : StableHlo.after (hostOps6 (F := F)) U main_v58 = meanTerm (U main_v54) := by
  after_results; rfl

theorem run6_c : StableHlo.after (hostOps6 (F := F)) U main_c_8 = constantI S_ 32 0#32 := by
  after_results

theorem run6_1_v59 : StableHlo.after (hostOps6_1 (F := F)) U main_v59 = varTerm (U main_v54) (U main_c_8) := by
  after_results_simp <;> (try simp only [StableHlo.TRef.ofBuf, StableHlo.TRef.toBuf, cast_eq]) <;> rfl

theorem run6_2_v62 : StableHlo.after (hostOps6_2 (F := F)) U main_v62 = prowTerm 1 slices_S4x128_S1x128_1_0 (U main_arg5) := by
  after_results; rfl

theorem run6_2_v65 : StableHlo.after (hostOps6_2 (F := F)) U main_v65 = prowTerm 1 slices_S4x128_S1x128_1_0 (U main_arg6) := by
  after_results; rfl

theorem run6_2_v67 : StableHlo.after (hostOps6_2 (F := F)) U main_v67
    = slabTerm 1 slices_S4x128x128_S1x128x128_1_0_0 (U main_arg7) := by
  after_results; rfl

theorem run6_2_v70 : StableHlo.after (hostOps6_2 (F := F)) U main_v70 = prowTerm 1 slices_S4x128_S1x128_1_0 (U main_arg8) := by
  after_results; rfl

theorem run7_v75 : StableHlo.after (hostOps7 (F := F)) U main_v75 = meanTerm (U main_v71) := by
  after_results; rfl

theorem run7_c : StableHlo.after (hostOps7 (F := F)) U main_c_11 = constantI S_ 32 0#32 := by
  after_results

theorem run7_1_v76 : StableHlo.after (hostOps7_1 (F := F)) U main_v76 = varTerm (U main_v71) (U main_c_11) := by
  after_results_simp <;> (try simp only [StableHlo.TRef.ofBuf, StableHlo.TRef.toBuf, cast_eq]) <;> rfl

theorem run7_2_v79 : StableHlo.after (hostOps7_2 (F := F)) U main_v79 = prowTerm 1 slices_S3x128_S1x128_1_0 (U main_arg9) := by
  after_results; rfl

theorem run7_2_v82 : StableHlo.after (hostOps7_2 (F := F)) U main_v82 = prowTerm 1 slices_S3x128_S1x128_1_0 (U main_arg10) := by
  after_results; rfl

end Runs

section KeepHost
variable {F : FTy → Type} [FloatOps F] (U : Valuation τ sig (Elt F)) {b : Ref sig .tc}

abbrev wr4 : List (Ref sig .tc) :=
  [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v44]
theorem keep4 (hb : b ∉ wr4) : StableHlo.after (hostOps4 (F := F)) U b = U b :=
  StableHlo.after_of_writes_sub _ _ (W := wr4) (by writes_sub hostOps4) hb

abbrev wr5 : List (Ref sig .tc) :=
  [main_cst_5, main_v46, main_v47, main_v48, main_v49, main_v50, main_v51, main_v52, main_v53]
theorem keep5 (hb : b ∉ wr5) : StableHlo.after (hostOps5 (F := F)) U b = U b :=
  StableHlo.after_of_writes_sub _ _ (W := wr5) (by writes_sub hostOps5) hb

abbrev wr6 : List (Ref sig .tc) :=
  [main_cst_6, main_v55, main_v56, main_cst_7, main_v57, main_v58, main_c_8]
theorem keep6 (hb : b ∉ wr6) : StableHlo.after (hostOps6 (F := F)) U b = U b :=
  StableHlo.after_of_writes_sub _ _ (W := wr6) (by writes_sub hostOps6) hb

abbrev wr6_1 : List (Ref sig .tc) :=
  [main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_v12, main_call4_cst_3, main_call4_v13, main_call4_cst_4, main_call4_call0_v0, main_call4_call0_v1, main_v59]
theorem keep6_1 (hb : b ∉ wr6_1) : StableHlo.after (hostOps6_1 (F := F)) U b = U b :=
  StableHlo.after_of_writes_sub _ _ (W := wr6_1) (by writes_sub hostOps6_1) hb

abbrev wr6_2 : List (Ref sig .tc) :=
  [main_v60, main_v61, main_v62, main_v63, main_v64, main_v65, main_v66, main_v67, main_v68, main_v69, main_v70]
theorem keep6_2 (hb : b ∉ wr6_2) : StableHlo.after (hostOps6_2 (F := F)) U b = U b :=
  StableHlo.after_of_writes_sub _ _ (W := wr6_2) (by writes_sub hostOps6_2) hb

abbrev wr7 : List (Ref sig .tc) :=
  [main_cst_9, main_v72, main_v73, main_cst_10, main_v74, main_v75, main_c_11]
theorem keep7 (hb : b ∉ wr7) : StableHlo.after (hostOps7 (F := F)) U b = U b :=
  StableHlo.after_of_writes_sub _ _ (W := wr7) (by writes_sub hostOps7) hb

abbrev wr7_1 : List (Ref sig .tc) :=
  [main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_v12, main_call5_cst_3, main_call5_v13, main_call5_cst_4, main_call5_call0_v0, main_call5_call0_v1, main_v76]
theorem keep7_1 (hb : b ∉ wr7_1) : StableHlo.after (hostOps7_1 (F := F)) U b = U b :=
  StableHlo.after_of_writes_sub _ _ (W := wr7_1) (by writes_sub hostOps7_1) hb

abbrev wr7_2 : List (Ref sig .tc) :=
  [main_v77, main_v78, main_v79, main_v80, main_v81, main_v82]
theorem keep7_2 (hb : b ∉ wr7_2) : StableHlo.after (hostOps7_2 (F := F)) U b = U b :=
  StableHlo.after_of_writes_sub _ _ (W := wr7_2) (by writes_sub hostOps7_2) hb

end KeepHost

end Cert.KernelIdeal.Val.L1

end
-- ==== Proof.KLayer1.lean ====
import proofs.«411739_j18880676233357_1_alg».proof.Proof.Gen.KernelIdeal.Frame
import proofs.«411739_j18880676233357_1_alg».proof.Proof.KHost1
import proofs.«411739_j18880676233357_1_alg».proof.Proof.KRegEdge
import proofs.«411739_j18880676233357_1_alg».proof.Proof.KRegStage1
import proofs.«411739_j18880676233357_1_alg».proof.Proof.KRegStage2
import proofs.«411739_j18880676233357_1_alg».proof.Proof.KRegStage3
import Idealize.ShloMosaic.Lib.Pipeline.Value

set_option maxRecDepth 16384

noncomputable section

namespace Cert.KernelIdeal.Val.L1

open Cert.KernelIdeal Cert.KernelIdeal.Gen Cert.KernelIdeal.Val Cert.Spec
open Idealize.ShloMosaic Idealize.ShloMosaic.TcCoe Idealize.SL.Sem Idealize.ShloMosaic.ValueIdx

section Keep
variable {b : Ref sig .tc} (m : (ℓ : Loc nD τ sig) → Buf (Elt Ideal) ℓ) (ρ : Dev nD → PrngReg) (c : Dev nD)

abbrev win4 : List (Ref sig .tc) := [main_v44, main_arg2, main_v45]
theorem keepR4 (hb : b ∉ win4) : W15 m ρ c b = W14 m ρ c b :=
  W15_of_ne m ρ c b fun w e => hb (e ▸ (by decide : ∀ w : Fin cfg4.W, Pipeline.arrRef spec4 w ∈ win4) w)

abbrev win5 : List (Ref sig .tc) := [main_v43, main_v48, main_v50, main_v53, main_v54]
theorem keepR5 (hb : b ∉ win5) : W17 m ρ c b = W16 m ρ c b :=
  W17_of_ne m ρ c b fun w e => hb (e ▸ (by decide : ∀ w : Fin cfg5.W, Pipeline.arrRef spec5 w ∈ win5) w)

abbrev win6 : List (Ref sig .tc) := [main_v54, main_v58, main_v59, main_v62, main_v65, main_v67, main_v70, main_v71]
theorem keepR6 (hb : b ∉ win6) : W21 m ρ c b = W20 m ρ c b :=
  W21_of_ne m ρ c b fun w e => hb (e ▸ (by decide : ∀ w : Fin cfg6.W, Pipeline.arrRef spec6 w ∈ win6) w)

abbrev win7 : List (Ref sig .tc) := [main_v71, main_v75, main_v76, main_v79, main_v82, main_v83]
theorem keepR7 (hb : b ∉ win7) : W25 m ρ c b = W24 m ρ c b :=
  W25_of_ne m ρ c b fun w e => hb (e ▸ (by decide : ∀ w : Fin cfg7.W, Pipeline.arrRef spec7 w ∈ win7) w)

-- A region changes none of the arrays it only reads.
theorem inR4_arg2 : W15 m ρ c main_arg2 = W14 m ρ c main_arg2 :=
  (W15_arr m ρ c 1).trans (((dat4 (V14 m ρ) c).arrAt_in 1 rfl _).trans (A_eq4 (V14 m ρ) c 1))

section Stay
variable (hb : b ∈ ins)
include hb

-- No stretch writes an argument or an index vector, and a region at most reads them.
theorem s14 : W14 m ρ c b = W13 m ρ c b := keep4 (W13 m ρ c) ((by decide : ∀ b ∈ ins, b ∉ wr4) b hb)

theorem s15 : W15 m ρ c b = W13 m ρ c b := by
  refine Eq.trans ?_ (s14 m ρ c hb)
  by_cases h : b ∈ win4
  · obtain rfl := (by decide : ∀ b ∈ ins, b ∈ win4 → b = main_arg2) b hb h
    exact inR4_arg2 m ρ c
  · exact keepR4 m ρ c h

theorem s19 : W19 m ρ c b = W13 m ρ c b :=
  (keep6_1 (W18 m ρ c) ((by decide : ∀ b ∈ ins, b ∉ wr6_1) b hb)).trans ((keep6 (W17 m ρ c) ((by decide : ∀ b ∈ ins, b ∉ wr6) b hb)).trans
    ((keepR5 m ρ c ((by decide : ∀ b ∈ ins, b ∉ win5) b hb)).trans ((keep5 (W15 m ρ c) ((by decide : ∀ b ∈ ins, b ∉ wr5) b hb)).trans (s15 m ρ c hb))))

theorem s23 : W23 m ρ c b = W13 m ρ c b :=
  (keep7_1 (W22 m ρ c) ((by decide : ∀ b ∈ ins, b ∉ wr7_1) b hb)).trans ((keep7 (W21 m ρ c) ((by decide : ∀ b ∈ ins, b ∉ wr7) b hb)).trans
    ((keepR6 m ρ c ((by decide : ∀ b ∈ ins, b ∉ win6) b hb)).trans ((keep6_2 (W19 m ρ c) ((by decide : ∀ b ∈ ins, b ∉ wr6_2) b hb)).trans (s19 m ρ c hb))))

theorem s25 : W25 m ρ c b = W13 m ρ c b :=
  (keepR7 m ρ c ((by decide : ∀ b ∈ ins, b ∉ win7) b hb)).trans ((keep7_2 (W23 m ρ c) ((by decide : ∀ b ∈ ins, b ∉ wr7_2) b hb)).trans (s23 m ρ c hb))

end Stay

end Keep

section Layer1
variable (m : (ℓ : Loc nD τ sig) → Buf (Elt Ideal) ℓ) (ρ : Dev nD → PrngReg) (c : Dev nD)

abbrev Φ1 : Folds := ΦK (W13 m ρ c (Proc.devRef .tc main_v1)) (W13 m ρ c (Proc.devRef .tc main_v3))

-- Each stretch's result and each region's output, read back to the entry, are the hypotheses of the one-layer theorem.
theorem layer1 (hs : SrcVecOk (W13 m ρ c (Proc.devRef .tc main_v1))) : cur (W25 m ρ c (Proc.devRef .tc main_v83))
    = bnSelf (Φ1 m ρ c)
        (layer (Φ1 m ρ c) (cur (W13 m ρ c (Proc.devRef .tc main_v43))) (cur (W13 m ρ c (Proc.devRef .tc main_arg2))) (slab (W13 m ρ c (Proc.devRef .tc main_arg3)) 1) (prow (W13 m ρ c (Proc.devRef .tc main_arg4)) 1)
          (prow (W13 m ρ c (Proc.devRef .tc main_arg5)) 1) (prow (W13 m ρ c (Proc.devRef .tc main_arg6)) 1) (slab (W13 m ρ c (Proc.devRef .tc main_arg7)) 1) (prow (W13 m ρ c (Proc.devRef .tc main_arg8)) 1))
        (prow (W13 m ρ c (Proc.devRef .tc main_arg9)) 1) (prow (W13 m ρ c (Proc.devRef .tc main_arg10)) 1) :=
  layer_of_terms hs (o := 1) (ℓ := 1) (ℓ' := 1) rfl rfl
    (run4_v44 (W13 m ρ c))
    ((congrArg cur (W15_arr m ρ c 2)).trans (RegVal.arr4 (V14 m ρ) c)) (s14 m ρ c (b := main_arg2) (by decide))
    (run5_v48 (W15 m ρ c)) (s15 m ρ c (b := main_v3) (by decide))
    (run5_v50 (W15 m ρ c)) (s15 m ρ c (b := main_arg3) (by decide))
    (run5_v53 (W15 m ρ c)) (s15 m ρ c (b := main_arg4) (by decide))
    ((congrArg cur (W17_arr m ρ c 4)).trans (RegVal.arr5 (V16 m ρ) c))
    ((keep5 (W15 m ρ c) (b := main_v43) (by decide)).trans
      ((keepR4 m ρ c (by decide)).trans (keep4 (W13 m ρ c) (by decide))))
    (run6_v58 (W17 m ρ c))
    (run6_1_v59 (W18 m ρ c)) (keep6 (W17 m ρ c) (b := main_v54) (by decide)) (run6_c (W17 m ρ c))
    (run6_2_v62 (W19 m ρ c)) (s19 m ρ c (b := main_arg5) (by decide))
    (run6_2_v65 (W19 m ρ c)) (s19 m ρ c (b := main_arg6) (by decide))
    (run6_2_v67 (W19 m ρ c)) (s19 m ρ c (b := main_arg7) (by decide))
    (run6_2_v70 (W19 m ρ c)) (s19 m ρ c (b := main_arg8) (by decide))
    ((congrArg cur (W21_arr m ρ c 7)).trans (RegVal.arr6 (V20 m ρ) c))
    ((keep6_2 (W19 m ρ c) (b := main_v54) (by decide)).trans
      ((keep6_1 (W18 m ρ c) (by decide)).trans (keep6 (W17 m ρ c) (by decide))))
    ((keep6_2 (W19 m ρ c) (b := main_v58) (by decide)).trans (keep6_1 (W18 m ρ c) (by decide)))
    (keep6_2 (W19 m ρ c) (b := main_v59) (by decide))
    (run7_v75 (W21 m ρ c))
    (run7_1_v76 (W22 m ρ c)) (keep7 (W21 m ρ c) (b := main_v71) (by decide)) (run7_c (W21 m ρ c))
    (run7_2_v79 (W23 m ρ c)) (s23 m ρ c (b := main_arg9) (by decide))
    (run7_2_v82 (W23 m ρ c)) (s23 m ρ c (b := main_arg10) (by decide))
    ((congrArg cur (W25_arr m ρ c 5)).trans (RegVal.arr7 (V24 m ρ) c))
    ((keep7_2 (W23 m ρ c) (b := main_v71) (by decide)).trans
      ((keep7_1 (W22 m ρ c) (by decide)).trans (keep7 (W21 m ρ c) (by decide))))
    ((keep7_2 (W23 m ρ c) (b := main_v75) (by decide)).trans (keep7_1 (W22 m ρ c) (by decide)))
    (keep7_2 (W23 m ρ c) (b := main_v76) (by decide))

theorem keep1 (b : Ref sig .tc)
    (hb : b ∈ [main_arg0, main_arg1, main_arg2, main_arg3, main_arg4, main_arg5, main_arg6, main_arg7, main_arg8, main_arg9,
      main_arg10, main_v1, main_v3]) :
    W25 m ρ c (Proc.devRef .tc b) = W13 m ρ c (Proc.devRef .tc b) :=
  s25 m ρ c hb

end Layer1

end Cert.KernelIdeal.Val.L1

end
-- ==== Proof.KHostB.lean ====
import proofs.«411739_j18880676233357_1_alg».proof.Proof.KFolds
import proofs.«411739_j18880676233357_1_alg».proof.Proof.WordCmp
import Idealize.ShloMosaic.Lib.StableHlo.Run
import Idealize.ShloMosaic.Lib.ValueIdx
import Idealize.ShloMosaic.Lib.ValueLayout
import Idealize.ShloMosaic.Lib.IdealHost
import Idealize.ShloMosaic.PureOps.Ideal.Laws
import Idealize.ShloMosaic.PureOps.Reduce

noncomputable section

namespace Cert.KernelIdeal.Val

open Cert.KernelIdeal Cert.KernelIdeal.Gen Cert.Spec
open Idealize.ShloMosaic Idealize.ShloMosaic.TcCoe Idealize.SL.Sem Idealize.ShloMosaic.ValueIdx

/-- A vector laid as the single row of a [1, 128] array has entry j at (0, j). -/
theorem bcastRow_apply {α : Type} (v : S128.Idx → α) (u : Fin 1) (j : Fin 128) :
    broadcastInDim S1x128 ![1] bcast_S128_S1x128_1 v (ix2 u j) = v (ix1 j) :=
  broadcastInDim_apply _ _ v _ (ix1 j) fun a => by
    match a with
    | ⟨0, _⟩ => exact (if_neg (by decide : ¬ (128 : Nat) = 1)).symm

theorem colsum_val (src dst : IVec S640000 32) (H : FVec Ideal S50000x128 .f32) (j : Fin 128) :
    (ΦK src dst).colsum (cur H) j
      = Host.reduceAdd (F := Ideal) H (constant (F := Ideal) S_ .f32 0x00000000#32) reducesTo_S50000x128_S128_d0 h_S_ (ix1 j) := by
  show cur1 (Host.reduceAdd (F := Ideal) (unc (cur H)) (constant (F := Ideal) S_ .f32 0x00000000#32) reducesTo_S50000x128_S128_d0 h_S_) j = _
  rw [unc_cur]

/-- The column means: the column sums over the node count. -/
def meanK (H : FVec Ideal S50000x128 .f32) : FVec Ideal S1x128 .f32 :=
  Host.divf (F := Ideal)
    (broadcastInDim S1x128 ![1] bcast_S128_S1x128_1
      (Host.reduceAdd (F := Ideal) H (constant (F := Ideal) S_ .f32 0x00000000#32) reducesTo_S50000x128_S128_d0 h_S_))
    (broadcastInDim S1x128 ![] bcast_S_S1x128 (constant (F := Ideal) S_ .f32 0x47435000#32))

theorem meanK_apply (src dst : IVec S640000 32) (H : FVec Ideal S50000x128 .f32) (u : Fin 1) (j : Fin 128) :
    meanK H (ix2 u j) = mean (ΦK src dst) (cur H) j := by
  refine (hostDivf_apply _ _ (ix2 u j)).trans ?_
  rw [bcastRow_apply, broadcastInDim_scalar_apply]
  show _ = Ideal.div ((ΦK src dst).colsum (cur H) j) nF
  rw [colsum_val]
  rfl

theorem meanK_eq (src dst : IVec S640000 32) (H : FVec Ideal S50000x128 .f32) :
    cur (meanK H) 0 = mean (ΦK src dst) (cur H) := funext fun j => meanK_apply src dst H 0 j

theorem bcastRows_apply {α : Type} (v : S1x128.Idx → α) (r : Fin 50000) (k : Fin 128) :
    broadcastInDim S50000x128 ![0, 1] bcast_S1x128_S50000x128_0_1 v (ix2 r k) = v (ix2 0 k) :=
  broadcastInDim_apply _ _ v _ (ix2 0 k) fun a => by
    match a with
    | ⟨0, _⟩ => exact (if_pos rfl).symm
    | ⟨1, _⟩ => exact (if_neg (by decide : ¬ (128 : Nat) = 1)).symm

def ndK (c0 : IVec S_ 32) : FVec Ideal S_ .f32 :=
  subf (constant (F := Ideal) S_ .f32 0x47435000#32) (sitofp (F := Ideal) .f32 c0)

/-- The column variances: the centred squares' column sums over the divisor, where the divisor is positive. -/
def varK (H : FVec Ideal S50000x128 .f32) (c0 : IVec S_ 32) : FVec Ideal S1x128 .f32 :=
  select (broadcastInDim S1x128 ![] bcast_S_S1x128 (cmpf .ogt (ndK c0) (constant (F := Ideal) S_ .f32 0x00000000#32)))
    (Host.divf (F := Ideal)
      (broadcastInDim S1x128 ![1] bcast_S128_S1x128_1
        (Host.reduceAdd (F := Ideal)
          (mulf (subf H (broadcastInDim S50000x128 ![0, 1] bcast_S1x128_S50000x128_0_1 (meanK H)))
                (subf H (broadcastInDim S50000x128 ![0, 1] bcast_S1x128_S50000x128_0_1 (meanK H))))
          (constant (F := Ideal) S_ .f32 0x00000000#32) reducesTo_S50000x128_S128_d0 h_S_))
      (broadcastInDim S1x128 ![] bcast_S_S1x128 (ndK c0)))
    (broadcastInDim S1x128 ![] bcast_S_S1x128 (id (constant (F := Ideal) S_ .f32 0x7FC00000#32)))

theorem csqK_eq (src dst : IVec S640000 32) (H : FVec Ideal S50000x128 .f32) :
    mulf (subf H (broadcastInDim S50000x128 ![0, 1] bcast_S1x128_S50000x128_0_1 (meanK H)))
         (subf H (broadcastInDim S50000x128 ![0, 1] bcast_S1x128_S50000x128_0_1 (meanK H)))
      = unc (csq (ΦK src dst) (cur H)) := by
  refine eq_of_cur_eq (funext fun r => funext fun k => ?_)
  show (H (ix2 r k) - broadcastInDim S50000x128 ![0, 1] bcast_S1x128_S50000x128_0_1 (meanK H) (ix2 r k))
      * (H (ix2 r k) - broadcastInDim S50000x128 ![0, 1] bcast_S1x128_S50000x128_0_1 (meanK H) (ix2 r k))
      = (cur H r k - mean (ΦK src dst) (cur H) k) * (cur H r k - mean (ΦK src dst) (cur H) k)
  rw [bcastRows_apply, meanK_apply src dst]

theorem varK_apply (src dst : IVec S640000 32) (H : FVec Ideal S50000x128 .f32) (u : Fin 1) (j : Fin 128) :
    varK H (constantI S_ 32 0#32) (ix2 u j) = var (ΦK src dst) (cur H) j := by
  unfold varK
  rw [csqK_eq src dst]
  refine (select_apply _ _ _ (ix2 u j)).trans ?_
  rw [broadcastInDim_scalar_apply, broadcastInDim_scalar_apply, hostDivf_apply, bcastRow_apply,
    broadcastInDim_scalar_apply, ← colsum_val src dst]
  rfl

theorem varK_eq (src dst : IVec S640000 32) (H : FVec Ideal S50000x128 .f32) :
    cur (varK H (constantI S_ 32 0#32)) 0 = var (ΦK src dst) (cur H) := funext fun j => varK_apply src dst H 0 j

/-- Cutting row i out of an [n, 128] array and laying it as a [1, 128] row gives that row. -/
theorem prow_val {n : Nat} (B : (⟨2, ![n, 128]⟩ : Shape).Idx → EReal) (o : Nat)
    (h : (⟨2, ![n, 128]⟩ : Shape).Slices ![o, 0] S1x128) (i : Fin n) (hi : i.val = o) :
    cur (broadcastInDim S1x128 ![1] bcast_S128_S1x128_1
      (shapeCast S128 (extractStridedSlice S1x128 ![o, 0] B h) shapeCasts_S1x128_S128)) 0 = prow B i := by
  funext j
  show broadcastInDim S1x128 ![1] bcast_S128_S1x128_1
      (shapeCast S128 (extractStridedSlice S1x128 ![o, 0] B h) shapeCasts_S1x128_S128) (ix2 0 j) = B (ix2 i j)
  rw [bcastRow_apply, shapeCast_1a_a_apply]
  exact slice2_axis0_apply o B h 0 j i hi

/-- Cutting slice i out of a [4, 128, 128] array and dropping the unit axis gives that slice. -/
theorem slab_val (W : S4x128x128.Idx → EReal) (o : Nat) (h : S4x128x128.Slices ![o, 0, 0] S1x128x128) (i : Fin 4)
    (hi : i.val = o) :
    cur (shapeCast S128x128 (extractStridedSlice S1x128x128 ![o, 0, 0] W h) shapeCasts_S1x128x128_S128x128) = slab W i := by
  funext k j
  show shapeCast S128x128 (extractStridedSlice S1x128x128 ![o, 0, 0] W h) shapeCasts_S1x128x128_S128x128 (ix2 k j)
      = W (ix3 i k j)
  rw [shapeCast_1ab_ab_apply]
  exact extractStridedSlice_apply _ W h _ (ix3 i k j) fun a => by
    match a with
    | ⟨0, _⟩ => exact hi
    | ⟨1, _⟩ => exact (Nat.zero_add _).symm
    | ⟨2, _⟩ => exact (Nat.zero_add _).symm

theorem agg_val (src dst : IVec S640000 32) (M : FVec Ideal S640000x128 .f32) :
    cur (Host.scatterAdd (F := Ideal) scatter_S50000x128_S640000x1_S640000x128_1_0_0_1
      (broadcastInDim S50000x128 ![] bcast_S_S50000x128 (constant (F := Ideal) S_ .f32 0x00000000#32))
      (broadcastInDim S640000x1 ![0] bcast_S640000_S640000x1_0 dst) M) = (ΦK src dst).agg (cur M) := by
  show _ = cur (Host.scatterAdd (F := Ideal) scatter_S50000x128_S640000x1_S640000x128_1_0_0_1
      (broadcastInDim S50000x128 ![] bcast_S_S50000x128 (constant (F := Ideal) S_ .f32 0x00000000#32))
      (broadcastInDim S640000x1 ![0] bcast_S640000_S640000x1_0 dst) (unc (cur M)))
  rw [unc_cur]

theorem foldl_andi_ones {ι : Type} (l : List ι) : l.foldl (fun r (_ : ι) => IntOp.andi r 1#1) 1#1 = 1#1 := by
  induction l with
  | nil => rfl
  | cons a l ih => rw [List.foldl_cons, show IntOp.andi 1#1 1#1 = 1#1 from by decide]; exact ih

theorem reduce_andi_ones {s t u : Shape} {axes : List (Fin s.rank)} (init : u.Idx → BitVec 1) (h : s.ReducesTo axes t)
    (hu : 0 < u.numel) (hi : ∀ i, init i = 1#1) (j : t.Idx) :
    Host.reduce IntOp.andi (fun _ : s.Idx => 1#1) init h hu j = 1#1 := by
  rw [Host.reduce_eq_foldl, hi]
  exact foldl_andi_ones _

/-- An index already in [0, 50000) is not wrapped. -/
theorem idxOf_apply (src : IVec S640000 32) (hs : SrcVecOk src) (e : Fin 640000) (u : Fin 1) :
    idxOf src (ix2 e u) = src (ix1 e) := by
  have h1 : ∀ i : S640000.Idx, 0 ≤ (src i).toInt ∧ (src i).toInt < 50000 := fun i => by
    rw [eq_ix1 i]; exact hs (i 0)
  have hz : ∀ i : S640000.Idx, broadcastInDim S640000 ![] bcast_S_S640000 (constantI S_ 32 0#32) i = 0#32 := fun _ => rfl
  unfold idxOf
  rw [Cert.Word.wrap_eq_self h1 hz]
  exact broadcastInDim_apply _ _ src _ (ix1 e) fun a => by
    match a with
    | ⟨0, _⟩ => exact (if_neg (by decide : ¬ (640000 : Nat) = 1)).symm

def maskK (src : IVec S640000 32) : IVec S640000x128 1 :=
  broadcastInDim S640000x128 ![0] bcast_S640000_S640000x128_0
    (Host.reduce IntOp.andi
      (andi (cmpi .sge (idxOf src) (broadcastInDim S640000x1 ![] bcast_S_S640000x1 (constantI S_ 32 0#32)))
            (cmpi .sle (idxOf src) (broadcastInDim S640000x1 ![0, 1] bcast_S1x1_S640000x1_0_1
              (broadcastInDim S1x1 ![1] bcast_S1_S1x1_1 (constantI S1 32 49999#32)))))
      (constantI S_ 1 1#1) reducesTo_S640000x1_S640000_d1 h_S_)

def takeK (z : FVec Ideal S50000x128 .f32) (src : IVec S640000 32) : FVec Ideal S640000x128 .f32 :=
  select (maskK src) (Host.gather gather_S50000x128_S640000x1_S640000x128_1_0_n_n_0_1_1128 z (idxOf src))
    (broadcastInDim S640000x128 ![] bcast_S_S640000x128 (constant (F := Ideal) S_ .f32 0x7FC00000#32))

/-- With every source index in range both bound tests hold everywhere, so the mask is all ones. -/
theorem maskK_apply (src : IVec S640000 32) (hs : SrcVecOk src) (e : Fin 640000) (j : Fin 128) :
    maskK src (ix2 e j) = 1#1 := by
  have hr : ∀ i : S640000x1.Idx, 0 ≤ (idxOf src i).toInt ∧ (idxOf src i).toInt < 50000 := fun i => by
    have h : idxOf src i = src (ix1 (i 0)) :=
      (congrArg (idxOf src) (eq_ix2 i)).trans (idxOf_apply src hs (i 0) (i 1))
    rw [h]; exact hs (i 0)
  have hlo : ∀ i : S640000x1.Idx,
      broadcastInDim S640000x1 ![] bcast_S_S640000x1 (constantI S_ 32 0#32) i = 0#32 := fun _ => rfl
  have hhi : ∀ i : S640000x1.Idx,
      broadcastInDim S640000x1 ![0, 1] bcast_S1x1_S640000x1_0_1
        (broadcastInDim S1x1 ![1] bcast_S1_S1x1_1 (constantI S1 32 49999#32)) i = 49999#32 := fun _ => rfl
  have hX : andi (cmpi .sge (idxOf src) (broadcastInDim S640000x1 ![] bcast_S_S640000x1 (constantI S_ 32 0#32)))
            (cmpi .sle (idxOf src) (broadcastInDim S640000x1 ![0, 1] bcast_S1x1_S640000x1_0_1
              (broadcastInDim S1x1 ![1] bcast_S1_S1x1_1 (constantI S1 32 49999#32)))) = fun _ => 1#1 := by
    rw [Cert.Word.cmpi_sge_zero_all hr hlo, Cert.Word.cmpi_sle_top_all hr hhi]
    funext _
    show IntOp.andi 1#1 1#1 = 1#1
    decide
  unfold maskK
  rw [hX]
  refine (broadcastInDim_apply _ _ _ (ix2 e j) (ix1 e) fun a => ?_).trans
    (reduce_andi_ones _ _ _ (fun _ => rfl) (ix1 e))
  match a with
  | ⟨0, _⟩ => exact (if_neg (by decide : ¬ (640000 : Nat) = 1)).symm

/-- Under an all-one mask the select returns the gathered rows. -/
theorem takeK_eq (src dst : IVec S640000 32) (hs : SrcVecOk src) (z : FVec Ideal S50000x128 .f32) :
    cur (takeK z src) = (ΦK src dst).rows (cur z) := by
  funext e j
  show takeK z src (ix2 e j)
      = Host.gather gather_S50000x128_S640000x1_S640000x128_1_0_n_n_0_1_1128 (unc (cur z)) (idxOf src) (ix2 e j)
  rw [unc_cur]
  exact Cert.Word.select_of_one _ _ _ _ (maskK_apply src hs e j)

/-- A reference outside `W` keeps its contents through a line whose operations write, one each, the references of `W`. -/
theorem keepW {τ : Topo} {sig : RefSig} {Val : EltTy → Type} {ops : List (HloOp τ sig Val)} {W : List (Ref sig .tc)}
    (h : List.Forall₂ (fun op y => op.writes = {Proc.devRef .tc y}) ops W) (U : Valuation τ sig Val) {r : Ref sig .tc}
    (hr : r ∉ W) : StableHlo.after ops U (Proc.devRef .tc r) = U (Proc.devRef .tc r) := by
  induction h generalizing U with
  | nil => rfl
  | @cons op y _ _ hw _ ih =>
    rw [StableHlo.after_cons, ih _ fun h => hr (List.mem_cons_of_mem _ h)]
    refine op.result_of_not_mem U fun hm => hr ?_
    rw [hw, Finset.mem_singleton] at hm
    exact List.mem_cons.mpr (Or.inl (Proc.devRef_injective _ hm))

end Cert.KernelIdeal.Val

end
-- ==== Proof.KLayer2.lean ====
import proofs.«411739_j18880676233357_1_alg».proof.Proof.Gen.KernelIdeal.Frame
import proofs.«411739_j18880676233357_1_alg».proof.Proof.KHostB
import proofs.«411739_j18880676233357_1_alg».proof.Proof.KRegEdge
import proofs.«411739_j18880676233357_1_alg».proof.Proof.KRegStage1
import proofs.«411739_j18880676233357_1_alg».proof.Proof.KRegStage2
import proofs.«411739_j18880676233357_1_alg».proof.Proof.KRegStage3
import Idealize.ShloMosaic.Lib.Pipeline.Value

set_option maxRecDepth 16384

noncomputable section

namespace Cert.KernelIdeal.Val.L2

open Cert.KernelIdeal Cert.KernelIdeal.Gen Cert.KernelIdeal.Val Cert.Spec
open Idealize.ShloMosaic Idealize.ShloMosaic.TcCoe Idealize.SL.Sem Idealize.ShloMosaic.ValueIdx

section Host
variable (U : Valuation τ sig (Elt Ideal))

abbrev hostOps8_W : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v84]
abbrev hostOps9_W : List (Ref sig .tc) := [main_cst_12, main_v86, main_v87, main_v88, main_v89, main_v90, main_v91, main_v92, main_v93]
abbrev hostOps10_W : List (Ref sig .tc) := [main_cst_13, main_v95, main_v96, main_cst_14, main_v97, main_v98, main_c_15]
abbrev hostOps10_1_W : List (Ref sig .tc) := [main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_v12, main_call7_cst_3, main_call7_v13, main_call7_cst_4, main_call7_call0_v0, main_call7_call0_v1, main_v99]
abbrev hostOps10_2_W : List (Ref sig .tc) := [main_v100, main_v101, main_v102, main_v103, main_v104, main_v105, main_v106, main_v107, main_v108, main_v109, main_v110]
abbrev hostOps11_W : List (Ref sig .tc) := [main_cst_16, main_v112, main_v113, main_cst_17, main_v114, main_v115, main_c_18]
abbrev hostOps11_1_W : List (Ref sig .tc) := [main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_v12, main_call8_cst_3, main_call8_v13, main_call8_cst_4, main_call8_call0_v0, main_call8_call0_v1, main_v116]
abbrev hostOps11_2_W : List (Ref sig .tc) := [main_v117, main_v118, main_v119, main_v120, main_v121, main_v122]

set_option maxHeartbeats 1000000 in
theorem h8_v84 : StableHlo.after (hostOps8 (F := Ideal)) U (Proc.devRef .tc main_v84)
    = takeK (U (Proc.devRef .tc main_v83)) (U (Proc.devRef .tc main_v1)) := by
  after_results_simp
  simp only [StableHlo.TRef.ofBuf, StableHlo.TRef.toBuf, cast_eq]
  rfl

theorem h9_v88 (src : IVec S640000 32) : cur (StableHlo.after (hostOps9 (F := Ideal)) U (Proc.devRef .tc main_v88))
    = (ΦK src (U (Proc.devRef .tc main_v3))).agg (cur (U (Proc.devRef .tc main_v85))) := by
  refine (congrArg cur ?_).trans (agg_val src _ _)
  after_results
theorem h9_v90 : cur (StableHlo.after (hostOps9 (F := Ideal)) U (Proc.devRef .tc main_v90))
    = slab (U (Proc.devRef .tc main_arg3)) 2 := by
  refine (congrArg cur ?_).trans (slab_val _ 2 slices_S4x128x128_S1x128x128_2_0_0 2 rfl)
  after_results
  rfl
theorem h9_v93 : cur (StableHlo.after (hostOps9 (F := Ideal)) U (Proc.devRef .tc main_v93)) 0
    = prow (U (Proc.devRef .tc main_arg4)) 2 := by
  refine (congrFun (congrArg cur ?_) 0).trans (prow_val _ 2 slices_S4x128_S1x128_2_0 2 rfl)
  after_results
  rfl

theorem h10_v98 (src dst : IVec S640000 32) : cur (StableHlo.after (hostOps10 (F := Ideal)) U (Proc.devRef .tc main_v98)) 0
    = mean (ΦK src dst) (cur (U (Proc.devRef .tc main_v94))) := by
  refine (congrFun (congrArg cur ?_) 0).trans (meanK_eq src dst _)
  after_results
  rfl
theorem h10_c15 : StableHlo.after (hostOps10 (F := Ideal)) U (Proc.devRef .tc main_c_15) = constantI S_ 32 0#32 := by
  after_results

set_option maxHeartbeats 1000000 in
theorem h10_1_v99 : StableHlo.after (hostOps10_1 (F := Ideal)) U (Proc.devRef .tc main_v99)
    = varK (U (Proc.devRef .tc main_v94)) (U (Proc.devRef .tc main_c_15)) := by
  after_results_simp
  simp only [StableHlo.TRef.ofBuf, StableHlo.TRef.toBuf, cast_eq]
  rfl

theorem h10_2_v102 : cur (StableHlo.after (hostOps10_2 (F := Ideal)) U (Proc.devRef .tc main_v102)) 0
    = prow (U (Proc.devRef .tc main_arg5)) 2 := by
  refine (congrFun (congrArg cur ?_) 0).trans (prow_val _ 2 slices_S4x128_S1x128_2_0 2 rfl)
  after_results
  rfl
theorem h10_2_v105 : cur (StableHlo.after (hostOps10_2 (F := Ideal)) U (Proc.devRef .tc main_v105)) 0
    = prow (U (Proc.devRef .tc main_arg6)) 2 := by
  refine (congrFun (congrArg cur ?_) 0).trans (prow_val _ 2 slices_S4x128_S1x128_2_0 2 rfl)
  after_results
  rfl
theorem h10_2_v107 : cur (StableHlo.after (hostOps10_2 (F := Ideal)) U (Proc.devRef .tc main_v107))
    = slab (U (Proc.devRef .tc main_arg7)) 2 := by
  refine (congrArg cur ?_).trans (slab_val _ 2 slices_S4x128x128_S1x128x128_2_0_0 2 rfl)
  after_results
  rfl
theorem h10_2_v110 : cur (StableHlo.after (hostOps10_2 (F := Ideal)) U (Proc.devRef .tc main_v110)) 0
    = prow (U (Proc.devRef .tc main_arg8)) 2 := by
  refine (congrFun (congrArg cur ?_) 0).trans (prow_val _ 2 slices_S4x128_S1x128_2_0 2 rfl)
  after_results
  rfl

theorem h11_v115 (src dst : IVec S640000 32) : cur (StableHlo.after (hostOps11 (F := Ideal)) U (Proc.devRef .tc main_v115)) 0
    = mean (ΦK src dst) (cur (U (Proc.devRef .tc main_v111))) := by
  refine (congrFun (congrArg cur ?_) 0).trans (meanK_eq src dst _)
  after_results
  rfl
theorem h11_c18 : StableHlo.after (hostOps11 (F := Ideal)) U (Proc.devRef .tc main_c_18) = constantI S_ 32 0#32 := by
  after_results

set_option maxHeartbeats 1000000 in
theorem h11_1_v116 : StableHlo.after (hostOps11_1 (F := Ideal)) U (Proc.devRef .tc main_v116)
    = varK (U (Proc.devRef .tc main_v111)) (U (Proc.devRef .tc main_c_18)) := by
  after_results_simp
  simp only [StableHlo.TRef.ofBuf, StableHlo.TRef.toBuf, cast_eq]
  rfl

theorem h11_2_v119 : cur (StableHlo.after (hostOps11_2 (F := Ideal)) U (Proc.devRef .tc main_v119)) 0
    = prow (U (Proc.devRef .tc main_arg9)) 2 := by
  refine (congrFun (congrArg cur ?_) 0).trans (prow_val _ 2 slices_S3x128_S1x128_2_0 2 rfl)
  after_results
  rfl
theorem h11_2_v122 : cur (StableHlo.after (hostOps11_2 (F := Ideal)) U (Proc.devRef .tc main_v122)) 0
    = prow (U (Proc.devRef .tc main_arg10)) 2 := by
  refine (congrFun (congrArg cur ?_) 0).trans (prow_val _ 2 slices_S3x128_S1x128_2_0 2 rfl)
  after_results
  rfl

end Host

section Thread
variable (m : (ℓ : Loc nD τ sig) → Buf (Elt Ideal) ℓ) (ρ : Dev nD → PrngReg) (c : Dev nD)

theorem k26 (r : Ref sig .tc) (h : r ∉ hostOps8_W := by decide) :
    W26 m ρ c (Proc.devRef .tc r) = W25 m ρ c (Proc.devRef .tc r) := keepW (by repeat constructor) _ h
theorem k27 (r : Ref sig .tc) (g : ∀ w, Pipeline.arrRef spec8 w ≠ r := by decide) :
    W27 m ρ c (Proc.devRef .tc r) = W26 m ρ c (Proc.devRef .tc r) := W27_of_ne m ρ c r g
theorem k28 (r : Ref sig .tc) (h : r ∉ hostOps9_W := by decide) :
    W28 m ρ c (Proc.devRef .tc r) = W27 m ρ c (Proc.devRef .tc r) := keepW (by repeat constructor) _ h
theorem k29 (r : Ref sig .tc) (g : ∀ w, Pipeline.arrRef spec9 w ≠ r := by decide) :
    W29 m ρ c (Proc.devRef .tc r) = W28 m ρ c (Proc.devRef .tc r) := W29_of_ne m ρ c r g
theorem k30 (r : Ref sig .tc) (h : r ∉ hostOps10_W := by decide) :
    W30 m ρ c (Proc.devRef .tc r) = W29 m ρ c (Proc.devRef .tc r) := keepW (by repeat constructor) _ h
theorem k31 (r : Ref sig .tc) (h : r ∉ hostOps10_1_W := by decide) :
    W31 m ρ c (Proc.devRef .tc r) = W30 m ρ c (Proc.devRef .tc r) := keepW (by repeat constructor) _ h
theorem k32 (r : Ref sig .tc) (h : r ∉ hostOps10_2_W := by decide) :
    W32 m ρ c (Proc.devRef .tc r) = W31 m ρ c (Proc.devRef .tc r) := keepW (by repeat constructor) _ h
theorem k33 (r : Ref sig .tc) (g : ∀ w, Pipeline.arrRef spec10 w ≠ r := by decide) :
    W33 m ρ c (Proc.devRef .tc r) = W32 m ρ c (Proc.devRef .tc r) := W33_of_ne m ρ c r g
theorem k34 (r : Ref sig .tc) (h : r ∉ hostOps11_W := by decide) :
    W34 m ρ c (Proc.devRef .tc r) = W33 m ρ c (Proc.devRef .tc r) := keepW (by repeat constructor) _ h
theorem k35 (r : Ref sig .tc) (h : r ∉ hostOps11_1_W := by decide) :
    W35 m ρ c (Proc.devRef .tc r) = W34 m ρ c (Proc.devRef .tc r) := keepW (by repeat constructor) _ h
theorem k36 (r : Ref sig .tc) (h : r ∉ hostOps11_2_W := by decide) :
    W36 m ρ c (Proc.devRef .tc r) = W35 m ρ c (Proc.devRef .tc r) := keepW (by repeat constructor) _ h
theorem k37 (r : Ref sig .tc) (g : ∀ w, Pipeline.arrRef spec11 w ≠ r := by decide) :
    W37 m ρ c (Proc.devRef .tc r) = W36 m ρ c (Proc.devRef .tc r) := W37_of_ne m ρ c r g

/-- Six consecutive steps from the layer's entry, none of which writes `r`. -/
theorem kA (r : Ref sig .tc) (h1 : r ∉ hostOps8_W := by decide) (g2 : ∀ w, Pipeline.arrRef spec8 w ≠ r := by decide)
    (h3 : r ∉ hostOps9_W := by decide) (g4 : ∀ w, Pipeline.arrRef spec9 w ≠ r := by decide)
    (h5 : r ∉ hostOps10_W := by decide) (h6 : r ∉ hostOps10_1_W := by decide) :
    W31 m ρ c (Proc.devRef .tc r) = W25 m ρ c (Proc.devRef .tc r) :=
  (k31 m ρ c r h6).trans <| (k30 m ρ c r h5).trans <| (k29 m ρ c r g4).trans <| (k28 m ρ c r h3).trans <|
    (k27 m ρ c r g2).trans (k26 m ρ c r h1)
theorem kB (r : Ref sig .tc) (h1 : r ∉ hostOps10_2_W := by decide) (g2 : ∀ w, Pipeline.arrRef spec10 w ≠ r := by decide)
    (h3 : r ∉ hostOps11_W := by decide) (h4 : r ∉ hostOps11_1_W := by decide) :
    W35 m ρ c (Proc.devRef .tc r) = W31 m ρ c (Proc.devRef .tc r) :=
  (k35 m ρ c r h4).trans <| (k34 m ρ c r h3).trans <| (k33 m ρ c r g2).trans (k32 m ρ c r h1)

/-- The edge region reads the edge attributes and does not write them. -/
theorem i27_arg2 : W27 m ρ c (Proc.devRef .tc main_arg2) = W26 m ρ c (Proc.devRef .tc main_arg2) :=
  (W27_arr m ρ c 1).trans (((dat8 (V26 m ρ) c).arrAt_in 1 rfl _).trans (A_eq8 (V26 m ρ) c 1))

local notation "Φ₂" => ΦK (W25 m ρ c (Proc.devRef Proc.tc main_v1)) (W25 m ρ c (Proc.devRef Proc.tc main_v3))
local notation "z₂" => cur (W25 m ρ c (Proc.devRef Proc.tc main_v83))
local notation "ea₂" => cur (W25 m ρ c (Proc.devRef Proc.tc main_arg2))
local notation "w1₂" => slab (W25 m ρ c (Proc.devRef Proc.tc main_arg3)) 2
local notation "b1₂" => prow (W25 m ρ c (Proc.devRef Proc.tc main_arg4)) 2
local notation "g1₂" => prow (W25 m ρ c (Proc.devRef Proc.tc main_arg5)) 2
local notation "be1₂" => prow (W25 m ρ c (Proc.devRef Proc.tc main_arg6)) 2
local notation "w2₂" => slab (W25 m ρ c (Proc.devRef Proc.tc main_arg7)) 2
local notation "b2₂" => prow (W25 m ρ c (Proc.devRef Proc.tc main_arg8)) 2
local notation "bg₂" => prow (W25 m ρ c (Proc.devRef Proc.tc main_arg9)) 2
local notation "bb₂" => prow (W25 m ρ c (Proc.devRef Proc.tc main_arg10)) 2
local notation "H1₂" => lin (self_plus (z₂) (Folds.agg (Φ₂) (msg (Folds.rows (Φ₂) (z₂)) (ea₂)))) (w1₂) (b1₂)
local notation "L₂" => layer (Φ₂) (z₂) (ea₂) (w1₂) (b1₂) (g1₂) (be1₂) (w2₂) (b2₂)

variable (hs : SrcVecOk (W25 m ρ c (Proc.devRef .tc main_v1)))
include hs

theorem v84 : cur (W26 m ρ c (Proc.devRef .tc main_v84)) = Folds.rows (Φ₂) (z₂) :=
  (congrArg cur (h8_v84 (W25 m ρ c))).trans (takeK_eq _ _ hs _)
theorem v85 : cur (W27 m ρ c (Proc.devRef .tc main_v85)) = msg (Folds.rows (Φ₂) (z₂)) (ea₂) := by
  rw [← v84 m ρ c hs, ← k26 m ρ c main_arg2]
  exact (congrArg cur (W27_arr m ρ c 2)).trans (RegVal.arr8 (V26 m ρ) c)
theorem v88 : cur (W28 m ρ c (Proc.devRef .tc main_v88)) = Folds.agg (Φ₂) (msg (Folds.rows (Φ₂) (z₂)) (ea₂)) := by
  rw [← v85 m ρ c hs, ← k26 m ρ c main_v3, ← k27 m ρ c main_v3]
  exact h9_v88 _ _
omit hs in
theorem v90 : cur (W28 m ρ c (Proc.devRef .tc main_v90)) = w1₂ := by
  rw [← k26 m ρ c main_arg3, ← k27 m ρ c main_arg3]
  exact h9_v90 _
omit hs in
theorem v93 : (cur (W28 m ρ c (Proc.devRef .tc main_v93))) 0 = b1₂ := by
  rw [← k26 m ρ c main_arg4, ← k27 m ρ c main_arg4]
  exact h9_v93 _
omit hs in
theorem v83 : W28 m ρ c (Proc.devRef .tc main_v83) = W25 m ρ c (Proc.devRef .tc main_v83) :=
  (k28 m ρ c main_v83).trans <| (k27 m ρ c main_v83).trans (k26 m ρ c main_v83)
theorem v94 : cur (W29 m ρ c (Proc.devRef .tc main_v94)) = H1₂ := by
  rw [← v88 m ρ c hs, ← v90 m ρ c, ← v93 m ρ c, ← v83 m ρ c]
  exact (congrArg cur (W29_arr m ρ c 4)).trans (RegVal.arr9 (V28 m ρ) c)
theorem v98 : (cur (W32 m ρ c (Proc.devRef .tc main_v98))) 0 = mean (Φ₂) (H1₂) := by
  rw [k32 m ρ c main_v98, k31 m ρ c main_v98, ← v94 m ρ c hs]
  exact h10_v98 _ _ _
theorem v99 : (cur (W32 m ρ c (Proc.devRef .tc main_v99))) 0 = var (Φ₂) (H1₂) := by
  rw [k32 m ρ c main_v99, show W31 m ρ c (Proc.devRef .tc main_v99) = _ from h10_1_v99 (W30 m ρ c), k30 m ρ c main_v94,
    show W30 m ρ c (Proc.devRef .tc main_c_15) = _ from h10_c15 (W29 m ρ c),
    varK_eq (W25 m ρ c (Proc.devRef .tc main_v1)) (W25 m ρ c (Proc.devRef .tc main_v3)), v94 m ρ c hs]
omit hs in
theorem v102 : (cur (W32 m ρ c (Proc.devRef .tc main_v102))) 0 = g1₂ := by
  rw [← kA m ρ c main_arg5]
  exact h10_2_v102 _
omit hs in
theorem v105 : (cur (W32 m ρ c (Proc.devRef .tc main_v105))) 0 = be1₂ := by
  rw [← kA m ρ c main_arg6]
  exact h10_2_v105 _
omit hs in
theorem v107 : cur (W32 m ρ c (Proc.devRef .tc main_v107)) = w2₂ := by
  rw [← kA m ρ c main_arg7]
  exact h10_2_v107 _
omit hs in
theorem v110 : (cur (W32 m ρ c (Proc.devRef .tc main_v110))) 0 = b2₂ := by
  rw [← kA m ρ c main_arg8]
  exact h10_2_v110 _
omit hs in
theorem v94' : W32 m ρ c (Proc.devRef .tc main_v94) = W29 m ρ c (Proc.devRef .tc main_v94) :=
  (k32 m ρ c main_v94).trans <| (k31 m ρ c main_v94).trans (k30 m ρ c main_v94)
theorem v111 : cur (W33 m ρ c (Proc.devRef .tc main_v111)) = L₂ := by
  show _ = tail (H1₂) (mean (Φ₂) (H1₂)) (var (Φ₂) (H1₂)) (g1₂) (be1₂) (w2₂) (b2₂)
  rw [← v98 m ρ c hs, ← v99 m ρ c hs, ← v102 m ρ c, ← v105 m ρ c, ← v107 m ρ c, ← v110 m ρ c, ← v94 m ρ c hs, ← v94' m ρ c]
  exact (congrArg cur (W33_arr m ρ c 7)).trans (RegVal.arr10 (V32 m ρ) c)
omit hs in
theorem v111' : W36 m ρ c (Proc.devRef .tc main_v111) = W33 m ρ c (Proc.devRef .tc main_v111) :=
  (k36 m ρ c main_v111).trans <| (k35 m ρ c main_v111).trans (k34 m ρ c main_v111)
theorem v115 : (cur (W36 m ρ c (Proc.devRef .tc main_v115))) 0 = mean (Φ₂) (L₂) := by
  rw [k36 m ρ c main_v115, k35 m ρ c main_v115, ← v111 m ρ c hs]
  exact h11_v115 _ _ _
theorem v116 : (cur (W36 m ρ c (Proc.devRef .tc main_v116))) 0 = var (Φ₂) (L₂) := by
  rw [k36 m ρ c main_v116, show W35 m ρ c (Proc.devRef .tc main_v116) = _ from h11_1_v116 (W34 m ρ c), k34 m ρ c main_v111,
    show W34 m ρ c (Proc.devRef .tc main_c_18) = _ from h11_c18 (W33 m ρ c),
    varK_eq (W25 m ρ c (Proc.devRef .tc main_v1)) (W25 m ρ c (Proc.devRef .tc main_v3)), v111 m ρ c hs]
omit hs in
theorem v119 : (cur (W36 m ρ c (Proc.devRef .tc main_v119))) 0 = bg₂ := by
  rw [← kA m ρ c main_arg9, ← kB m ρ c main_arg9]
  exact h11_2_v119 _
omit hs in
theorem v122 : (cur (W36 m ρ c (Proc.devRef .tc main_v122))) 0 = bb₂ := by
  rw [← kA m ρ c main_arg10, ← kB m ρ c main_arg10]
  exact h11_2_v122 _

theorem layer2 : cur (W37 m ρ c (Proc.devRef .tc main_v123)) = bnSelf (Φ₂) (L₂) (bg₂) (bb₂) := by
  show _ = bn (L₂) (mean (Φ₂) (L₂)) (var (Φ₂) (L₂)) (bg₂) (bb₂)
  rw [← v115 m ρ c hs, ← v116 m ρ c hs, ← v119 m ρ c, ← v122 m ρ c, ← v111 m ρ c hs, ← v111' m ρ c]
  exact (congrArg cur (W37_arr m ρ c 5)).trans (RegVal.arr11 (V36 m ρ) c)

omit hs in
theorem keep2 (b : Ref sig .tc)
    (hb : b ∈ ([main_arg0, main_arg1, main_arg2, main_arg3, main_arg4, main_arg5, main_arg6, main_arg7, main_arg8, main_arg9, main_arg10, main_v1, main_v3] : List (Ref sig .tc))) :
    W37 m ρ c (Proc.devRef .tc b) = W25 m ρ c (Proc.devRef .tc b) := by
  simp only [List.mem_cons, List.mem_singleton, List.not_mem_nil, or_false] at hb
  rcases hb with rfl | rfl | rfl | rfl | rfl | rfl | rfl | rfl | rfl | rfl | rfl | rfl | rfl
  all_goals first
    | exact (k37 m ρ c _).trans <| (k36 m ρ c _).trans <| (kB m ρ c _).trans (kA m ρ c _)
    | exact (k37 m ρ c _).trans <| (k36 m ρ c _).trans <| (kB m ρ c _).trans <| (k31 m ρ c _).trans <| (k30 m ρ c _).trans <|
        (k29 m ρ c _).trans <| (k28 m ρ c _).trans <| (i27_arg2 m ρ c).trans (k26 m ρ c _)

end Thread

end Cert.KernelIdeal.Val.L2

end
-- ==== Proof.KLayer3.lean ====
import proofs.«411739_j18880676233357_1_alg».proof.Proof.Gen.KernelIdeal.Frame
import proofs.«411739_j18880676233357_1_alg».proof.Proof.KHostB
import proofs.«411739_j18880676233357_1_alg».proof.Proof.KRegEdge
import proofs.«411739_j18880676233357_1_alg».proof.Proof.KRegStage1
import proofs.«411739_j18880676233357_1_alg».proof.Proof.KRegStage2
import Idealize.ShloMosaic.Lib.Pipeline.Value

set_option maxRecDepth 16384

noncomputable section

namespace Cert.KernelIdeal.Val.L3

open Cert.KernelIdeal Cert.KernelIdeal.Gen Cert.KernelIdeal.Val Cert.Spec
open Idealize.ShloMosaic Idealize.ShloMosaic.TcCoe Idealize.SL.Sem Idealize.ShloMosaic.ValueIdx

section Host
variable (U : Valuation τ sig (Elt Ideal))

abbrev hostOps12_W : List (Ref sig .tc) := [main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_v14, main_call9_cst, main_call9_v15, main_v124]
abbrev hostOps13_W : List (Ref sig .tc) := [main_cst_19, main_v126, main_v127, main_v128, main_v129, main_v130, main_v131, main_v132, main_v133]
abbrev hostOps14_W : List (Ref sig .tc) := [main_cst_20, main_v135, main_v136, main_cst_21, main_v137, main_v138, main_c_22]
abbrev hostOps14_1_W : List (Ref sig .tc) := [main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_v12, main_call10_cst_3, main_call10_v13, main_call10_cst_4, main_call10_call0_v0, main_call10_call0_v1, main_v139]
abbrev hostOps14_2_W : List (Ref sig .tc) := [main_v140, main_v141, main_v142, main_v143, main_v144, main_v145, main_v146, main_v147, main_v148, main_v149, main_v150]

set_option maxHeartbeats 1000000 in
theorem h12_v124 : StableHlo.after (hostOps12 (F := Ideal)) U (Proc.devRef .tc main_v124)
    = takeK (U (Proc.devRef .tc main_v123)) (U (Proc.devRef .tc main_v1)) := by
  after_results_simp
  simp only [StableHlo.TRef.ofBuf, StableHlo.TRef.toBuf, cast_eq]
  rfl

theorem h13_v128 (src : IVec S640000 32) : cur (StableHlo.after (hostOps13 (F := Ideal)) U (Proc.devRef .tc main_v128))
    = (ΦK src (U (Proc.devRef .tc main_v3))).agg (cur (U (Proc.devRef .tc main_v125))) := by
  refine (congrArg cur ?_).trans (agg_val src _ _)
  after_results
theorem h13_v130 : cur (StableHlo.after (hostOps13 (F := Ideal)) U (Proc.devRef .tc main_v130))
    = slab (U (Proc.devRef .tc main_arg3)) 3 := by
  refine (congrArg cur ?_).trans (slab_val _ 3 slices_S4x128x128_S1x128x128_3_0_0 3 rfl)
  after_results
  rfl
theorem h13_v133 : cur (StableHlo.after (hostOps13 (F := Ideal)) U (Proc.devRef .tc main_v133)) 0
    = prow (U (Proc.devRef .tc main_arg4)) 3 := by
  refine (congrFun (congrArg cur ?_) 0).trans (prow_val _ 3 slices_S4x128_S1x128_3_0 3 rfl)
  after_results
  rfl

theorem h14_v138 (src dst : IVec S640000 32) : cur (StableHlo.after (hostOps14 (F := Ideal)) U (Proc.devRef .tc main_v138)) 0
    = mean (ΦK src dst) (cur (U (Proc.devRef .tc main_v134))) := by
  refine (congrFun (congrArg cur ?_) 0).trans (meanK_eq src dst _)
  after_results
  rfl
theorem h14_c22 : StableHlo.after (hostOps14 (F := Ideal)) U (Proc.devRef .tc main_c_22) = constantI S_ 32 0#32 := by
  after_results

set_option maxHeartbeats 1000000 in
theorem h14_1_v139 : StableHlo.after (hostOps14_1 (F := Ideal)) U (Proc.devRef .tc main_v139)
    = varK (U (Proc.devRef .tc main_v134)) (U (Proc.devRef .tc main_c_22)) := by
  after_results_simp
  simp only [StableHlo.TRef.ofBuf, StableHlo.TRef.toBuf, cast_eq]
  rfl

theorem h14_2_v142 : cur (StableHlo.after (hostOps14_2 (F := Ideal)) U (Proc.devRef .tc main_v142)) 0
    = prow (U (Proc.devRef .tc main_arg5)) 3 := by
  refine (congrFun (congrArg cur ?_) 0).trans (prow_val _ 3 slices_S4x128_S1x128_3_0 3 rfl)
  after_results
  rfl
theorem h14_2_v145 : cur (StableHlo.after (hostOps14_2 (F := Ideal)) U (Proc.devRef .tc main_v145)) 0
    = prow (U (Proc.devRef .tc main_arg6)) 3 := by
  refine (congrFun (congrArg cur ?_) 0).trans (prow_val _ 3 slices_S4x128_S1x128_3_0 3 rfl)
  after_results
  rfl
theorem h14_2_v147 : cur (StableHlo.after (hostOps14_2 (F := Ideal)) U (Proc.devRef .tc main_v147))
    = slab (U (Proc.devRef .tc main_arg7)) 3 := by
  refine (congrArg cur ?_).trans (slab_val _ 3 slices_S4x128x128_S1x128x128_3_0_0 3 rfl)
  after_results
  rfl
theorem h14_2_v150 : cur (StableHlo.after (hostOps14_2 (F := Ideal)) U (Proc.devRef .tc main_v150)) 0
    = prow (U (Proc.devRef .tc main_arg8)) 3 := by
  refine (congrFun (congrArg cur ?_) 0).trans (prow_val _ 3 slices_S4x128_S1x128_3_0 3 rfl)
  after_results
  rfl

end Host

section Thread
variable (m : (ℓ : Loc nD τ sig) → Buf (Elt Ideal) ℓ) (ρ : Dev nD → PrngReg) (c : Dev nD)

theorem k38 (r : Ref sig .tc) (h : r ∉ hostOps12_W := by decide) :
    W38 m ρ c (Proc.devRef .tc r) = W37 m ρ c (Proc.devRef .tc r) := keepW (by repeat constructor) _ h
theorem k39 (r : Ref sig .tc) (g : ∀ w, Pipeline.arrRef spec12 w ≠ r := by decide) :
    W39 m ρ c (Proc.devRef .tc r) = W38 m ρ c (Proc.devRef .tc r) := W39_of_ne m ρ c r g
theorem k40 (r : Ref sig .tc) (h : r ∉ hostOps13_W := by decide) :
    W40 m ρ c (Proc.devRef .tc r) = W39 m ρ c (Proc.devRef .tc r) := keepW (by repeat constructor) _ h
theorem k41 (r : Ref sig .tc) (g : ∀ w, Pipeline.arrRef spec13 w ≠ r := by decide) :
    W41 m ρ c (Proc.devRef .tc r) = W40 m ρ c (Proc.devRef .tc r) := W41_of_ne m ρ c r g
theorem k42 (r : Ref sig .tc) (h : r ∉ hostOps14_W := by decide) :
    W42 m ρ c (Proc.devRef .tc r) = W41 m ρ c (Proc.devRef .tc r) := keepW (by repeat constructor) _ h
theorem k43 (r : Ref sig .tc) (h : r ∉ hostOps14_1_W := by decide) :
    W43 m ρ c (Proc.devRef .tc r) = W42 m ρ c (Proc.devRef .tc r) := keepW (by repeat constructor) _ h
theorem k44 (r : Ref sig .tc) (h : r ∉ hostOps14_2_W := by decide) :
    W44 m ρ c (Proc.devRef .tc r) = W43 m ρ c (Proc.devRef .tc r) := keepW (by repeat constructor) _ h

/-- Six consecutive steps from the layer's entry, none of which writes `r`. -/
theorem kA (r : Ref sig .tc) (h1 : r ∉ hostOps12_W := by decide) (g2 : ∀ w, Pipeline.arrRef spec12 w ≠ r := by decide)
    (h3 : r ∉ hostOps13_W := by decide) (g4 : ∀ w, Pipeline.arrRef spec13 w ≠ r := by decide)
    (h5 : r ∉ hostOps14_W := by decide) (h6 : r ∉ hostOps14_1_W := by decide) :
    W43 m ρ c (Proc.devRef .tc r) = W37 m ρ c (Proc.devRef .tc r) :=
  (k43 m ρ c r h6).trans <| (k42 m ρ c r h5).trans <| (k41 m ρ c r g4).trans <| (k40 m ρ c r h3).trans <|
    (k39 m ρ c r g2).trans (k38 m ρ c r h1)

local notation "Φ₃" => ΦK (W37 m ρ c (Proc.devRef Proc.tc main_v1)) (W37 m ρ c (Proc.devRef Proc.tc main_v3))
local notation "z₃" => cur (W37 m ρ c (Proc.devRef Proc.tc main_v123))
local notation "ea₃" => cur (W37 m ρ c (Proc.devRef Proc.tc main_arg2))
local notation "w1₃" => slab (W37 m ρ c (Proc.devRef Proc.tc main_arg3)) 3
local notation "b1₃" => prow (W37 m ρ c (Proc.devRef Proc.tc main_arg4)) 3
local notation "g1₃" => prow (W37 m ρ c (Proc.devRef Proc.tc main_arg5)) 3
local notation "be1₃" => prow (W37 m ρ c (Proc.devRef Proc.tc main_arg6)) 3
local notation "w2₃" => slab (W37 m ρ c (Proc.devRef Proc.tc main_arg7)) 3
local notation "b2₃" => prow (W37 m ρ c (Proc.devRef Proc.tc main_arg8)) 3
local notation "H1₃" => lin (self_plus (z₃) (Folds.agg (Φ₃) (msg (Folds.rows (Φ₃) (z₃)) (ea₃)))) (w1₃) (b1₃)
local notation "L₃" => layer (Φ₃) (z₃) (ea₃) (w1₃) (b1₃) (g1₃) (be1₃) (w2₃) (b2₃)

variable (hs : SrcVecOk (W37 m ρ c (Proc.devRef .tc main_v1)))
include hs

theorem v124 : cur (W38 m ρ c (Proc.devRef .tc main_v124)) = Folds.rows (Φ₃) (z₃) :=
  (congrArg cur (h12_v124 (W37 m ρ c))).trans (takeK_eq _ _ hs _)
theorem v125 : cur (W39 m ρ c (Proc.devRef .tc main_v125)) = msg (Folds.rows (Φ₃) (z₃)) (ea₃) := by
  rw [← v124 m ρ c hs, ← k38 m ρ c main_arg2]
  exact (congrArg cur (W39_arr m ρ c 2)).trans (RegVal.arr12 (V38 m ρ) c)
theorem v128 : cur (W40 m ρ c (Proc.devRef .tc main_v128)) = Folds.agg (Φ₃) (msg (Folds.rows (Φ₃) (z₃)) (ea₃)) := by
  rw [← v125 m ρ c hs, ← k38 m ρ c main_v3, ← k39 m ρ c main_v3]
  exact h13_v128 _ _
omit hs in
theorem v130 : cur (W40 m ρ c (Proc.devRef .tc main_v130)) = w1₃ := by
  rw [← k38 m ρ c main_arg3, ← k39 m ρ c main_arg3]
  exact h13_v130 _
omit hs in
theorem v133 : (cur (W40 m ρ c (Proc.devRef .tc main_v133))) 0 = b1₃ := by
  rw [← k38 m ρ c main_arg4, ← k39 m ρ c main_arg4]
  exact h13_v133 _
omit hs in
theorem v123 : W40 m ρ c (Proc.devRef .tc main_v123) = W37 m ρ c (Proc.devRef .tc main_v123) :=
  (k40 m ρ c main_v123).trans <| (k39 m ρ c main_v123).trans (k38 m ρ c main_v123)
theorem v134 : cur (W41 m ρ c (Proc.devRef .tc main_v134)) = H1₃ := by
  rw [← v128 m ρ c hs, ← v130 m ρ c, ← v133 m ρ c, ← v123 m ρ c]
  exact (congrArg cur (W41_arr m ρ c 4)).trans (RegVal.arr13 (V40 m ρ) c)
theorem v138 : (cur (W44 m ρ c (Proc.devRef .tc main_v138))) 0 = mean (Φ₃) (H1₃) := by
  rw [k44 m ρ c main_v138, k43 m ρ c main_v138, ← v134 m ρ c hs]
  exact h14_v138 _ _ _
theorem v139 : (cur (W44 m ρ c (Proc.devRef .tc main_v139))) 0 = var (Φ₃) (H1₃) := by
  rw [k44 m ρ c main_v139, show W43 m ρ c (Proc.devRef .tc main_v139) = _ from h14_1_v139 (W42 m ρ c), k42 m ρ c main_v134,
    show W42 m ρ c (Proc.devRef .tc main_c_22) = _ from h14_c22 (W41 m ρ c),
    varK_eq (W37 m ρ c (Proc.devRef .tc main_v1)) (W37 m ρ c (Proc.devRef .tc main_v3)), v134 m ρ c hs]
omit hs in
theorem v142 : (cur (W44 m ρ c (Proc.devRef .tc main_v142))) 0 = g1₃ := by
  rw [← kA m ρ c main_arg5]
  exact h14_2_v142 _
omit hs in
theorem v145 : (cur (W44 m ρ c (Proc.devRef .tc main_v145))) 0 = be1₃ := by
  rw [← kA m ρ c main_arg6]
  exact h14_2_v145 _
omit hs in
theorem v147 : cur (W44 m ρ c (Proc.devRef .tc main_v147)) = w2₃ := by
  rw [← kA m ρ c main_arg7]
  exact h14_2_v147 _
omit hs in
theorem v150 : (cur (W44 m ρ c (Proc.devRef .tc main_v150))) 0 = b2₃ := by
  rw [← kA m ρ c main_arg8]
  exact h14_2_v150 _
omit hs in
theorem v134' : W44 m ρ c (Proc.devRef .tc main_v134) = W41 m ρ c (Proc.devRef .tc main_v134) :=
  (k44 m ρ c main_v134).trans <| (k43 m ρ c main_v134).trans (k42 m ρ c main_v134)

theorem layer3 : cur (W45 m ρ c (Proc.devRef .tc main_v151)) = L₃ := by
  show _ = tail (H1₃) (mean (Φ₃) (H1₃)) (var (Φ₃) (H1₃)) (g1₃) (be1₃) (w2₃) (b2₃)
  rw [← v138 m ρ c hs, ← v139 m ρ c hs, ← v142 m ρ c, ← v145 m ρ c, ← v147 m ρ c, ← v150 m ρ c, ← v134 m ρ c hs, ← v134' m ρ c]
  exact (congrArg cur (W45_arr m ρ c 7)).trans (RegVal.arr14 (V44 m ρ) c)

end Thread

end Cert.KernelIdeal.Val.L3

end
-- ==== Proof.RStages.lean ====
import proofs.«411739_j18880676233357_1_alg».proof.Proof.RFolds
import Idealize.ShloMosaic.PureOps.Ideal.Laws
import Idealize.ShloMosaic.Lib.Pipeline.Value
import Idealize.ShloMosaic.Lib.IdealHost
import Idealize.ShloMosaic.Lib.KernelVsHost
import Idealize.ShloMosaic.Lib.StackMember
import Idealize.ShloMosaic.Lib.StableHlo.Run

noncomputable section

namespace Cert.ReferenceIdeal.Val

open Cert.ReferenceIdeal Cert.ReferenceIdeal.Gen Cert.Spec Idealize.ShloMosaic Idealize.ShloMosaic.ValueIdx
open Idealize.ShloMosaic.TcCoe Idealize.SL.Sem Idealize.ShloMosaic.StableHlo

abbrev NodeA := FVec Ideal S50000x128 .f32
abbrev EdgeA := FVec Ideal S640000x128 .f32
abbrev VecA := FVec Ideal S128 .f32

/-- What a layer reads besides its input: the contents of the buffers below 15. -/
abbrev Par := (r : Ref sig .tc) → r.idx.val < 15 → (Proc.devRef (τ := τ) .tc r).ty.Contents (Elt Ideal)

theorem sl3 (ℓ : Fin 4) : S4x128x128.Slices ![ℓ.val, 0, 0] S1x128x128 := by revert ℓ; decide
theorem sl2 {n : Nat} (ℓ : Fin n) (h : n = 3 ∨ n = 4) :
    (⟨2, ![n, 128]⟩ : Shape).Slices ![ℓ.val, 0] S1x128 := by
  rcases h with rfl | rfl <;> (revert ℓ; decide)

def zeroA (T : Shape) (hb : S_.BroadcastsInDim T ![]) : FVec Ideal T .f32 :=
  broadcastInDim T ![] hb (constant (F := Ideal) S_ .f32 0x00000000#32)

def reluA {n : Nat} (hb : S_.BroadcastsInDim ⟨2, ![n, 128]⟩ ![]) (h : FVec Ideal ⟨2, ![n, 128]⟩ .f32) :
    FVec Ideal ⟨2, ![n, 128]⟩ .f32 := maximumf h (zeroA _ hb)

def rowA {n : Nat} (B : FVec Ideal ⟨2, ![n, 128]⟩ .f32) (ℓ : Fin n)
    (hs : (⟨2, ![n, 128]⟩ : Shape).Slices ![ℓ.val, 0] S1x128) : VecA :=
  shapeCast S128 (extractStridedSlice S1x128 ![ℓ.val, 0] B hs) shapeCasts_S1x128_S128

def slabA (W : FVec Ideal S4x128x128 .f32) (ℓ : Fin 4) : FVec Ideal S128x128 .f32 :=
  shapeCast S128x128 (extractStridedSlice S1x128x128 ![ℓ.val, 0, 0] W (sl3 ℓ)) shapeCasts_S1x128x128_S128x128

def rowsA (v : VecA) : NodeA :=
  broadcastInDim S50000x128 ![0, 1] bcast_S1x128_S50000x128_0_1 (broadcastInDim S1x128 ![1] bcast_S128_S1x128_1 v)

def linA (h : NodeA) (w : FVec Ideal S128x128 .f32) (b : VecA) : NodeA :=
  addf (Host.dotGeneral (F := Ideal) dot_S50000x128_S128x128_S50000x128_1_0_0_1_n_n none h w) (rowsA b)

def sumA (h : NodeA) : VecA :=
  Host.reduceAdd (F := Ideal) h (constant (F := Ideal) S_ .f32 0x00000000#32) reducesTo_S50000x128_S128_d0 h_S_

def meanA (h : NodeA) : VecA :=
  Host.divf (sumA h) (broadcastInDim S128 ![] bcast_S_S128 (constant (F := Ideal) S_ .f32 0x47435000#32))

def centreA (h : NodeA) : NodeA :=
  subf h (broadcastInDim S50000x128 ![0, 1] bcast_S1x128_S50000x128_0_1
    (Host.divf (broadcastInDim S1x128 ![1] bcast_S128_S1x128_1 (sumA h))
      (broadcastInDim S1x128 ![] bcast_S_S1x128 (constant (F := Ideal) S_ .f32 0x47435000#32))))

def ndA : FVec Ideal S_ .f32 :=
  subf (constant (F := Ideal) S_ .f32 0x47435000#32) (sitofp (F := Ideal) .f32 (constantI S_ 32 0#32))

def varA (h : NodeA) : VecA :=
  select (broadcastInDim S128 ![] bcast_S_S128 (cmpf .ogt ndA (constant (F := Ideal) S_ .f32 0x00000000#32)))
    (Host.divf (sumA (mulf (centreA h) (centreA h))) (broadcastInDim S128 ![] bcast_S_S128 ndA))
    (broadcastInDim S128 ![] bcast_S_S128 (constant (F := Ideal) S_ .f32 0x7FC00000#32))

def bnA (h : NodeA) (mu va g be : VecA) : NodeA :=
  addf (mulf (mulf (rowsA g) (subf h (rowsA mu)))
    (rowsA (Host.rsqrt (addf va (broadcastInDim S128 ![] bcast_S_S128 (constant (F := Ideal) S_ .f32 0x3727C5AC#32)))))) (rowsA be)

def bnSelfA (h : NodeA) (g be : VecA) : NodeA := bnA h (meanA h) (varA h) g be

variable (p : Par)

/-- The first linear layer of slice ℓ, of a node's own row plus the messages summed into it. -/
def h1A (ℓ : Fin 4) (z : NodeA) : NodeA :=
  linA (addf z (Host.scatterAdd (F := Ideal) scatter_S50000x128_S640000x1_S640000x128_1_0_0_1 (zeroA _ bcast_S_S50000x128)
      (broadcastInDim S640000x1 ![0] bcast_S640000_S640000x1_0 (p main_v3 (by decide)))
      (reluA bcast_S_S640000x128 (addf (Host.gather gather_S50000x128_S640000x1_S640000x128_1_0_n_n_0_1_1128 z
        (idxOf (p main_v1 (by decide)))) (p main_arg2 (by decide))))))
    (slabA (p main_arg3 (by decide)) ℓ) (rowA (p main_arg4 (by decide)) ℓ (sl2 ℓ (.inr rfl)))

/-- Layer ℓ on whole arrays. -/
def layerA (ℓ : Fin 4) (z : NodeA) : NodeA :=
  reluA bcast_S_S50000x128 (linA (reluA bcast_S_S50000x128 (bnA (h1A p ℓ z) (meanA (h1A p ℓ z)) (varA (h1A p ℓ z))
      (rowA (p main_arg5 (by decide)) ℓ (sl2 ℓ (.inr rfl))) (rowA (p main_arg6 (by decide)) ℓ (sl2 ℓ (.inr rfl)))))
    (slabA (p main_arg7 (by decide)) ℓ) (rowA (p main_arg8 (by decide)) ℓ (sl2 ℓ (.inr rfl))))

/-- The normalisation after layer ℓ on whole arrays. -/
def normA (ℓ : Fin 3) (h : NodeA) : NodeA :=
  bnSelfA h (rowA (p main_arg9 (by decide)) ℓ (sl2 ℓ (.inl rfl))) (rowA (p main_arg10 (by decide)) ℓ (sl2 ℓ (.inl rfl)))

theorem cur_reluA {n : Nat} (hb : S_.BroadcastsInDim ⟨2, ![n, 128]⟩ ![]) (h : FVec Ideal ⟨2, ![n, 128]⟩ .f32) :
    cur (reluA hb h) = relu (cur h) := by
  funext r j
  show max (h (ix2 r j)) (Ideal.ofBits .f32 0x00000000#32) = max (h (ix2 r j)) 0
  rw [Ideal.ofBits_zero_f32]

theorem cur1_rowA {n : Nat} (B : FVec Ideal ⟨2, ![n, 128]⟩ .f32) (ℓ : Fin n)
    (hs : (⟨2, ![n, 128]⟩ : Shape).Slices ![ℓ.val, 0] S1x128) : cur1 (rowA B ℓ hs) = prow B ℓ := by
  funext j
  refine (shapeCast_dropUnit_apply ![128] _ shapeCasts_S1x128_S128 (ix1 j)).trans ?_
  refine extractStridedSlice_apply ![ℓ.val, 0] B hs _ (ix2 ℓ j) ?_
  intro a
  match a with
  | ⟨0, _⟩ => exact (Nat.add_zero _).symm
  | ⟨1, _⟩ => exact (Nat.zero_add _).symm

theorem cur_slabA (W : FVec Ideal S4x128x128 .f32) (ℓ : Fin 4) : cur (slabA W ℓ) = slab W ℓ := by
  funext k j
  refine (shapeCast_dropUnit_apply ![128, 128] _ shapeCasts_S1x128x128_S128x128 (ix2 k j)).trans ?_
  refine extractStridedSlice_apply ![ℓ.val, 0, 0] W (sl3 ℓ) _ (ix3 ℓ k j) ?_
  intro a
  match a with
  | ⟨0, _⟩ => exact (Nat.add_zero _).symm
  | ⟨1, _⟩ => exact (Nat.zero_add _).symm
  | ⟨2, _⟩ => exact (Nat.zero_add _).symm

theorem row_apply (b : VecA) (j : Fin 128) :
    broadcastInDim S1x128 ![1] bcast_S128_S1x128_1 b (ix2 (0 : Fin 1) j) = b (ix1 j) := by
  refine broadcastInDim_apply ![1] bcast_S128_S1x128_1 b (ix2 (0 : Fin 1) j) (ix1 j) ?_
  intro a
  fin_cases a
  show j.val = if (128 : ℕ) = 1 then 0 else j.val
  rw [if_neg (by decide)]

theorem rowsA_apply (v : VecA) (r : Fin 50000) (j : Fin 128) : rowsA v (ix2 r j) = v (ix1 j) :=
  (broadcastInDim_oneRow_apply bcast_S1x128_S50000x128_0_1 _ r j).trans (row_apply v j)

theorem cur_linA (h : NodeA) (w : FVec Ideal S128x128 .f32) (b : VecA) : cur (linA h w b) = lin (cur h) (cur w) (cur1 b) := by
  funext r j
  show Host.dotGeneral (DotDims.plain 50000 128 128) none h w (ix2 r j) + rowsA b (ix2 r j) = _
  rw [StackMember.dotGeneral_plain_apply, rowsA_apply]
  rfl

variable (s d : IVec S640000 32)

theorem colsum_cur (h : NodeA) : (ΦR s d).colsum (cur h) = cur1 (sumA h) :=
  congrArg (fun A => cur1 (Host.reduceAdd (F := Ideal) A (constant (F := Ideal) S_ .f32 0x00000000#32) reducesTo_S50000x128_S128_d0 h_S_))
    (unc_cur h)

theorem cur1_meanA (h : NodeA) : cur1 (meanA h) = mean (ΦR s d) (cur h) := by
  funext j
  show Ideal.div (sumA h (ix1 j)) nF = Ideal.div ((ΦR s d).colsum (cur h) j) nF
  rw [colsum_cur]

theorem centreA_apply (h : NodeA) (r : Fin 50000) (k : Fin 128) :
    centreA h (ix2 r k) = h (ix2 r k) - mean (ΦR s d) (cur h) k := by
  show h (ix2 r k) - _ = _
  refine congrArg (h (ix2 r k) - ·) ((broadcastInDim_oneRow_apply bcast_S1x128_S50000x128_0_1 _ r k).trans ?_)
  show Ideal.div (broadcastInDim S1x128 ![1] bcast_S128_S1x128_1 (sumA h) (ix2 (0 : Fin 1) k)) nF = Ideal.div ((ΦR s d).colsum (cur h) k) nF
  rw [colsum_cur, row_apply]

theorem cur1_varA (h : NodeA) : cur1 (varA h) = var (ΦR s d) (cur h) := by
  have hc : mulf (centreA h) (centreA h) = unc (csq (ΦR s d) (cur h)) := by
    refine (unc_cur _).symm.trans (congrArg unc ?_)
    funext r k
    show centreA h (ix2 r k) * centreA h (ix2 r k) = _
    rw [centreA_apply s d]
    rfl
  funext j
  show Scalar.select guard (Ideal.div (sumA (mulf (centreA h) (centreA h)) (ix1 j)) ndF) junk
    = Scalar.select guard (Ideal.div ((ΦR s d).colsum (csq (ΦR s d) (cur h)) j) ndF) junk
  rw [hc]
  rfl

theorem cur_bnA (h : NodeA) (mu va g be : VecA) : cur (bnA h mu va g be) = bn (cur h) (cur1 mu) (cur1 va) (cur1 g) (cur1 be) := by
  funext r j
  show rowsA g (ix2 r j) * (h (ix2 r j) - rowsA mu (ix2 r j))
      * rowsA (Host.rsqrt (addf va (broadcastInDim S128 ![] bcast_S_S128 (constant (F := Ideal) S_ .f32 0x3727C5AC#32)))) (ix2 r j)
      + rowsA be (ix2 r j) = _
  rw [rowsA_apply, rowsA_apply, rowsA_apply, rowsA_apply]
  rfl

theorem cur_bnSelfA (h : NodeA) (g be : VecA) : cur (bnSelfA h g be) = bnSelf (ΦR s d) (cur h) (cur1 g) (cur1 be) := by
  unfold bnSelfA
  rw [cur_bnA, cur1_meanA s d, cur1_varA s d]
  rfl

/-- The gather at the wrapped source indices and the scatter-add into zero are the row fold and the aggregation. -/
theorem cur_h1A (ℓ : Fin 4) (z : NodeA) :
    cur (h1A p ℓ z) = lin (self_plus (cur z) ((ΦR (p main_v1 (by decide)) (p main_v3 (by decide))).agg
        (msg ((ΦR (p main_v1 (by decide)) (p main_v3 (by decide))).rows (cur z)) (cur (p main_arg2 (by decide))))))
      (slab (p main_arg3 (by decide)) ℓ) (prow (p main_arg4 (by decide)) ℓ) := by
  unfold h1A
  rw [cur_linA, cur_slabA, cur1_rowA]
  refine congrArg (lin · _ _) ?_
  have hm : reluA bcast_S_S640000x128 (addf (Host.gather gather_S50000x128_S640000x1_S640000x128_1_0_n_n_0_1_1128 z
      (idxOf (p main_v1 (by decide)))) (p main_arg2 (by decide)))
      = unc (msg ((ΦR (p main_v1 (by decide)) (p main_v3 (by decide))).rows (cur z)) (cur (p main_arg2 (by decide)))) := by
    refine (unc_cur _).symm.trans (congrArg unc ?_)
    rw [cur_reluA]
    funext e j
    show max (Host.gather gather_S50000x128_S640000x1_S640000x128_1_0_n_n_0_1_1128 z (idxOf (p main_v1 (by decide))) (ix2 e j) + _) 0
      = max (Host.gather gather_S50000x128_S640000x1_S640000x128_1_0_n_n_0_1_1128 (unc (cur z)) (idxOf (p main_v1 (by decide))) (ix2 e j) + _) 0
    rw [unc_cur]
  rw [hm]
  rfl

theorem cur_layerA (ℓ : Fin 4) (z : NodeA) :
    cur (layerA p ℓ z) = layer (ΦR (p main_v1 (by decide)) (p main_v3 (by decide))) (cur z) (cur (p main_arg2 (by decide)))
      (slab (p main_arg3 (by decide)) ℓ) (prow (p main_arg4 (by decide)) ℓ) (prow (p main_arg5 (by decide)) ℓ)
      (prow (p main_arg6 (by decide)) ℓ) (slab (p main_arg7 (by decide)) ℓ) (prow (p main_arg8 (by decide)) ℓ) := by
  unfold layerA
  rw [cur_reluA, cur_linA, cur_reluA, cur_bnA, cur1_meanA (p main_v1 (by decide)) (p main_v3 (by decide)),
    cur1_varA (p main_v1 (by decide)) (p main_v3 (by decide)), cur_h1A, cur_slabA, cur1_rowA, cur1_rowA, cur1_rowA]
  rfl

theorem cur_normA (ℓ : Fin 3) (h : NodeA) :
    cur (normA p ℓ h) = bnSelf (ΦR (p main_v1 (by decide)) (p main_v3 (by decide))) (cur h)
      (prow (p main_arg9 (by decide)) ℓ) (prow (p main_arg10 (by decide)) ℓ) := by
  unfold normA
  rw [cur_bnSelfA (p main_v1 (by decide)) (p main_v3 (by decide)), cur1_rowA, cur1_rowA]

end Cert.ReferenceIdeal.Val

end
-- ==== Proof.RFront.lean ====
import proofs.«411739_j18880676233357_1_alg».proof.Proof.RRun
import proofs.«411739_j18880676233357_1_alg».proof.Proof.RStages

noncomputable section

namespace Cert.ReferenceIdeal.Val

open Cert.ReferenceIdeal Cert.ReferenceIdeal.Gen Cert.ReferenceIdeal.RefRun Cert.Spec
open Idealize.ShloMosaic Idealize.ShloMosaic.ValueIdx Idealize.ShloMosaic.TcCoe Idealize.SL.Sem Idealize.ShloMosaic.StableHlo

/-- The cut of the edge index into its two rows. -/
def A0 : List (HloOp τ sig (Elt Ideal)) := ops0.take 4
/-- Layer 0. -/
def L0 : List (HloOp τ sig (Elt Ideal)) := ops0.drop 4 ++ ops1.take 7
/-- The normalisation after layer 0. -/
def N0 : List (HloOp τ sig (Elt Ideal)) := (ops1.take 55).drop 7

attribute [local irreducible] Host.gather Host.scatterAdd Host.reduceAdd

theorem A0_val (V : Valuation τ sig (Elt Ideal)) :
    after A0 V (main_v1 : DevRef τ sig) = srcOf (V (main_arg1 : DevRef τ sig)) ∧ after A0 V (main_v3 : DevRef τ sig) = dstOf (V (main_arg1 : DevRef τ sig)) := by
  simp only [A0, ops0, List.take_succ_cons, List.take_zero, after_cons, after_nil]
  exact ⟨rfl, rfl⟩

theorem run_L0 (W : Valuation τ sig (Elt Ideal)) :
    after L0 W (main_v57 : DevRef τ sig) = layerA (low W) 0 (W (main_arg0 : DevRef τ sig)) := by
  simp only [L0, ops0, ops1, List.take_succ_cons, List.take_zero, List.drop_succ_cons, List.drop_zero, List.cons_append, List.nil_append]
  after_results_simp
  rfl

theorem run_N0 (W : Valuation τ sig (Elt Ideal)) :
    after N0 W (main_v80 : DevRef τ sig) = normA (low W) 0 (W (main_v57 : DevRef τ sig)) := by
  simp only [N0, ops1, List.take_succ_cons, List.take_zero, List.drop_succ_cons, List.drop_zero, List.cons_append, List.nil_append]
  after_results_simp
  rfl

end Cert.ReferenceIdeal.Val

end
-- ==== Proof.RFrontB.lean ====
import proofs.«411739_j18880676233357_1_alg».proof.Proof.RRun
import proofs.«411739_j18880676233357_1_alg».proof.Proof.RStages

noncomputable section

namespace Cert.ReferenceIdeal.Val

open Cert.ReferenceIdeal Cert.ReferenceIdeal.Gen Cert.ReferenceIdeal.RefRun Cert.Spec
open Idealize.ShloMosaic Idealize.ShloMosaic.ValueIdx Idealize.ShloMosaic.TcCoe Idealize.SL.Sem Idealize.ShloMosaic.StableHlo

/-- Layer 1. -/
def L1 : List (HloOp τ sig (Elt Ideal)) := ops1.drop 55 ++ ops2.take 58
/-- The normalisation after layer 1. -/
def N1 : List (HloOp τ sig (Elt Ideal)) := ops2.drop 58

attribute [local irreducible] Host.gather Host.scatterAdd Host.reduceAdd

theorem run_L1 (W : Valuation τ sig (Elt Ideal)) :
    after L1 W (main_v134 : DevRef τ sig) = layerA (low W) 1 (W (main_v80 : DevRef τ sig)) := by
  simp only [L1, ops1, ops2, List.take_succ_cons, List.take_zero, List.drop_succ_cons, List.drop_zero, List.cons_append, List.nil_append]
  after_results_simp
  rfl

theorem run_N1 (W : Valuation τ sig (Elt Ideal)) :
    after N1 W (main_v157 : DevRef τ sig) = normA (low W) 1 (W (main_v134 : DevRef τ sig)) := by
  simp only [N1, ops2, List.take_succ_cons, List.take_zero, List.drop_succ_cons, List.drop_zero, List.cons_append, List.nil_append]
  after_results_simp
  rfl

end Cert.ReferenceIdeal.Val

end
-- ==== Proof.RBack.lean ====
import proofs.«411739_j18880676233357_1_alg».proof.Proof.RRun
import proofs.«411739_j18880676233357_1_alg».proof.Proof.RStages

noncomputable section

namespace Cert.ReferenceIdeal.Val

open Cert.ReferenceIdeal Cert.ReferenceIdeal.Gen Cert.ReferenceIdeal.RefRun Cert.Spec
open Idealize.ShloMosaic Idealize.ShloMosaic.ValueIdx Idealize.ShloMosaic.TcCoe Idealize.SL.Sem Idealize.ShloMosaic.StableHlo

/-- Layer 2. -/
def L2 : List (HloOp τ sig (Elt Ideal)) := ops3 ++ ops4.take 3
/-- The normalisation after layer 2. -/
def N2 : List (HloOp τ sig (Elt Ideal)) := (ops4.drop 3).take 48
/-- Layer 3. -/
def L3 : List (HloOp τ sig (Elt Ideal)) := ops4.drop 51 ++ ops5

attribute [local irreducible] Host.gather Host.scatterAdd Host.reduceAdd

theorem run_L2 (W : Valuation τ sig (Elt Ideal)) :
    after L2 W (main_v211 : DevRef τ sig) = layerA (low W) 2 (W (main_v157 : DevRef τ sig)) := by
  simp only [L2, ops3, ops4, List.take_succ_cons, List.take_zero, List.drop_succ_cons, List.drop_zero, List.cons_append, List.nil_append]
  after_results_simp
  rfl

theorem run_N2 (W : Valuation τ sig (Elt Ideal)) :
    after N2 W (main_v234 : DevRef τ sig) = normA (low W) 2 (W (main_v211 : DevRef τ sig)) := by
  simp only [N2, ops4, List.take_succ_cons, List.take_zero, List.drop_succ_cons, List.drop_zero, List.cons_append, List.nil_append]
  after_results_simp
  rfl

theorem run_L3 (W : Valuation τ sig (Elt Ideal)) :
    after L3 W (main_v288 : DevRef τ sig) = layerA (low W) 3 (W (main_v234 : DevRef τ sig)) := by
  simp only [L3, ops4, ops5, List.take_succ_cons, List.take_zero, List.drop_succ_cons, List.drop_zero, List.cons_append, List.nil_append]
  after_results_simp
  rfl

end Cert.ReferenceIdeal.Val

end
-- ==== Proof.RNet.lean ====
import proofs.«411739_j18880676233357_1_alg».proof.Proof.RFront
import proofs.«411739_j18880676233357_1_alg».proof.Proof.RFrontB
import proofs.«411739_j18880676233357_1_alg».proof.Proof.RBack

noncomputable section

namespace Cert.ReferenceIdeal.Val

open Cert.ReferenceIdeal Cert.ReferenceIdeal.Gen Cert.ReferenceIdeal.RefRun Cert.Spec
open Idealize.ShloMosaic Idealize.ShloMosaic.ValueIdx Idealize.ShloMosaic.TcCoe Idealize.SL.Sem Idealize.ShloMosaic.StableHlo

/-- The program is the cut of the edge index, then the four layers with a normalisation after each but the last. -/
theorem cut : (ops : List (HloOp τ sig (Elt Ideal))) = A0 ++ (L0 ++ (N0 ++ (L1 ++ (N1 ++ (L2 ++ (N2 ++ L3)))))) := rfl

/-- Each stretch is a whole-array stage of what the one before left and of the buffers below 15, which none of them writes. -/
theorem rnet (V : Valuation τ sig (Elt Ideal)) :
    cur (after ops V (main_v288 : DevRef τ sig))
      = Spec.net (ΦR (srcOf (V (main_arg1 : DevRef τ sig))) (dstOf (V (main_arg1 : DevRef τ sig)))) (cur (V (main_arg0 : DevRef τ sig))) (cur (V (main_arg2 : DevRef τ sig)))
        (fun i => slab (V (main_arg3 : DevRef τ sig)) i) (fun i => prow (V (main_arg4 : DevRef τ sig)) i) (fun i => prow (V (main_arg5 : DevRef τ sig)) i)
        (fun i => prow (V (main_arg6 : DevRef τ sig)) i) (fun i => slab (V (main_arg7 : DevRef τ sig)) i) (fun i => prow (V (main_arg8 : DevRef τ sig)) i)
        (fun i => prow (V (main_arg9 : DevRef τ sig)) i) (fun i => prow (V (main_arg10 : DevRef τ sig)) i) := by
  have k := keep (L := A0) (ops0_keep.take 4) V
  rw [cut, after_append, after_append, after_append, after_append, after_append, after_append, after_append,
    run_L3, run_N2, low_after (L := N2) ((ops4_low.drop 3).take 48), run_L2, low_after (L := L2) (ops3_low.app (ops4_low.take 3)),
    run_N1, low_after (L := N1) (ops2_low.drop 58), run_L1, low_after (L := L1) ((ops1_low.drop 55).app (ops2_low.take 58)),
    run_N0, low_after (L := N0) ((ops1_low.take 55).drop 7), run_L0, low_after (L := L0) (ops0_low.app (ops1_low.take 7)),
    cur_layerA, cur_normA, cur_layerA, cur_normA, cur_layerA, cur_normA, cur_layerA]
  simp only [low]
  rw [(A0_val V).1, (A0_val V).2, k main_arg0 (by decide), k main_arg2 (by decide), k main_arg3 (by decide),
    k main_arg4 (by decide), k main_arg5 (by decide), k main_arg6 (by decide), k main_arg7 (by decide),
    k main_arg8 (by decide), k main_arg9 (by decide), k main_arg10 (by decide)]
  rfl

end Cert.ReferenceIdeal.Val

end
-- ==== Proof.Bridge.lean ====
import proofs.«411739_j18880676233357_1_alg».proof.Proof.Gen.KernelIdeal.Frame
import proofs.«411739_j18880676233357_1_alg».proof.Proof.KFolds
import proofs.«411739_j18880676233357_1_alg».proof.Proof.RFolds
import proofs.«411739_j18880676233357_1_alg».proof.Proof.PreSrc
import proofs.«411739_j18880676233357_1_alg».proof.Proof.KLayer0
import proofs.«411739_j18880676233357_1_alg».proof.Proof.KLayer1
import proofs.«411739_j18880676233357_1_alg».proof.Proof.KLayer2
import proofs.«411739_j18880676233357_1_alg».proof.Proof.KLayer3
import proofs.«411739_j18880676233357_1_alg».proof.Proof.RRun
import proofs.«411739_j18880676233357_1_alg».proof.Proof.RNet
import Idealize.ShloMosaic.Lib.StableHlo.Run

set_option maxRecDepth 16384

noncomputable section

namespace Cert.Bridge

open Idealize.ShloMosaic Cert.Spec

section KernelSide

open Cert.KernelIdeal Cert.KernelIdeal.Gen Cert.KernelIdeal.Val
open Idealize.ShloMosaic.TcCoe Idealize.SL.Sem Idealize.ShloMosaic.StableHlo

variable (m : (ℓ : Loc nD τ sig) → Buf (Elt Ideal) ℓ) (ρ : Dev nD → PrngReg)

theorem W1_src (c : Dev nD) : W1 m ρ c (Proc.devRef .tc main_v1) = srcOf (m ((c : Thread nD τ).loc main_arg1)) := by
  show StableHlo.after hostOps0 (W0 m ρ c) (Proc.devRef .tc main_v1) = _
  after_results
  rfl

theorem W1_dst (c : Dev nD) : W1 m ρ c (Proc.devRef .tc main_v3) = dstOf (m ((c : Thread nD τ).loc main_arg1)) := by
  show StableHlo.after hostOps0 (W0 m ρ c) (Proc.devRef .tc main_v3) = _
  after_results
  rfl

theorem W1_arg (c : Dev nD) {b : Ref sig .tc}
    (hb : b ∈ [main_arg0, main_arg2, main_arg3, main_arg4, main_arg5, main_arg6, main_arg7, main_arg8, main_arg9, main_arg10]) :
    W1 m ρ c (Proc.devRef .tc b) = m ((c : Thread nD τ).loc b) := by
  simp only [List.mem_cons, List.not_mem_nil, or_false] at hb
  rcases hb with rfl | rfl | rfl | rfl | rfl | rfl | rfl | rfl | rfl | rfl <;>
    (show StableHlo.after hostOps0 (W0 m ρ c) _ = _; after_results)

abbrev inputs : List (Ref sig .tc) := [main_arg0, main_arg1, main_arg2, main_arg3, main_arg4, main_arg5, main_arg6, main_arg7, main_arg8, main_arg9, main_arg10, main_v1, main_v3]

def layerAt (X : Valuation τ sig (Elt Ideal)) (z : Mat 50000 128) (ℓ : Fin 4) : Mat 50000 128 :=
  layer (ΦK (X (Proc.devRef .tc main_v1)) (X (Proc.devRef .tc main_v3))) z (cur (X (Proc.devRef .tc main_arg2)))
    (slab (X (Proc.devRef .tc main_arg3)) ℓ) (prow (X (Proc.devRef .tc main_arg4)) ℓ) (prow (X (Proc.devRef .tc main_arg5)) ℓ)
    (prow (X (Proc.devRef .tc main_arg6)) ℓ) (slab (X (Proc.devRef .tc main_arg7)) ℓ) (prow (X (Proc.devRef .tc main_arg8)) ℓ)

def bnAt (X : Valuation τ sig (Elt Ideal)) (h : Mat 50000 128) (ℓ : Fin 3) : Mat 50000 128 :=
  bnSelf (ΦK (X (Proc.devRef .tc main_v1)) (X (Proc.devRef .tc main_v3))) h (prow (X (Proc.devRef .tc main_arg9)) ℓ) (prow (X (Proc.devRef .tc main_arg10)) ℓ)

theorem layerAt_congr {X Y : Valuation τ sig (Elt Ideal)}
    (h : ∀ b ∈ inputs, X (Proc.devRef .tc b) = Y (Proc.devRef .tc b)) (z : Mat 50000 128) (ℓ : Fin 4) :
    layerAt X z ℓ = layerAt Y z ℓ := by
  unfold layerAt
  rw [h main_v1 (by decide), h main_v3 (by decide), h main_arg2 (by decide), h main_arg3 (by decide), h main_arg4 (by decide),
    h main_arg5 (by decide), h main_arg6 (by decide), h main_arg7 (by decide), h main_arg8 (by decide)]

theorem bnAt_congr {X Y : Valuation τ sig (Elt Ideal)}
    (h : ∀ b ∈ inputs, X (Proc.devRef .tc b) = Y (Proc.devRef .tc b)) (z : Mat 50000 128) (ℓ : Fin 3) :
    bnAt X z ℓ = bnAt Y z ℓ := by
  unfold bnAt
  rw [h main_v1 (by decide), h main_v3 (by decide), h main_arg9 (by decide), h main_arg10 (by decide)]

-- Each layer's exit is the specification's layer of its entry, read at inputs no layer changes; the first boundary holds the launch arguments.
theorem knet (c : Dev nD) (hs : SrcVecOk (srcOf (m ((c : Thread nD τ).loc main_arg1)))) :
    cur (W45 m ρ c (Proc.devRef .tc main_v151))
      = net (ΦK (srcOf (m ((c : Thread nD τ).loc main_arg1))) (dstOf (m ((c : Thread nD τ).loc main_arg1))))
          (cur (m ((c : Thread nD τ).loc main_arg0))) (cur (m ((c : Thread nD τ).loc main_arg2)))
          (fun i => slab (m ((c : Thread nD τ).loc main_arg3)) i) (fun i => prow (m ((c : Thread nD τ).loc main_arg4)) i) (fun i => prow (m ((c : Thread nD τ).loc main_arg5)) i)
          (fun i => prow (m ((c : Thread nD τ).loc main_arg6)) i) (fun i => slab (m ((c : Thread nD τ).loc main_arg7)) i) (fun i => prow (m ((c : Thread nD τ).loc main_arg8)) i)
          (fun i => prow (m ((c : Thread nD τ).loc main_arg9)) i) (fun i => prow (m ((c : Thread nD τ).loc main_arg10)) i) := by
  have k0 : ∀ b ∈ inputs, W13 m ρ c (Proc.devRef .tc b) = W1 m ρ c (Proc.devRef .tc b) := L0.keep0 m ρ c
  have k1 : ∀ b ∈ inputs, W25 m ρ c (Proc.devRef .tc b) = W13 m ρ c (Proc.devRef .tc b) := L1.keep1 m ρ c
  have k2 : ∀ b ∈ inputs, W37 m ρ c (Proc.devRef .tc b) = W25 m ρ c (Proc.devRef .tc b) := L2.keep2 m ρ c
  have s25 : ∀ b ∈ inputs, W25 m ρ c (Proc.devRef .tc b) = W1 m ρ c (Proc.devRef .tc b) := fun b hb => (k1 b hb).trans (k0 b hb)
  have s37 : ∀ b ∈ inputs, W37 m ρ c (Proc.devRef .tc b) = W1 m ρ c (Proc.devRef .tc b) := fun b hb => (k2 b hb).trans (s25 b hb)
  have hs0 : SrcVecOk (W1 m ρ c (Proc.devRef .tc main_v1)) := by rw [W1_src m ρ c]; exact hs
  have e0 : cur (W13 m ρ c (Proc.devRef .tc main_v43)) = bnAt (W1 m ρ c) (layerAt (W1 m ρ c) (cur (W1 m ρ c (Proc.devRef .tc main_arg0))) 0) 0 :=
    L0.layer0 m ρ c hs0
  have e1 : cur (W25 m ρ c (Proc.devRef .tc main_v83)) = bnAt (W13 m ρ c) (layerAt (W13 m ρ c) (cur (W13 m ρ c (Proc.devRef .tc main_v43))) 1) 1 :=
    L1.layer1 m ρ c (by rw [k0 main_v1 (by decide)]; exact hs0)
  have e2 : cur (W37 m ρ c (Proc.devRef .tc main_v123)) = bnAt (W25 m ρ c) (layerAt (W25 m ρ c) (cur (W25 m ρ c (Proc.devRef .tc main_v83))) 2) 2 :=
    L2.layer2 m ρ c (by rw [s25 main_v1 (by decide)]; exact hs0)
  have e3 : cur (W45 m ρ c (Proc.devRef .tc main_v151)) = layerAt (W37 m ρ c) (cur (W37 m ρ c (Proc.devRef .tc main_v123))) 3 :=
    L3.layer3 m ρ c (by rw [s37 main_v1 (by decide)]; exact hs0)
  rw [e3, e2, e1, e0, layerAt_congr s37, layerAt_congr s25, bnAt_congr s25, layerAt_congr k0, bnAt_congr k0]
  unfold layerAt bnAt
  rw [W1_src m ρ c, W1_dst m ρ c, W1_arg m ρ c (b := main_arg0) (by decide), W1_arg m ρ c (b := main_arg2) (by decide),
    W1_arg m ρ c (b := main_arg3) (by decide), W1_arg m ρ c (b := main_arg4) (by decide), W1_arg m ρ c (b := main_arg5) (by decide),
    W1_arg m ρ c (b := main_arg6) (by decide), W1_arg m ρ c (b := main_arg7) (by decide), W1_arg m ρ c (b := main_arg8) (by decide),
    W1_arg m ρ c (b := main_arg9) (by decide), W1_arg m ρ c (b := main_arg10) (by decide)]
  rfl

end KernelSide

section Both

open Idealize.ShloMosaic.TcCoe Idealize.SL.Sem

theorem value_bridge (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) = fun _ => 1#1)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    StableHlo.after (Cert.ReferenceIdeal.RefRun.ops (F := Ideal)) (StableHlo.launchContents m' c) (Proc.devRef .tc Cert.ReferenceIdeal.main_v288)
      = Cert.KernelIdeal.Gen.W45 m g c (Proc.devRef .tc Cert.KernelIdeal.main_v151) := by
  have hs := Cert.PreSrc.srcVecOk_of_pre _ _ _ _ _ _ _ _ _ _ _ hpre
  obtain ⟨a0, a1, a2, a3, a4, a5, a6, a7, a8, a9, a10⟩ := hagree
  refine eq_of_cur_eq ?_
  refine (Cert.ReferenceIdeal.Val.rnet (StableHlo.launchContents m' c)).trans ((?_ : _ = _).trans (knet m g c hs).symm)
  show net (Cert.ReferenceIdeal.Val.ΦR (Cert.ReferenceIdeal.Val.srcOf (m' ((c.tc : Thread Cert.ReferenceIdeal.nD Cert.ReferenceIdeal.τ).loc Cert.ReferenceIdeal.main_arg1))) (Cert.ReferenceIdeal.Val.dstOf (m' ((c.tc : Thread Cert.ReferenceIdeal.nD Cert.ReferenceIdeal.τ).loc Cert.ReferenceIdeal.main_arg1))))
          (cur (m' ((c.tc : Thread Cert.ReferenceIdeal.nD Cert.ReferenceIdeal.τ).loc Cert.ReferenceIdeal.main_arg0))) (cur (m' ((c.tc : Thread Cert.ReferenceIdeal.nD Cert.ReferenceIdeal.τ).loc Cert.ReferenceIdeal.main_arg2)))
          (fun i => slab (m' ((c.tc : Thread Cert.ReferenceIdeal.nD Cert.ReferenceIdeal.τ).loc Cert.ReferenceIdeal.main_arg3)) i) (fun i => prow (m' ((c.tc : Thread Cert.ReferenceIdeal.nD Cert.ReferenceIdeal.τ).loc Cert.ReferenceIdeal.main_arg4)) i) (fun i => prow (m' ((c.tc : Thread Cert.ReferenceIdeal.nD Cert.ReferenceIdeal.τ).loc Cert.ReferenceIdeal.main_arg5)) i)
          (fun i => prow (m' ((c.tc : Thread Cert.ReferenceIdeal.nD Cert.ReferenceIdeal.τ).loc Cert.ReferenceIdeal.main_arg6)) i) (fun i => slab (m' ((c.tc : Thread Cert.ReferenceIdeal.nD Cert.ReferenceIdeal.τ).loc Cert.ReferenceIdeal.main_arg7)) i) (fun i => prow (m' ((c.tc : Thread Cert.ReferenceIdeal.nD Cert.ReferenceIdeal.τ).loc Cert.ReferenceIdeal.main_arg8)) i)
          (fun i => prow (m' ((c.tc : Thread Cert.ReferenceIdeal.nD Cert.ReferenceIdeal.τ).loc Cert.ReferenceIdeal.main_arg9)) i) (fun i => prow (m' ((c.tc : Thread Cert.ReferenceIdeal.nD Cert.ReferenceIdeal.τ).loc Cert.ReferenceIdeal.main_arg10)) i) = _
  rw [a0, a1, a2, a3, a4, a5, a6, a7, a8, a9, a10]
  rfl

end Both

end Cert.Bridge

end
-- ==== Proof.lean ====
import proofs.«411739_j18880676233357_1_alg».proof.Defs
import proofs.«411739_j18880676233357_1_alg».proof.Proof.Gen.Kernel
import proofs.«411739_j18880676233357_1_alg».proof.Proof.Gen.Kernel.Skeleton
import proofs.«411739_j18880676233357_1_alg».proof.Proof.Gen.Kernel.Launch
import proofs.«411739_j18880676233357_1_alg».proof.Proof.Gen.Kernel.Points
import proofs.«411739_j18880676233357_1_alg».proof.Proof.Gen.Kernel.Frame
import proofs.«411739_j18880676233357_1_alg».proof.Proof.Gen.KernelIdeal
import proofs.«411739_j18880676233357_1_alg».proof.Proof.Gen.KernelIdeal.Skeleton
import proofs.«411739_j18880676233357_1_alg».proof.Proof.Gen.KernelIdeal.Launch
import proofs.«411739_j18880676233357_1_alg».proof.Proof.Gen.KernelIdeal.Points
import proofs.«411739_j18880676233357_1_alg».proof.Proof.Gen.KernelIdeal.Frame
import proofs.«411739_j18880676233357_1_alg».proof.Proof.Gen.ReferenceIdeal
import proofs.«411739_j18880676233357_1_alg».proof.Proof.Gen.Pre_finite_inputs
import Idealize.ShloMosaic.Adequacy
import Idealize.ShloMosaic.Init
import proofs.«411739_j18880676233357_1_alg».proof.Proof.KRun
import proofs.«411739_j18880676233357_1_alg».proof.Proof.RRun
import proofs.«411739_j18880676233357_1_alg».proof.Proof.Bridge

noncomputable section

namespace Cert.Proof

open Idealize.ShloMosaic Idealize.ShloMosaic.TcCoe Idealize.SL.Sem Cert.ReferenceIdeal.RefRun

theorem frame_k : Cert.frame_Kernel := fun m ρ _ => Cert.Kernel.Gen.frame m ρ

theorem frame_ki : Cert.frame_KernelIdeal := fun m ρ _ => Cert.KernelIdeal.Gen.frame m ρ

-- The reference is one straight line of host operations, none of which writes an argument.
theorem frame_ri : Cert.frame_ReferenceIdeal := fun m ρ _ =>
  (θ_run Cert.ReferenceIdeal.defs _ _).mono (fun _ h c => by
    refine ⟨?_, ?_, ?_, ?_, ?_, ?_, ?_, ?_, ?_, ?_, ?_⟩ <;> exact (h c _).trans (arg_kept _ _ (by decide)))
    (run_main (F := Ideal) m ρ)

theorem preserves : Cert.preserves_Kernel_KernelIdeal := trivial

-- Both results are the same network of the arguments, which agree.
theorem algebraic : Cert.algebraic_KernelIdeal_ReferenceIdeal := fun m g m' g' hpre hagree =>
  ⟨fun c => Cert.KernelIdeal.Gen.W45 m g c (Proc.devRef .tc Cert.KernelIdeal.main_v151), Cert.KernelIdeal.Gen.run_value m g,
    (θ_run Cert.ReferenceIdeal.defs _ _).mono (fun _ h c => by
      refine ⟨(h c _).trans (Cert.Bridge.value_bridge m g m' c (hpre c) (hagree c)), ?_, ?_, ?_, ?_, ?_, ?_, ?_, ?_, ?_, ?_, ?_⟩ <;>
        exact (h c _).trans (arg_kept _ _ (by decide)))
      (run_main (F := Ideal) m' g')⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
